-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg2 : IVec S100000 32) (main_arg9 : FVec F S64x2 .f32) (main_arg10 : FVec F S2 .f32) (main_v33 : IVec S_ 1) : IVec S_ 1 :=
  let main_v34 : FVec F S64x2 .f32 := Host.absf main_arg9
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S100000 32 := broadcastInDim S100000 ![] bcast_S_S100000 main_c_16
  let main_v45 : IVec S100000 1 := cmpi .sge main_arg2 main_v44
  let main_c_17 : IVec S_ 32 := constantI S_ 32 64#32
  let main_v46 : IVec S100000 32 := broadcastInDim S100000 ![] bcast_S_S100000 main_c_17
  let main_v47 : IVec S100000 1 := cmpi .slt main_arg2 main_v46
  let main_v48 : IVec S100000 1 := andi main_v45 main_v47
  let main_c_18 : IVec S_ 1 := constantI S_ 1 1#1
  let main_v49 : IVec S_ 1 := (fun x v => Host.reduce IntOp.andi x v reducesTo_S100000_S_d0 h_S_) main_v48 main_c_18
  let main_v50 : IVec S_ 1 := andi main_v43 main_v49
  main_v50

def fn_part1 {F : FTy → Type} [FloatOps F] (main_arg2 : IVec S100000 32) (main_arg6 : FVec F S4x128 .f32) (main_arg7 : FVec F S128x64 .f32) (main_arg8 : FVec F S64 .f32) (main_arg9 : FVec F S64x2 .f32) (main_arg10 : FVec F S2 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_v33

def fn {F : FTy → Type} [FloatOps F] (main_arg0 : FVec F S100000x128 .f32) (main_arg1 : IVec S2x600000 32) (main_arg2 : IVec S100000 32) (main_arg3 : FVec F S4x128x128 .f32) (main_arg4 : FVec F S4x128 .f32) (main_arg5 : FVec F S4x128 .f32) (main_arg6 : FVec F S4x128 .f32) (main_arg7 : FVec F S128x64 .f32) (main_arg8 : FVec F S64 .f32) (main_arg9 : FVec F S64x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg2 main_arg6 main_arg7 main_arg8 main_arg9 main_arg10 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S700000x128 : Shape := ⟨2, ![700000, 128]⟩
abbrev S100000x64 : Shape := ⟨2, ![100000, 64]⟩
abbrev S100000x1 : Shape := ⟨2, ![100000, 1]⟩
abbrev S64x128 : Shape := ⟨2, ![64, 128]⟩
abbrev S4000x64 : Shape := ⟨2, ![4000, 64]⟩
abbrev S64x1 : Shape := ⟨2, ![64, 1]⟩
abbrev S1x64 : Shape := ⟨2, ![1, 64]⟩
abbrev S1x2 : Shape := ⟨2, ![1, 2]⟩
abbrev S64x64 : Shape := ⟨2, ![64, 64]⟩

abbrev nBuf : Space → Nat
  | .hbm => 240
  | .vmem => 91
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S128x64, .f32⟩
  | 8 => ⟨S64, .f32⟩
  | 9 => ⟨S64x2, .f32⟩
  | 10 => ⟨S2, .f32⟩
  | 11 => ⟨S100000, .i32⟩
  | 12 => ⟨S1x600000, .i32⟩
  | 13 => ⟨S600000, .i32⟩
  | 14 => ⟨S700000, .i32⟩
  | 15 => ⟨S1x600000, .i32⟩
  | 16 => ⟨S600000, .i32⟩
  | 17 => ⟨S700000, .i32⟩
  | 18 => ⟨S_, .f32⟩
  | 19 => ⟨S700000, .f32⟩
  | 20 => ⟨S_, .f32⟩
  | 21 => ⟨S100000, .f32⟩
  | 22 => ⟨S700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S700000x1, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S100000x128, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000x128, .f32⟩
  | 70 => ⟨S700000x128, .f32⟩
  | 71 => ⟨S700000x128, .f32⟩
  | 72 => ⟨S_, .f32⟩
  | 73 => ⟨S100000x128, .f32⟩
  | 74 => ⟨S700000x1, .i32⟩
  | 75 => ⟨S100000x128, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S_, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S100000x128, .f32⟩
  | 93 => ⟨S1x128x128, .f32⟩
  | 94 => ⟨S128x128, .f32⟩
  | 95 => ⟨S1x128, .f32⟩
  | 96 => ⟨S128, .f32⟩
  | 97 => ⟨S1x128, .f32⟩
  | 98 => ⟨S100000x128, .f32⟩
  | 99 => ⟨S_, .i32⟩
  | 100 => ⟨S700000, .i32⟩
  | 101 => ⟨S700000, .i1⟩
  | 102 => ⟨S_, .i32⟩
  | 103 => ⟨S700000, .i32⟩
  | 104 => ⟨S700000, .i32⟩
  | 105 => ⟨S700000, .i32⟩
  | 106 => ⟨S700000x1, .i32⟩
  | 107 => ⟨S700000x128, .f32⟩
  | 108 => ⟨S700000x128, .f32⟩
  | 109 => ⟨S700000x128, .f32⟩
  | 110 => ⟨S_, .f32⟩
  | 111 => ⟨S100000x128, .f32⟩
  | 112 => ⟨S700000x1, .i32⟩
  | 113 => ⟨S100000x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S128, .f32⟩
  | 126 => ⟨S1x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S100000x128, .f32⟩
  | 9 => ⟨S_, .i32⟩
  | 10 => ⟨S700000, .i32⟩
  | 11 => ⟨S700000, .i1⟩
  | 12 => ⟨S_, .i32⟩
  | 13 => ⟨S700000, .i32⟩
  | 14 => ⟨S700000, .i32⟩
  | 15 => ⟨S700000, .i32⟩
  | 16 => ⟨S700000x1, .i32⟩
  | 17 => ⟨S700000x128, .f32⟩
  | 18 => ⟨S700000x128, .f32⟩
  | 19 => ⟨S700000x128, .f32⟩
  | 20 => ⟨S_, .f32⟩
  | 21 => ⟨S100000x128, .f32⟩
  | 22 => ⟨S700000x1, .i32⟩
  | 23 => ⟨S100000x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S128, .f32⟩
  | 36 => ⟨S1x128, .f32⟩
  | 37 => ⟨S1x128, .f32⟩
  | 38 => ⟨S128, .f32⟩
  | 39 => ⟨S1x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S100000x128, .f32⟩
  | 47 => ⟨S_, .i32⟩
  | 48 => ⟨S700000, .i32⟩
  | 49 => ⟨S700000, .i1⟩
  | 50 => ⟨S_, .i32⟩
  | 51 => ⟨S700000, .i32⟩
  | 52 => ⟨S700000, .i32⟩
  | 53 => ⟨S700000, .i32⟩
  | 54 => ⟨S700000x1, .i32⟩
  | 55 => ⟨S700000x128, .f32⟩
  | 56 => ⟨S700000x128, .f32⟩
  | 57 => ⟨S700000x128, .f32⟩
  | 58 => ⟨S_, .f32⟩
  | 59 => ⟨S100000x128, .f32⟩
  | 60 => ⟨S700000x1, .i32⟩
  | 61 => ⟨S100000x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S1x128, .f32⟩
  | 72 => ⟨S1x128, .f32⟩
  | 73 => ⟨S128, .f32⟩
  | 74 => ⟨S1x128, .f32⟩
  | 75 => ⟨S1x128, .f32⟩
  | 76 => ⟨S128, .f32⟩
  | 77 => ⟨S1x128, .f32⟩
  | 78 => ⟨S100000x128, .f32⟩
  | 79 => ⟨S100000x64, .i32⟩
  | 80 => ⟨S100000x1, .i32⟩
  | 81 => ⟨S100000x64, .i32⟩
  | 82 => ⟨S100000x64, .i1⟩
  | 83 => ⟨S100000x64, .f32⟩
  | 84 => ⟨S64x128, .f32⟩
  | 85 => ⟨S_, .i32⟩
  | 86 => ⟨S64, .i32⟩
  | 87 => ⟨S_, .i32⟩
  | 88 => ⟨S_, .i32⟩
  | 89 => ⟨S100000, .i32⟩
  | 90 => ⟨S100000, .i32⟩
  | 91 => ⟨S_, .i32⟩
  | 92 => ⟨S100000, .i32⟩
  | 93 => ⟨S100000, .i1⟩
  | 94 => ⟨S_, .i32⟩
  | 95 => ⟨S100000, .i32⟩
  | 96 => ⟨S100000, .i32⟩
  | 97 => ⟨S100000, .i32⟩
  | 98 => ⟨S100000x1, .i32⟩
  | 99 => ⟨S_, .i32⟩
  | 100 => ⟨S100000, .i32⟩
  | 101 => ⟨S64, .i32⟩
  | 102 => ⟨S64, .f32⟩
  | 103 => ⟨S_, .f32⟩
  | 104 => ⟨S64, .f32⟩
  | 105 => ⟨S64, .f32⟩
  | 106 => ⟨S64x1, .f32⟩
  | 107 => ⟨S64x128, .f32⟩
  | 108 => ⟨S64x128, .f32⟩
  | 109 => ⟨S1x64, .f32⟩
  | 110 => ⟨S1x2, .f32⟩
  | 111 => ⟨S64x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S1x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .f32⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S128x128, .f32⟩
  | .local _ .vmem, ⟨43, _⟩ => ⟨S1x128, .f32⟩
  | .local _ .vmem, ⟨44, _⟩ => ⟨S4000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S1x128, .f32⟩
  | .local _ .vmem, ⟨49, _⟩ => ⟨S1x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S4000x128, .f32⟩
  | .local _ .vmem, ⟨59, _⟩ => ⟨S4000x128, .f32⟩
  | .local _ .vmem, ⟨60, _⟩ => ⟨S4000x128, .f32⟩
  | .local _ .vmem, ⟨61, _⟩ => ⟨S4000x128, .f32⟩
  | .local _ .vmem, ⟨62, _⟩ => ⟨S128x128, .f32⟩
  | .local _ .vmem, ⟨63, _⟩ => ⟨S1x128, .f32⟩
  | .local _ .vmem, ⟨64, _⟩ => ⟨S4000x128, .f32⟩
  | .local _ .vmem, ⟨65, _⟩ => ⟨S4000x128, .f32⟩
  | .local _ .vmem, ⟨66, _⟩ => ⟨S4000x128, .f32⟩
  | .local _ .vmem, ⟨67, _⟩ => ⟨S4000x128, .f32⟩
  | .local _ .vmem, ⟨68, _⟩ => ⟨S1x128, .f32⟩
  | .local _ .vmem, ⟨69, _⟩ => ⟨S1x128, .f32⟩
  | .local _ .vmem, ⟨70, _⟩ => ⟨S4000x128, .f32⟩
  | .local _ .vmem, ⟨71, _⟩ => ⟨S4000x128, .f32⟩
  | .local _ .vmem, ⟨72, _⟩ => ⟨S4000x128, .f32⟩
  | .local _ .vmem, ⟨73, _⟩ => ⟨S4000x128, .f32⟩
  | .local _ .vmem, ⟨74, _⟩ => ⟨S1x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S4000x128, .f32⟩
  | .local _ .vmem, ⟨79, _⟩ => ⟨S4000x128, .f32⟩
  | .local _ .vmem, ⟨80, _⟩ => ⟨S4000x64, .f32⟩
  | .local _ .vmem, ⟨81, _⟩ => ⟨S4000x64, .f32⟩
  | .local _ .vmem, ⟨82, _⟩ => ⟨S4000x128, .f32⟩
  | .local _ .vmem, ⟨83, _⟩ => ⟨S4000x128, .f32⟩
  | .local _ .vmem, ⟨84, _⟩ => ⟨S64x128, .f32⟩
  | .local _ .vmem, ⟨85, _⟩ => ⟨S64x128, .f32⟩
  | .local _ .vmem, ⟨86, _⟩ => ⟨S128x64, .f32⟩
  | .local _ .vmem, ⟨87, _⟩ => ⟨S1x64, .f32⟩
  | .local _ .vmem, ⟨88, _⟩ => ⟨S64x2, .f32⟩
  | .local _ .vmem, ⟨89, _⟩ => ⟨S1x2, .f32⟩
  | .local _ .vmem, ⟨90, _⟩ => ⟨S64x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | _, _ => false

abbrev semScoped : Fin 0 → Bool
  | ⟨_, h⟩ => absurd h (Nat.not_lt_zero _)

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  ofTc nBuf bufTy 0 91 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_12 : Ref sig .tc := ⟨.hbm, 99, rfl⟩
abbrev main_v71 : Ref sig .tc := ⟨.hbm, 100, rfl⟩
abbrev main_v72 : Ref sig .tc := ⟨.hbm, 101, rfl⟩
abbrev main_c_13 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83_0 : Ref sig .tc := ⟨.hbm, 114, rfl⟩
abbrev main_v83_1 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_17 : Ref sig .tc := ⟨.hbm, 137, rfl⟩
abbrev main_v103 : Ref sig .tc := ⟨.hbm, 138, rfl⟩
abbrev main_v104 : Ref sig .tc := ⟨.hbm, 139, rfl⟩
abbrev main_c_18 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_19 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115_0 : Ref sig .tc := ⟨.hbm, 152, rfl⟩
abbrev main_v115_1 : Ref sig .tc := ⟨.hbm, 153, rfl⟩
abbrev main_cst_20 : Ref sig .tc := ⟨.hbm, 154, rfl⟩
abbrev main_v116 : Ref sig .tc := ⟨.hbm, 155, rfl⟩
abbrev main_v117 : Ref sig .tc := ⟨.hbm, 156, rfl⟩
abbrev main_cst_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_c_22 : Ref sig .tc := ⟨.hbm, 175, rfl⟩
abbrev main_v135 : Ref sig .tc := ⟨.hbm, 176, rfl⟩
abbrev main_v136 : Ref sig .tc := ⟨.hbm, 177, rfl⟩
abbrev main_c_23 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_24 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147_0 : Ref sig .tc := ⟨.hbm, 190, rfl⟩
abbrev main_v147_1 : Ref sig .tc := ⟨.hbm, 191, rfl⟩
abbrev main_cst_25 : Ref sig .tc := ⟨.hbm, 192, rfl⟩
abbrev main_v148 : Ref sig .tc := ⟨.hbm, 193, rfl⟩
abbrev main_v149 : Ref sig .tc := ⟨.hbm, 194, rfl⟩
abbrev main_cst_26 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_c_27 : Ref sig .tc := ⟨.hbm, 213, rfl⟩
abbrev main_v167 : Ref sig .tc := ⟨.hbm, 214, rfl⟩
abbrev main_c_28 : Ref sig .tc := ⟨.hbm, 215, rfl⟩
abbrev main_call1_v0 : Ref sig .tc := ⟨.hbm, 216, rfl⟩
abbrev main_call1_v1 : Ref sig .tc := ⟨.hbm, 217, rfl⟩
abbrev main_v168 : Ref sig .tc := ⟨.hbm, 218, rfl⟩
abbrev main_c_29 : Ref sig .tc := ⟨.hbm, 219, rfl⟩
abbrev main_v169 : Ref sig .tc := ⟨.hbm, 220, rfl⟩
abbrev main_v170 : Ref sig .tc := ⟨.hbm, 221, rfl⟩
abbrev main_c_30 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_c_31 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_cst_32 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg6_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc8_stg0_0 : Ref sig .tc := ⟨.vmem, 50, rfl⟩
abbrev cc8_stg0_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg3_0 : Ref sig .tc := ⟨.vmem, 55, rfl⟩
abbrev cc8_stg4_0 : Ref sig .tc := ⟨.vmem, 56, rfl⟩
abbrev cc8_stg5_0 : Ref sig .tc := ⟨.vmem, 57, rfl⟩
abbrev cc8_stg6_0 : Ref sig .tc := ⟨.vmem, 58, rfl⟩
abbrev cc8_stg6_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc11_stg0_0 : Ref sig .tc := ⟨.vmem, 70, rfl⟩
abbrev cc11_stg0_1 : Ref sig .tc := ⟨.vmem, 71, rfl⟩
abbrev cc11_stg1_0 : Ref sig .tc := ⟨.vmem, 72, rfl⟩
abbrev cc11_stg1_1 : Ref sig .tc := ⟨.vmem, 73, rfl⟩
abbrev cc11_stg2_0 : Ref sig .tc := ⟨.vmem, 74, rfl⟩
abbrev cc11_stg3_0 : Ref sig .tc := ⟨.vmem, 75, rfl⟩
abbrev cc11_stg4_0 : Ref sig .tc := ⟨.vmem, 76, rfl⟩
abbrev cc11_stg5_0 : Ref sig .tc := ⟨.vmem, 77, rfl⟩
abbrev cc11_stg6_0 : Ref sig .tc := ⟨.vmem, 78, rfl⟩
abbrev cc11_stg6_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc13_stg0_0 : Ref sig .tc := ⟨.vmem, 85, rfl⟩
abbrev cc13_stg1_0 : Ref sig .tc := ⟨.vmem, 86, rfl⟩
abbrev cc13_stg2_0 : Ref sig .tc := ⟨.vmem, 87, rfl⟩
abbrev cc13_stg3_0 : Ref sig .tc := ⟨.vmem, 88, rfl⟩
abbrev cc13_stg4_0 : Ref sig .tc := ⟨.vmem, 89, rfl⟩
abbrev cc13_stg5_0 : Ref sig .tc := ⟨.vmem, 90, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc8_sem0_0 : DmaSem sig := 50
abbrev cc8_sem0_1 : DmaSem sig := 51
abbrev cc8_sem1_0 : DmaSem sig := 52
abbrev cc8_sem1_1 : DmaSem sig := 53
abbrev cc8_sem2_0 : DmaSem sig := 54
abbrev cc8_sem3_0 : DmaSem sig := 55
abbrev cc8_sem4_0 : DmaSem sig := 56
abbrev cc8_sem5_0 : DmaSem sig := 57
abbrev cc8_sem6_0 : DmaSem sig := 58
abbrev cc8_sem6_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc11_sem0_0 : DmaSem sig := 70
abbrev cc11_sem0_1 : DmaSem sig := 71
abbrev cc11_sem1_0 : DmaSem sig := 72
abbrev cc11_sem1_1 : DmaSem sig := 73
abbrev cc11_sem2_0 : DmaSem sig := 74
abbrev cc11_sem3_0 : DmaSem sig := 75
abbrev cc11_sem4_0 : DmaSem sig := 76
abbrev cc11_sem5_0 : DmaSem sig := 77
abbrev cc11_sem6_0 : DmaSem sig := 78
abbrev cc11_sem6_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc13_sem0_0 : DmaSem sig := 85
abbrev cc13_sem1_0 : DmaSem sig := 86
abbrev cc13_sem2_0 : DmaSem sig := 87
abbrev cc13_sem3_0 : DmaSem sig := 88
abbrev cc13_sem4_0 : DmaSem sig := 89
abbrev cc13_sem5_0 : DmaSem sig := 90

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S4000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S64x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![1], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 1 → Memref sig .tc .vmem S64x128 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![false]

abbrev stage13_1 : Fin 1 → Memref sig .tc .vmem S128x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S64x2 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x2 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S64x2 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S4000x128_S4000x128 : S4000x128.ShapeCasts S4000x128
  reduces_S4000x128_S128 : S4000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  shapeCasts_S100000_S100000x1 : S100000.ShapeCasts S100000x1
  bcast_S100000x1_S100000x64_0_1 : S100000x1.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  shapeCasts_S64x128_S64x128 : S64x128.ShapeCasts S64x128
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S4000x128_S128x128_S4000x128_1_0_0_1_n_n_wf : DotDims.WF S4000x128 S128x128 S4000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S4000x64_S4000x128_S64x128_0_0_1_1_n_n_wf : DotDims.WF S4000x64 S4000x128 S64x128 [0] [0] [1] [1] [] []
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x128.size a ≤ S100000x128.size a
  hwx6_3 : ∀ i : grid6.Coords, EltTy.bits .f32 = 32 ∨ (Rect.block (s := S100000x128) S4000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S100000x128.size a
  hwx8_1 : ∀ i : grid8.Coords, EltTy.bits .f32 = 32 ∨ (Rect.block (s := S100000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4000x128.size a ≤ S100000x128.size a
  hwx8_6 : ∀ i : grid8.Coords, EltTy.bits .f32 = 32 ∨ (Rect.block (s := S100000x128) S4000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4000x128.size a ≤ S100000x128.size a
  hwx9_3 : ∀ i : grid9.Coords, EltTy.bits .f32 = 32 ∨ (Rect.block (s := S100000x128) S4000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S100000x128.size a
  hwx10_0 : ∀ i : grid10.Coords, EltTy.bits .f32 = 32 ∨ (Rect.block (s := S100000x128) S4000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S100000x128.size a
  hwx11_0 : ∀ i : grid11.Coords, EltTy.bits .f32 = 32 ∨ (Rect.block (s := S100000x128) S4000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x128.size a ≤ S100000x128.size a
  hwx11_1 : ∀ i : grid11.Coords, EltTy.bits .f32 = 32 ∨ (Rect.block (s := S100000x128) S4000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S4000x128.size a ≤ S100000x128.size a
  hwx11_6 : ∀ i : grid11.Coords, EltTy.bits .f32 = 32 ∨ (Rect.block (s := S100000x128) S4000x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S100000x64.size a
  hwx12_0 : ∀ i : grid12.Coords, EltTy.bits .f32 = 32 ∨ (Rect.block (s := S100000x64) S4000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x128.size a ≤ S100000x128.size a
  hwx12_1 : ∀ i : grid12.Coords, EltTy.bits .f32 = 32 ∨ (Rect.block (s := S100000x128) S4000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S64x128.size a ≤ S64x128.size a
  hwx12_2 : ∀ i : grid12.Coords, EltTy.bits .f32 = 32 ∨ (Rect.block (s := S64x128) S64x128.size (cc12_transform_2 i) (hinb12_2 i)).WholeWords (EltTy.packing .f32)
  hrank13 : 0 < grid13.rank
  hstage13_0 : ∀ j, (stage13_0 j).IsWhole
  nbuf13_0 : grid13.bufCount reads13_0 true = 1
  hreads13_0 : ∀ i i' : grid13.Coords, (∀ a, reads13_0 a = true → i a = i' a) → cc13_transform_0 i = cc13_transform_0 i'
  hinb13_0 : ∀ (i : grid13.Coords) a, (cc13_transform_0 i a + 1) * S64x128.size a ≤ S64x128.size a
  hwx13_0 : ∀ i : grid13.Coords, EltTy.bits .f32 = 32 ∨ (Rect.block (s := S64x128) S64x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x64.size a ≤ S128x64.size a
  hwx13_1 : ∀ i : grid13.Coords, EltTy.bits .f32 = 32 ∨ (Rect.block (s := S128x64) S128x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x64.size a ≤ S1x64.size a
  hwx13_2 : ∀ i : grid13.Coords, EltTy.bits .f32 = 32 ∨ (Rect.block (s := S1x64) S1x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S64x2.size a ≤ S64x2.size a
  hwx13_3 : ∀ i : grid13.Coords, EltTy.bits .f32 = 32 ∨ (Rect.block (s := S64x2) S64x2.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x2.size a ≤ S1x2.size a
  hwx13_4 : ∀ i : grid13.Coords, EltTy.bits .f32 = 32 ∨ (Rect.block (s := S1x2) S1x2.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S64x2.size a ≤ S64x2.size a
  hwx13_5 : ∀ i : grid13.Coords, EltTy.bits .f32 = 32 ∨ (Rect.block (s := S64x2) S64x2.size (cc13_transform_5 i) (hinb13_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v64) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v82) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v82) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v95) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v96) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v96) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v101) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S4000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v114) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v114) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v96) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v121) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v124) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v127) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v128) S4000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v128) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v130) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v134) S4000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v146) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v147_0) S1x128.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v147_1) S1x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v146) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v128) S4000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v149) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v153) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v156) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v159) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v160) S4000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v165) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v160) S4000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v166) S64x128.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v182) S64x128.size cc13_transform_0 reads13_0 false true 1 stage13_0 sem13_0
    hrank13 hreads13_0 hinb13_0 nbuf13_0 (Memref.isWhole_whole _) hwx13_0 hstage13_0

abbrev win13_1 : Pipeline.Window sig grid13 :=
  Pipeline.Window.ofSpec (Memref.whole main_arg7) S128x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v183) S1x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg9) S64x2.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v184) S1x2.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v185) S64x2.size cc13_transform_5 reads13_5 true true 1 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S4x128x128 : Shape := ⟨3, ![4, 128, 128]⟩
abbrev S4x128 : Shape := ⟨2, ![4, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S700000x128 : Shape := ⟨2, ![700000, 128]⟩
abbrev S64x128 : Shape := ⟨2, ![64, 128]⟩
abbrev S100000x1 : Shape := ⟨2, ![100000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 382
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S4x128x128, .f32⟩
  | 4 => ⟨S4x128, .f32⟩
  | 5 => ⟨S4x128, .f32⟩
  | 6 => ⟨S4x128, .f32⟩
  | 7 => ⟨S128x64, .f32⟩
  | 8 => ⟨S64, .f32⟩
  | 9 => ⟨S64x2, .f32⟩
  | 10 => ⟨S2, .f32⟩
  | 11 => ⟨S100000, .i32⟩
  | 12 => ⟨S1x600000, .i32⟩
  | 13 => ⟨S600000, .i32⟩
  | 14 => ⟨S700000, .i32⟩
  | 15 => ⟨S1x600000, .i32⟩
  | 16 => ⟨S600000, .i32⟩
  | 17 => ⟨S700000, .i32⟩
  | 18 => ⟨S_, .f32⟩
  | 19 => ⟨S700000, .f32⟩
  | 20 => ⟨S_, .f32⟩
  | 21 => ⟨S100000, .f32⟩
  | 22 => ⟨S700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S700000x1, .f32⟩
  | 55 => ⟨S1x128x128, .f32⟩
  | 56 => ⟨S128x128, .f32⟩
  | 57 => ⟨S100000x128, .f32⟩
  | 58 => ⟨S1x128, .f32⟩
  | 59 => ⟨S128, .f32⟩
  | 60 => ⟨S1x128, .f32⟩
  | 61 => ⟨S100000x128, .f32⟩
  | 62 => ⟨S100000x128, .f32⟩
  | 63 => ⟨S_, .i32⟩
  | 64 => ⟨S700000, .i32⟩
  | 65 => ⟨S700000, .i1⟩
  | 66 => ⟨S_, .i32⟩
  | 67 => ⟨S700000, .i32⟩
  | 68 => ⟨S700000, .i32⟩
  | 69 => ⟨S700000, .i32⟩
  | 70 => ⟨S700000x1, .i32⟩
  | 71 => ⟨S700000x128, .f32⟩
  | 72 => ⟨S700000x128, .f32⟩
  | 73 => ⟨S700000x128, .f32⟩
  | 74 => ⟨S_, .f32⟩
  | 75 => ⟨S100000x128, .f32⟩
  | 76 => ⟨S700000x1, .i32⟩
  | 77 => ⟨S100000x128, .f32⟩
  | 78 => ⟨S_, .f32⟩
  | 79 => ⟨S128, .f32⟩
  | 80 => ⟨S_, .f32⟩
  | 81 => ⟨S128, .f32⟩
  | 82 => ⟨S128, .f32⟩
  | 83 => ⟨S_, .i32⟩
  | 84 => ⟨S_, .f32⟩
  | 85 => ⟨S128, .f32⟩
  | 86 => ⟨S1x128, .f32⟩
  | 87 => ⟨S_, .f32⟩
  | 88 => ⟨S1x128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S_, .f32⟩
  | 95 => ⟨S_, .f32⟩
  | 96 => ⟨S_, .f32⟩
  | 97 => ⟨S128, .f32⟩
  | 98 => ⟨S128, .f32⟩
  | 99 => ⟨S128, .f32⟩
  | 100 => ⟨S_, .f32⟩
  | 101 => ⟨S_, .i1⟩
  | 102 => ⟨S_, .f32⟩
  | 103 => ⟨S_, .f32⟩
  | 104 => ⟨S128, .f32⟩
  | 105 => ⟨S128, .f32⟩
  | 106 => ⟨S1x128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128x128, .f32⟩
  | 3 => ⟨S128x128, .f32⟩
  | 4 => ⟨S100000x128, .f32⟩
  | 5 => ⟨S1x128, .f32⟩
  | 6 => ⟨S128, .f32⟩
  | 7 => ⟨S1x128, .f32⟩
  | 8 => ⟨S100000x128, .f32⟩
  | 9 => ⟨S100000x128, .f32⟩
  | 10 => ⟨S_, .i32⟩
  | 11 => ⟨S700000, .i32⟩
  | 12 => ⟨S700000, .i1⟩
  | 13 => ⟨S_, .i32⟩
  | 14 => ⟨S700000, .i32⟩
  | 15 => ⟨S700000, .i32⟩
  | 16 => ⟨S700000, .i32⟩
  | 17 => ⟨S700000x1, .i32⟩
  | 18 => ⟨S700000x128, .f32⟩
  | 19 => ⟨S700000x128, .f32⟩
  | 20 => ⟨S700000x128, .f32⟩
  | 21 => ⟨S_, .f32⟩
  | 22 => ⟨S100000x128, .f32⟩
  | 23 => ⟨S700000x1, .i32⟩
  | 24 => ⟨S100000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S100000x128, .f32⟩
  | 38 => ⟨S100000x128, .f32⟩
  | 39 => ⟨S100000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S128, .f32⟩
  | 64 => ⟨S128, .f32⟩
  | 65 => ⟨S1x128, .f32⟩
  | 66 => ⟨S100000x128, .f32⟩
  | 67 => ⟨S100000x128, .f32⟩
  | 68 => ⟨S1x128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S1x128x128, .f32⟩
  | 78 => ⟨S128x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S_, .i32⟩
  | 86 => ⟨S700000, .i32⟩
  | 87 => ⟨S700000, .i1⟩
  | 88 => ⟨S_, .i32⟩
  | 89 => ⟨S700000, .i32⟩
  | 90 => ⟨S700000, .i32⟩
  | 91 => ⟨S700000, .i32⟩
  | 92 => ⟨S700000x1, .i32⟩
  | 93 => ⟨S700000x128, .f32⟩
  | 94 => ⟨S700000x128, .f32⟩
  | 95 => ⟨S700000x128, .f32⟩
  | 96 => ⟨S_, .f32⟩
  | 97 => ⟨S100000x128, .f32⟩
  | 98 => ⟨S700000x1, .i32⟩
  | 99 => ⟨S100000x128, .f32⟩
  | 100 => ⟨S_, .f32⟩
  | 101 => ⟨S128, .f32⟩
  | 102 => ⟨S_, .f32⟩
  | 103 => ⟨S128, .f32⟩
  | 104 => ⟨S128, .f32⟩
  | 105 => ⟨S_, .i32⟩
  | 106 => ⟨S_, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S100000x128, .f32⟩
  | 113 => ⟨S100000x128, .f32⟩
  | 114 => ⟨S100000x128, .f32⟩
  | 115 => ⟨S_, .f32⟩
  | 116 => ⟨S_, .f32⟩
  | 117 => ⟨S_, .f32⟩
  | 118 => ⟨S_, .f32⟩
  | 119 => ⟨S128, .f32⟩
  | 120 => ⟨S128, .f32⟩
  | 121 => ⟨S128, .f32⟩
  | 122 => ⟨S_, .f32⟩
  | 123 => ⟨S_, .i1⟩
  | 124 => ⟨S_, .f32⟩
  | 125 => ⟨S_, .f32⟩
  | 126 => ⟨S128, .f32⟩
  | 127 => ⟨S128, .f32⟩
  | _ => ⟨S100000x128, .f32⟩

abbrev hbmTy0_2 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .i32⟩
  | 33 => ⟨S700000, .i32⟩
  | 34 => ⟨S700000, .i1⟩
  | 35 => ⟨S_, .i32⟩
  | 36 => ⟨S700000, .i32⟩
  | 37 => ⟨S700000, .i32⟩
  | 38 => ⟨S700000, .i32⟩
  | 39 => ⟨S700000x1, .i32⟩
  | 40 => ⟨S700000x128, .f32⟩
  | 41 => ⟨S700000x128, .f32⟩
  | 42 => ⟨S700000x128, .f32⟩
  | 43 => ⟨S_, .f32⟩
  | 44 => ⟨S100000x128, .f32⟩
  | 45 => ⟨S700000x1, .i32⟩
  | 46 => ⟨S100000x128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S100000x128, .f32⟩
  | 60 => ⟨S100000x128, .f32⟩
  | 61 => ⟨S100000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x128, .f32⟩
  | 99 => ⟨S_, .f32⟩
  | 100 => ⟨S64x128, .f32⟩
  | 101 => ⟨S100000x1, .i32⟩
  | 102 => ⟨S64x128, .f32⟩
  | 103 => ⟨S_, .f32⟩
  | 104 => ⟨S100000, .f32⟩
  | 105 => ⟨S_, .f32⟩
  | 106 => ⟨S64, .f32⟩
  | 107 => ⟨S100000x1, .i32⟩
  | 108 => ⟨S64, .f32⟩
  | 109 => ⟨S_, .f32⟩
  | 110 => ⟨S64, .f32⟩
  | 111 => ⟨S64, .f32⟩
  | 112 => ⟨S64x1, .f32⟩
  | 113 => ⟨S64x128, .f32⟩
  | 114 => ⟨S64x128, .f32⟩
  | 115 => ⟨S64x64, .f32⟩
  | 116 => ⟨S1x64, .f32⟩
  | 117 => ⟨S64x64, .f32⟩
  | 118 => ⟨S64x64, .f32⟩
  | 119 => ⟨S_, .f32⟩
  | 120 => ⟨S64x64, .f32⟩
  | 121 => ⟨S64x64, .f32⟩
  | 122 => ⟨S64x2, .f32⟩
  | 123 => ⟨S1x2, .f32⟩
  | 124 => ⟨S64x2, .f32⟩
  | 125 => ⟨S64x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_cst_11 : Ref sig .tc := ⟨.hbm, 80, rfl⟩
abbrev main_v54 : Ref sig .tc := ⟨.hbm, 81, rfl⟩
abbrev main_v55 : Ref sig .tc := ⟨.hbm, 82, rfl⟩
abbrev main_c_12 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_13 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_call2_cst : Ref sig .tc := ⟨.hbm, 126, rfl⟩
abbrev main_call2_v0 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_c_14 : Ref sig .tc := ⟨.hbm, 138, rfl⟩
abbrev main_v86 : Ref sig .tc := ⟨.hbm, 139, rfl⟩
abbrev main_v87 : Ref sig .tc := ⟨.hbm, 140, rfl⟩
abbrev main_c_15 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_16 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_17 : Ref sig .tc := ⟨.hbm, 153, rfl⟩
abbrev main_v98 : Ref sig .tc := ⟨.hbm, 154, rfl⟩
abbrev main_cst_18 : Ref sig .tc := ⟨.hbm, 155, rfl⟩
abbrev main_v99 : Ref sig .tc := ⟨.hbm, 156, rfl⟩
abbrev main_v100 : Ref sig .tc := ⟨.hbm, 157, rfl⟩
abbrev main_c_19 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_cst_0 : Ref sig .tc := ⟨.hbm, 162, rfl⟩
abbrev main_call3_v2 : Ref sig .tc := ⟨.hbm, 163, rfl⟩
abbrev main_call3_v3 : Ref sig .tc := ⟨.hbm, 164, rfl⟩
abbrev main_call3_v4 : Ref sig .tc := ⟨.hbm, 165, rfl⟩
abbrev main_call3_v5 : Ref sig .tc := ⟨.hbm, 166, rfl⟩
abbrev main_call3_v6 : Ref sig .tc := ⟨.hbm, 167, rfl⟩
abbrev main_call3_v7 : Ref sig .tc := ⟨.hbm, 168, rfl⟩
abbrev main_call3_cst_1 : Ref sig .tc := ⟨.hbm, 169, rfl⟩
abbrev main_call3_v8 : Ref sig .tc := ⟨.hbm, 170, rfl⟩
abbrev main_call3_cst_2 : Ref sig .tc := ⟨.hbm, 171, rfl⟩
abbrev main_call3_v9 : Ref sig .tc := ⟨.hbm, 172, rfl⟩
abbrev main_call3_v10 : Ref sig .tc := ⟨.hbm, 173, rfl⟩
abbrev main_call3_v11 : Ref sig .tc := ⟨.hbm, 174, rfl⟩
abbrev main_call3_cst_3 : Ref sig .tc := ⟨.hbm, 175, rfl⟩
abbrev main_call3_v12 : Ref sig .tc := ⟨.hbm, 176, rfl⟩
abbrev main_call3_cst_4 : Ref sig .tc := ⟨.hbm, 177, rfl⟩
abbrev main_call3_call0_v0 : Ref sig .tc := ⟨.hbm, 178, rfl⟩
abbrev main_call3_call0_v1 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_cst_20 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_call4_cst : Ref sig .tc := ⟨.hbm, 201, rfl⟩
abbrev main_call4_v0 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_c_21 : Ref sig .tc := ⟨.hbm, 213, rfl⟩
abbrev main_v131 : Ref sig .tc := ⟨.hbm, 214, rfl⟩
abbrev main_v132 : Ref sig .tc := ⟨.hbm, 215, rfl⟩
abbrev main_c_22 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_cst_23 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_cst_24 : Ref sig .tc := ⟨.hbm, 228, rfl⟩
abbrev main_v143 : Ref sig .tc := ⟨.hbm, 229, rfl⟩
abbrev main_cst_25 : Ref sig .tc := ⟨.hbm, 230, rfl⟩
abbrev main_v144 : Ref sig .tc := ⟨.hbm, 231, rfl⟩
abbrev main_v145 : Ref sig .tc := ⟨.hbm, 232, rfl⟩
abbrev main_c_26 : Ref sig .tc := ⟨.hbm, 233, rfl⟩
abbrev main_call5_cst : Ref sig .tc := ⟨.hbm, 234, rfl⟩
abbrev main_call5_v0 : Ref sig .tc := ⟨.hbm, 235, rfl⟩
abbrev main_call5_v1 : Ref sig .tc := ⟨.hbm, 236, rfl⟩
abbrev main_call5_cst_0 : Ref sig .tc := ⟨.hbm, 237, rfl⟩
abbrev main_call5_v2 : Ref sig .tc := ⟨.hbm, 238, rfl⟩
abbrev main_call5_v3 : Ref sig .tc := ⟨.hbm, 239, rfl⟩
abbrev main_call5_v4 : Ref sig .tc := ⟨.hbm, 240, rfl⟩
abbrev main_call5_v5 : Ref sig .tc := ⟨.hbm, 241, rfl⟩
abbrev main_call5_v6 : Ref sig .tc := ⟨.hbm, 242, rfl⟩
abbrev main_call5_v7 : Ref sig .tc := ⟨.hbm, 243, rfl⟩
abbrev main_call5_cst_1 : Ref sig .tc := ⟨.hbm, 244, rfl⟩
abbrev main_call5_v8 : Ref sig .tc := ⟨.hbm, 245, rfl⟩
abbrev main_call5_cst_2 : Ref sig .tc := ⟨.hbm, 246, rfl⟩
abbrev main_call5_v9 : Ref sig .tc := ⟨.hbm, 247, rfl⟩
abbrev main_call5_v10 : Ref sig .tc := ⟨.hbm, 248, rfl⟩
abbrev main_call5_v11 : Ref sig .tc := ⟨.hbm, 249, rfl⟩
abbrev main_call5_cst_3 : Ref sig .tc := ⟨.hbm, 250, rfl⟩
abbrev main_call5_v12 : Ref sig .tc := ⟨.hbm, 251, rfl⟩
abbrev main_call5_cst_4 : Ref sig .tc := ⟨.hbm, 252, rfl⟩
abbrev main_call5_call0_v0 : Ref sig .tc := ⟨.hbm, 253, rfl⟩
abbrev main_call5_call0_v1 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_cst_27 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_call6_cst : Ref sig .tc := ⟨.hbm, 276, rfl⟩
abbrev main_call6_v0 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_v173 : Ref sig .tc := ⟨.hbm, 285, rfl⟩
abbrev main_v174 : Ref sig .tc := ⟨.hbm, 286, rfl⟩
abbrev main_v175 : Ref sig .tc := ⟨.hbm, 287, rfl⟩
abbrev main_c_28 : Ref sig .tc := ⟨.hbm, 288, rfl⟩
abbrev main_v176 : Ref sig .tc := ⟨.hbm, 289, rfl⟩
abbrev main_v177 : Ref sig .tc := ⟨.hbm, 290, rfl⟩
abbrev main_c_29 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_cst_30 : Ref sig .tc := ⟨.hbm, 299, rfl⟩
abbrev main_v185 : Ref sig .tc := ⟨.hbm, 300, rfl⟩
abbrev main_v186 : Ref sig .tc := ⟨.hbm, 301, rfl⟩
abbrev main_v187 : Ref sig .tc := ⟨.hbm, 302, rfl⟩
abbrev main_cst_31 : Ref sig .tc := ⟨.hbm, 303, rfl⟩
abbrev main_v188 : Ref sig .tc := ⟨.hbm, 304, rfl⟩
abbrev main_cst_32 : Ref sig .tc := ⟨.hbm, 305, rfl⟩
abbrev main_v189 : Ref sig .tc := ⟨.hbm, 306, rfl⟩
abbrev main_v190 : Ref sig .tc := ⟨.hbm, 307, rfl⟩
abbrev main_c_33 : Ref sig .tc := ⟨.hbm, 308, rfl⟩
abbrev main_call7_cst : Ref sig .tc := ⟨.hbm, 309, rfl⟩
abbrev main_call7_v0 : Ref sig .tc := ⟨.hbm, 310, rfl⟩
abbrev main_call7_v1 : Ref sig .tc := ⟨.hbm, 311, rfl⟩
abbrev main_call7_cst_0 : Ref sig .tc := ⟨.hbm, 312, rfl⟩
abbrev main_call7_v2 : Ref sig .tc := ⟨.hbm, 313, rfl⟩
abbrev main_call7_v3 : Ref sig .tc := ⟨.hbm, 314, rfl⟩
abbrev main_call7_v4 : Ref sig .tc := ⟨.hbm, 315, rfl⟩
abbrev main_call7_v5 : Ref sig .tc := ⟨.hbm, 316, rfl⟩
abbrev main_call7_v6 : Ref sig .tc := ⟨.hbm, 317, rfl⟩
abbrev main_call7_v7 : Ref sig .tc := ⟨.hbm, 318, rfl⟩
abbrev main_call7_cst_1 : Ref sig .tc := ⟨.hbm, 319, rfl⟩
abbrev main_call7_v8 : Ref sig .tc := ⟨.hbm, 320, rfl⟩
abbrev main_call7_cst_2 : Ref sig .tc := ⟨.hbm, 321, rfl⟩
abbrev main_call7_v9 : Ref sig .tc := ⟨.hbm, 322, rfl⟩
abbrev main_call7_v10 : Ref sig .tc := ⟨.hbm, 323, rfl⟩
abbrev main_call7_v11 : Ref sig .tc := ⟨.hbm, 324, rfl⟩
abbrev main_call7_cst_3 : Ref sig .tc := ⟨.hbm, 325, rfl⟩
abbrev main_call7_v12 : Ref sig .tc := ⟨.hbm, 326, rfl⟩
abbrev main_call7_cst_4 : Ref sig .tc := ⟨.hbm, 327, rfl⟩
abbrev main_call7_call0_v0 : Ref sig .tc := ⟨.hbm, 328, rfl⟩
abbrev main_call7_call0_v1 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_cst_34 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_v205 : Ref sig .tc := ⟨.hbm, 345, rfl⟩
abbrev main_v206 : Ref sig .tc := ⟨.hbm, 346, rfl⟩
abbrev main_v207 : Ref sig .tc := ⟨.hbm, 347, rfl⟩
abbrev main_v208 : Ref sig .tc := ⟨.hbm, 348, rfl⟩
abbrev main_v209 : Ref sig .tc := ⟨.hbm, 349, rfl⟩
abbrev main_v210 : Ref sig .tc := ⟨.hbm, 350, rfl⟩
abbrev main_call8_cst : Ref sig .tc := ⟨.hbm, 351, rfl⟩
abbrev main_call8_v0 : Ref sig .tc := ⟨.hbm, 352, rfl⟩
abbrev main_v211 : Ref sig .tc := ⟨.hbm, 353, rfl⟩
abbrev main_v212 : Ref sig .tc := ⟨.hbm, 354, rfl⟩
abbrev main_cst_35 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_cst_36 : Ref sig .tc := ⟨.hbm, 359, rfl⟩
abbrev main_v216 : Ref sig .tc := ⟨.hbm, 360, rfl⟩
abbrev main_cst_37 : Ref sig .tc := ⟨.hbm, 361, rfl⟩
abbrev main_v217 : Ref sig .tc := ⟨.hbm, 362, rfl⟩
abbrev main_v218 : Ref sig .tc := ⟨.hbm, 363, rfl⟩
abbrev main_v219 : Ref sig .tc := ⟨.hbm, 364, rfl⟩
abbrev main_cst_38 : Ref sig .tc := ⟨.hbm, 365, rfl⟩
abbrev main_v220 : Ref sig .tc := ⟨.hbm, 366, rfl⟩
abbrev main_v221 : Ref sig .tc := ⟨.hbm, 367, rfl⟩
abbrev main_v222 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_v226 : Ref sig .tc := ⟨.hbm, 372, rfl⟩
abbrev main_v227 : Ref sig .tc := ⟨.hbm, 373, rfl⟩
abbrev main_v228 : Ref sig .tc := ⟨.hbm, 374, rfl⟩
abbrev main_call9_cst : Ref sig .tc := ⟨.hbm, 375, rfl⟩
abbrev main_call9_v0 : Ref sig .tc := ⟨.hbm, 376, rfl⟩
abbrev main_v229 : Ref sig .tc := ⟨.hbm, 377, rfl⟩
abbrev main_v230 : Ref sig .tc := ⟨.hbm, 378, rfl⟩
abbrev main_v231 : Ref sig .tc := ⟨.hbm, 379, rfl⟩
abbrev main_v232 : Ref sig .tc := ⟨.hbm, 380, rfl⟩
abbrev main_v233 : Ref sig .tc := ⟨.hbm, 381, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.PreFacts.lean ====
import proofs.«401124_j9440338117505_1_alg».proof.Pre_finite_inputs
import proofs.«401124_j9440338117505_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.GCN.PreFacts

open Idealize.ShloMosaic Idealize.ShloMosaic.ValueIdx Cert.Pre_finite_inputs

variable [Cert.Pre_finite_inputs.Facts]

instance : Subsingleton S_.Idx := ⟨fun a b => funext fun d => d.elim0⟩

variable (a0 : FVec Ideal S100000x128 .f32) (a1 : IVec S2x600000 32) (a2 : IVec S100000 32)
  (a3 : FVec Ideal S4x128x128 .f32) (a4 a5 a6 : FVec Ideal S4x128 .f32) (a7 : FVec Ideal S128x64 .f32)
  (a8 : FVec Ideal S64 .f32) (a9 : FVec Ideal S64x2 .f32) (a10 : FVec Ideal S2 .f32)

theorem ofBits_inf : Ideal.ofBits .f32 0x7F800000#32 = (⊤ : EReal) := by simp [Ideal.ofBits, Ideal.ieee]

-- |x| < +inf excludes both infinities
theorem real_of_abs_lt (x : EReal)
    (hx : Ideal.cmp .olt (max x (-x)) (Ideal.ofBits .f32 0x7F800000#32) = 1#1) : x ≠ ⊤ ∧ x ≠ ⊥ := by
  rw [ofBits_inf] at hx
  have hlt : max x (-x) < ⊤ := by
    by_contra hc
    simp only [Ideal.cmp, hc, decide_false] at hx
    exact absurd hx (by decide)
  constructor
  · rintro rfl
    simp at hlt
  · rintro rfl
    simp at hlt

theorem all_real {s : Shape} (hb : S_.BroadcastsInDim s (![] : Fin 0 → Fin s.rank)) {axes : List (Fin s.rank)}
    (hr : s.ReducesTo axes S_) (h0 : 0 < S_.numel) (a : FVec Ideal s .f32)
    (e : Host.reduce IntOp.andi
          (cmpf .olt (Host.absf a) (broadcastInDim s ![] hb (constant (F := Ideal) S_ .f32 0x7F800000#32)))
          (constantI S_ 1 1#1) hr h0 ix0 = 1#1) :
    ∀ i, a i ≠ ⊤ ∧ a i ≠ ⊥ := fun i =>
  real_of_abs_lt (a i) (Host.reduce_andi_all _ _ hr h0 ix0 e i)

theorem all_range {n : Nat} (hb : S_.BroadcastsInDim (⟨1, ![n]⟩ : Shape) (![] : Fin 0 → Fin 1))
    {axes : List (Fin 1)} (hr : (⟨1, ![n]⟩ : Shape).ReducesTo axes S_) (h0 : 0 < S_.numel) (b : IVec ⟨1, ![n]⟩ 32)
    (e : Host.reduce IntOp.andi
          (andi (cmpi .sge b (broadcastInDim (⟨1, ![n]⟩ : Shape) ![] hb (constantI S_ 32 0#32)))
            (cmpi .slt b (broadcastInDim (⟨1, ![n]⟩ : Shape) ![] hb (constantI S_ 32 64#32))))
          (constantI S_ 1 1#1) hr h0 ix0 = 1#1) :
    ∀ r : Fin n, 0 ≤ (b (ix1 r)).toInt ∧ (b (ix1 r)).toInt < 64 := fun r => by
  have hr1 := Host.reduce_andi_all _ _ hr h0 ix0 e (ix1 r)
  simp only [andi, cmpi, broadcastInDim, constantI, IntOp.andi_eq_one, IntOp.cmpi_sge, IntOp.cmpi_slt] at hr1
  have z : (0#32 : BitVec 32).toInt = 0 := by decide
  have s : (64#32 : BitVec 32).toInt = 64 := by decide
  rw [z] at hr1
  rw [s] at hr1
  exact hr1

variable {a0 a1 a2 a3 a4 a5 a6 a7 a8 a9 a10}
variable (h : Cert.Pre_finite_inputs.fn (F := Ideal) a0 a1 a2 a3 a4 a5 a6 a7 a8 a9 a10 = (fun _ => 1#1))
include h

-- the printed predicate is a conjunction of "all entries finite" per float argument and "all graph ids in [0, 64)"
theorem parts :
    (∀ i, a0 i ≠ ⊤ ∧ a0 i ≠ ⊥) ∧ (∀ i, a3 i ≠ ⊤ ∧ a3 i ≠ ⊥) ∧ (∀ i, a4 i ≠ ⊤ ∧ a4 i ≠ ⊥) ∧ (∀ i, a5 i ≠ ⊤ ∧ a5 i ≠ ⊥)
    ∧ (∀ i, a6 i ≠ ⊤ ∧ a6 i ≠ ⊥) ∧ (∀ r : Fin 100000, 0 ≤ (a2 (ix1 r)).toInt ∧ (a2 (ix1 r)).toInt < 64) := by
  have h0 := congrFun h ix0
  simp only [fn, fn_part1, fn_part2, andi, IntOp.andi_eq_one] at h0
  obtain ⟨⟨⟨⟨⟨⟨⟨⟨⟨e0, e3⟩, e4⟩, e5⟩, e6⟩, -⟩, -⟩, -⟩, -⟩, e2⟩ := h0
  exact ⟨all_real _ _ _ a0 e0, all_real _ _ _ a3 e3, all_real _ _ _ a4 e4, all_real _ _ _ a5 e5, all_real _ _ _ a6 e6,
    all_range _ _ _ a2 e2⟩

end Cert.GCN.PreFacts

end
-- ==== Proof.Spec.lean ====
import Idealize.ShloMosaic.PureOps.Ideal
import Idealize.ShloMosaic.Lib.ValueIdx

noncomputable section

namespace Cert.GCN

open Idealize.ShloMosaic Idealize.ShloMosaic.ValueIdx

abbrev Mat (n k : Nat) := Fin n → Fin k → EReal

def vec2 {n k : Nat} (f : Mat n k) : (⟨2, ![n, k]⟩ : Shape).Idx → EReal := fun i => f (i 0) (i 1)

def cur2 {n k : Nat} (v : (⟨2, ![n, k]⟩ : Shape).Idx → EReal) : Mat n k := fun r j => v (ix2 r j)

theorem cur2_vec2 {n k : Nat} (f : Mat n k) : cur2 (vec2 f) = f := rfl

theorem vec2_cur2 {n k : Nat} (v : (⟨2, ![n, k]⟩ : Shape).Idx → EReal) : vec2 (cur2 v) = v := by
  funext i; exact congrArg v (eq_ix2 i).symm

theorem vec2_apply {n k : Nat} (f : Mat n k) (r : Fin n) (j : Fin k) : vec2 f (ix2 r j) = f r j := rfl

def IsReal2 {n k : Nat} (f : Mat n k) : Prop := ∃ g : Fin n → Fin k → ℝ, f = fun r j => ((g r j : ℝ) : EReal)

def IsReal1 {k : Nat} (f : Fin k → EReal) : Prop := ∃ g : Fin k → ℝ, f = fun j => ((g j : ℝ) : EReal)

def cN : EReal := Ideal.ofBits .f32 0x47C35000#32
def cEps : EReal := Ideal.ofBits .f32 0x3727C5AC#32
def cOne : EReal := Ideal.ofBits .f32 0x3F800000#32

-- the dense layer x W + b, the bias added to every row
def lin (x : Mat 100000 128) (W : Mat 128 128) (b : Fin 128 → EReal) : Mat 100000 128 :=
  fun r j => (∑ k : Fin 128, x r k * W k j) + b j

def colSum (a : Mat 100000 128) : Fin 128 → EReal := fun j => ∑ r : Fin 100000, a r j

def mean (a : Mat 100000 128) : Fin 128 → EReal := fun j => Ideal.div (colSum a j) cN

-- variance as mean of squares minus squared mean
def varK (a : Mat 100000 128) : Fin 128 → EReal :=
  fun j => Ideal.div (colSum (fun r j => a r j * a r j) j) cN - mean a j * mean a j

-- variance as mean squared deviation
def varR (a : Mat 100000 128) : Fin 128 → EReal :=
  fun j => Ideal.div (colSum (fun r j => (a r j - mean a j) * (a r j - mean a j)) j) cN

-- normalise by column statistics, scale, shift, rectify, add the residual row
def normRelu (a x : Mat 100000 128) (μ v γ β : Fin 128 → EReal) : Mat 100000 128 :=
  fun r j => max (γ j * (a r j - μ j) * Ideal.rsqrt (v j + cEps) + β j) 0 + x r j

def layerK (agg : Mat 100000 128 → Mat 100000 128) (x : Mat 100000 128) (W : Mat 128 128) (b γ β : Fin 128 → EReal) :
    Mat 100000 128 :=
  normRelu (agg (lin x W b)) x (mean (agg (lin x W b))) (varK (agg (lin x W b))) γ β

def layerR (agg : Mat 100000 128 → Mat 100000 128) (x : Mat 100000 128) (W : Mat 128 128) (b γ β : Fin 128 → EReal) :
    Mat 100000 128 :=
  normRelu (agg (lin x W b)) x (mean (agg (lin x W b))) (varR (agg (lin x W b))) γ β

def Wl (cw : (⟨3, ![4, 128, 128]⟩ : Shape).Idx → EReal) (l : Fin 4) : Mat 128 128 := fun k j => cw (ix3 l k j)

def rowl (p : (⟨2, ![4, 128]⟩ : Shape).Idx → EReal) (l : Fin 4) : Fin 128 → EReal := fun j => p (ix2 l j)

def stackK (agg : Mat 100000 128 → Mat 100000 128) (x : Mat 100000 128) (cw : (⟨3, ![4, 128, 128]⟩ : Shape).Idx → EReal)
    (cb g be : (⟨2, ![4, 128]⟩ : Shape).Idx → EReal) : Mat 100000 128 :=
  layerK agg (layerK agg (layerK agg (layerK agg x (Wl cw 0) (rowl cb 0) (rowl g 0) (rowl be 0))
    (Wl cw 1) (rowl cb 1) (rowl g 1) (rowl be 1)) (Wl cw 2) (rowl cb 2) (rowl g 2) (rowl be 2))
    (Wl cw 3) (rowl cb 3) (rowl g 3) (rowl be 3)

def stackR (agg : Mat 100000 128 → Mat 100000 128) (x : Mat 100000 128) (cw : (⟨3, ![4, 128, 128]⟩ : Shape).Idx → EReal)
    (cb g be : (⟨2, ![4, 128]⟩ : Shape).Idx → EReal) : Mat 100000 128 :=
  layerR agg (layerR agg (layerR agg (layerR agg x (Wl cw 0) (rowl cb 0) (rowl g 0) (rowl be 0))
    (Wl cw 1) (rowl cb 1) (rowl g 1) (rowl be 1)) (Wl cw 2) (rowl cb 2) (rowl g 2) (rowl be 2))
    (Wl cw 3) (rowl cb 3) (rowl g 3) (rowl be 3)

def poolSum (oh : Mat 100000 64) (x : Mat 100000 128) : Mat 64 128 := fun g d => ∑ r : Fin 100000, oh r g * x r d

-- per-graph mean, a count below one read as one
def pooled (s : Mat 64 128) (cnt : Fin 64 → EReal) : Mat 64 128 := fun g d => Ideal.div (s g d) (max (cnt g) cOne)

-- relu (p w1 + b1) w2 + b2
def head (p : Mat 64 128) (w1 : Mat 128 64) (b1 : Fin 64 → EReal) (w2 : Mat 64 2) (b2 : Fin 2 → EReal) : Mat 64 2 :=
  fun g c => (∑ k : Fin 64, max ((∑ d : Fin 128, p g d * w1 d k) + b1 k) 0 * w2 k c) + b2 c

end Cert.GCN

end
-- ==== Proof.LayerLaw.lean ====
import proofs.«401124_j9440338117505_1_alg».proof.Proof.Spec
import Mathlib.Data.EReal.Basic
import Mathlib.Data.EReal.Operations
import Mathlib.Data.EReal.Inv
import Mathlib.Algebra.BigOperators.Ring.Finset
import Mathlib.Algebra.BigOperators.Field
import Mathlib.Analysis.SpecialFunctions.Pow.Real
import Mathlib.Tactic.Ring
import Mathlib.Tactic.FieldSimp
import Mathlib.Tactic.NormNum
import Mathlib.Tactic.Positivity

noncomputable section

namespace Cert.GCN

open Idealize.ShloMosaic Idealize.ShloMosaic.ValueIdx

theorem cN_eq : cN = ((100000 : ℝ) : EReal) := by
  simp [cN, Ideal.ofBits, Ideal.ieee, -EReal.coe_mul]; norm_num

theorem cEps_pos : ∃ e : ℝ, 0 < e ∧ cEps = ((e : ℝ) : EReal) := by
  refine ⟨(10995116 : ℝ) * (2 : ℝ) ^ (-40 : Int), by positivity, ?_⟩
  simp [cEps, Ideal.ofBits, Ideal.ieee, -EReal.coe_mul]

theorem isReal2_of_ne {n k : Nat} (f : Mat n k) (h : ∀ r j, f r j ≠ ⊤ ∧ f r j ≠ ⊥) : IsReal2 f :=
  ⟨fun r j => (f r j).toReal, by
    funext r j; exact (EReal.coe_toReal (h r j).1 (h r j).2).symm⟩

theorem isReal1_of_ne {k : Nat} (f : Fin k → EReal) (h : ∀ j, f j ≠ ⊤ ∧ f j ≠ ⊥) : IsReal1 f :=
  ⟨fun j => (f j).toReal, by
    funext j; exact (EReal.coe_toReal (h j).1 (h j).2).symm⟩

theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

-- over the reals, mean of squares minus squared mean is the mean squared deviation
theorem real_var (n : ℕ) (c : ℝ) (hc : (n : ℝ) = c) (hc0 : c ≠ 0) (f : Fin n → ℝ) :
    (∑ r, f r * f r) * (1 / c) - ((∑ r, f r) * (1 / c)) * ((∑ r, f r) * (1 / c))
      = (∑ r, (f r - (∑ r, f r) * (1 / c)) * (f r - (∑ r, f r) * (1 / c))) * (1 / c) := by
  set μ : ℝ := (∑ r, f r) * (1 / c) with hμ
  have h1 : (∑ r, f r) = c * μ := by rw [hμ]; field_simp
  have h2 : (∑ r, (f r - μ) * (f r - μ)) = (∑ r, f r * f r) - 2 * μ * (∑ r, f r) + c * (μ * μ) := by
    have : ∀ r, (f r - μ) * (f r - μ) = f r * f r - 2 * μ * f r + μ * μ := fun r => by ring
    simp only [this]
    rw [Finset.sum_add_distrib, Finset.sum_sub_distrib, ← Finset.mul_sum, Finset.sum_const, Finset.card_univ,
      Fintype.card_fin, nsmul_eq_mul, hc]
  rw [h2, h1]
  field_simp
  ring

theorem mean_coe (g : Fin 100000 → Fin 128 → ℝ) (j : Fin 128) :
    mean (fun r j => ((g r j : ℝ) : EReal)) j = (((∑ r, g r j) * (1 / 100000) : ℝ) : EReal) := by
  simp only [mean, colSum]
  rw [cN_eq, Ideal.div_coe (by norm_num), ← coe_sum, ← EReal.coe_mul]

theorem varK_coe (g : Fin 100000 → Fin 128 → ℝ) (j : Fin 128) :
    varK (fun r j => ((g r j : ℝ) : EReal)) j
      = (((∑ r, g r j * g r j) * (1 / 100000)
          - ((∑ r, g r j) * (1 / 100000)) * ((∑ r, g r j) * (1 / 100000)) : ℝ) : EReal) := by
  simp only [varK, mean_coe, colSum, ← EReal.coe_mul]
  rw [cN_eq, Ideal.div_coe (by norm_num), ← coe_sum, ← EReal.coe_mul, ← EReal.coe_sub]

theorem varR_coe (g : Fin 100000 → Fin 128 → ℝ) (j : Fin 128) :
    varR (fun r j => ((g r j : ℝ) : EReal)) j
      = (((∑ r, (g r j - (∑ r, g r j) * (1 / 100000)) * (g r j - (∑ r, g r j) * (1 / 100000)))
          * (1 / 100000) : ℝ) : EReal) := by
  simp only [varR, mean_coe, colSum, ← EReal.coe_sub, ← EReal.coe_mul]
  rw [cN_eq, Ideal.div_coe (by norm_num), ← coe_sum, ← EReal.coe_mul]

theorem varK_eq_varR (a : Mat 100000 128) (ha : IsReal2 a) : varK a = varR a := by
  obtain ⟨g, rfl⟩ := ha
  funext j
  rw [varK_coe, varR_coe]
  congr 1
  exact real_var 100000 100000 (by norm_num) (by norm_num) (fun r => g r j)

theorem varR_nonneg_real (a : Mat 100000 128) (ha : IsReal2 a) :
    ∃ v : Fin 128 → ℝ, (∀ j, 0 ≤ v j) ∧ varR a = fun j => ((v j : ℝ) : EReal) := by
  obtain ⟨g, rfl⟩ := ha
  refine ⟨fun j => (∑ r, (g r j - (∑ r, g r j) * (1 / 100000)) * (g r j - (∑ r, g r j) * (1 / 100000)))
          * (1 / 100000), fun j => ?_, ?_⟩
  · exact mul_nonneg (Finset.sum_nonneg (fun r _ => mul_self_nonneg _)) (by norm_num)
  · funext j; exact varR_coe g j

theorem coe_max' (a b : ℝ) : ((max a b : ℝ) : EReal) = max (a : EReal) (b : EReal) :=
  EReal.coe_strictMono.monotone.map_max

theorem mean_real (a : Mat 100000 128) (ha : IsReal2 a) : IsReal1 (mean a) := by
  obtain ⟨g, rfl⟩ := ha
  exact ⟨fun j => (∑ r, g r j) * (1 / 100000), funext (mean_coe g)⟩

theorem lin_real (x : Mat 100000 128) (W : Mat 128 128) (b : Fin 128 → EReal)
    (hx : IsReal2 x) (hW : IsReal2 W) (hb : IsReal1 b) : IsReal2 (lin x W b) := by
  obtain ⟨gx, rfl⟩ := hx
  obtain ⟨gW, rfl⟩ := hW
  obtain ⟨gb, rfl⟩ := hb
  refine ⟨fun r j => (∑ k, gx r k * gW k j) + gb j, ?_⟩
  funext r j
  simp only [lin]
  rw [EReal.coe_add, coe_sum]
  simp only [EReal.coe_mul]

theorem normRelu_real (a x : Mat 100000 128) (μ v γ β : Fin 128 → EReal)
    (ha : IsReal2 a) (hx : IsReal2 x) (hμ : IsReal1 μ)
    (hv : ∃ w : Fin 128 → ℝ, (∀ j, 0 ≤ w j) ∧ v = fun j => ((w j : ℝ) : EReal))
    (hγ : IsReal1 γ) (hβ : IsReal1 β) : IsReal2 (normRelu a x μ v γ β) := by
  obtain ⟨ga, rfl⟩ := ha
  obtain ⟨gx, rfl⟩ := hx
  obtain ⟨gμ, rfl⟩ := hμ
  obtain ⟨w, hw, rfl⟩ := hv
  obtain ⟨gγ, rfl⟩ := hγ
  obtain ⟨gβ, rfl⟩ := hβ
  obtain ⟨e, he, hE⟩ := cEps_pos
  refine ⟨fun r j => max (gγ j * (ga r j - gμ j) * (Real.sqrt (w j + e))⁻¹ + gβ j) 0 + gx r j, ?_⟩
  funext r j
  have hpos : 0 < w j + e := add_pos_of_nonneg_of_pos (hw j) he
  simp only [normRelu]
  rw [hE, ← EReal.coe_add (w j) e, Ideal.rsqrt_coe, if_neg (not_lt.mpr hpos.le), if_neg hpos.ne']
  rw [← EReal.coe_sub, ← EReal.coe_mul, ← EReal.coe_mul, ← EReal.coe_add, ← EReal.coe_zero, ← coe_max',
    ← EReal.coe_add]

-- real entries stay real through a layer, so the two variance forms give one layer
theorem layer_eq (agg : Mat 100000 128 → Mat 100000 128) (hagg : ∀ h, IsReal2 h → IsReal2 (agg h))
    (x : Mat 100000 128) (W : Mat 128 128) (b γ β : Fin 128 → EReal)
    (hx : IsReal2 x) (hW : IsReal2 W) (hb : IsReal1 b) (hγ : IsReal1 γ) (hβ : IsReal1 β) :
    layerK agg x W b γ β = layerR agg x W b γ β ∧ IsReal2 (layerK agg x W b γ β) := by
  have ha : IsReal2 (agg (lin x W b)) := hagg _ (lin_real x W b hx hW hb)
  have hv : varK (agg (lin x W b)) = varR (agg (lin x W b)) := varK_eq_varR _ ha
  have hK : layerK agg x W b γ β = layerR agg x W b γ β := by
    unfold layerK layerR; rw [hv]
  refine ⟨hK, ?_⟩
  rw [hK]
  exact normRelu_real _ _ _ _ _ _ ha hx (mean_real _ ha) (varR_nonneg_real _ ha) hγ hβ

theorem stack_eq (agg : Mat 100000 128 → Mat 100000 128) (hagg : ∀ h, IsReal2 h → IsReal2 (agg h))
    (x : Mat 100000 128) (cw : (⟨3, ![4, 128, 128]⟩ : Shape).Idx → EReal)
    (cb g be : (⟨2, ![4, 128]⟩ : Shape).Idx → EReal)
    (hx : IsReal2 x) (hcw : ∀ i, cw i ≠ ⊤ ∧ cw i ≠ ⊥) (hcb : ∀ i, cb i ≠ ⊤ ∧ cb i ≠ ⊥)
    (hg : ∀ i, g i ≠ ⊤ ∧ g i ≠ ⊥) (hbe : ∀ i, be i ≠ ⊤ ∧ be i ≠ ⊥) :
    stackK agg x cw cb g be = stackR agg x cw cb g be := by
  have hW : ∀ l, IsReal2 (Wl cw l) := fun l => isReal2_of_ne _ (fun _ _ => hcw _)
  have hb : ∀ l, IsReal1 (rowl cb l) := fun l => isReal1_of_ne _ (fun _ => hcb _)
  have hγ : ∀ l, IsReal1 (rowl g l) := fun l => isReal1_of_ne _ (fun _ => hg _)
  have hβ : ∀ l, IsReal1 (rowl be l) := fun l => isReal1_of_ne _ (fun _ => hbe _)
  obtain ⟨e0, r0⟩ := layer_eq agg hagg x (Wl cw 0) (rowl cb 0) (rowl g 0) (rowl be 0) hx (hW 0) (hb 0) (hγ 0) (hβ 0)
  obtain ⟨e1, r1⟩ := layer_eq agg hagg _ (Wl cw 1) (rowl cb 1) (rowl g 1) (rowl be 1) r0 (hW 1) (hb 1) (hγ 1) (hβ 1)
  obtain ⟨e2, r2⟩ := layer_eq agg hagg _ (Wl cw 2) (rowl cb 2) (rowl g 2) (rowl be 2) r1 (hW 2) (hb 2) (hγ 2) (hβ 2)
  obtain ⟨e3, _⟩ := layer_eq agg hagg _ (Wl cw 3) (rowl cb 3) (rowl g 3) (rowl be 3) r2 (hW 3) (hb 3) (hγ 3) (hβ 3)
  unfold stackK stackR
  rw [← e0, ← e1, ← e2, ← e3]

end Cert.GCN

end
-- ==== Proof.AggOps.lean ====
import proofs.«401124_j9440338117505_1_alg».proof.KernelIdeal
import proofs.«401124_j9440338117505_1_alg».proof.Proof.Spec

noncomputable section

namespace Cert.GCN.Ops

open Idealize.ShloMosaic Idealize.SL.Sem
open Cert.KernelIdeal Cert.KernelIdeal.Facts₀ Cert.KernelIdeal.Facts

variable [Cert.KernelIdeal.Facts]
variable {F : FTy → Type} [FloatOps F]

def srcV (ei : IVec S2x600000 32) : IVec S700000 32 :=
  concatenate S700000 0
    [⟨S600000, shapeCast S600000 (extractStridedSlice S1x600000 ![0, 0] ei slices_S2x600000_S1x600000_0_0) shapeCasts_S1x600000_S600000⟩,
     ⟨S100000, iotaInDim S100000 32 0⟩]
    concatenates_S600000_S100000_S700000_d0

def dstV (ei : IVec S2x600000 32) : IVec S700000 32 :=
  concatenate S700000 0
    [⟨S600000, shapeCast S600000 (extractStridedSlice S1x600000 ![1, 0] ei slices_S2x600000_S1x600000_1_0) shapeCasts_S1x600000_S600000⟩,
     ⟨S100000, iotaInDim S100000 32 0⟩]
    concatenates_S600000_S100000_S700000_d0

def wrapIdx (v : IVec S700000 32) : IVec S700000x1 32 :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32)))
      v)

def degV (ei : IVec S2x600000 32) : FVec F S100000 .f32 :=
  Host.scatterAdd scatter_S100000_S700000x1_S700000_n_0_0_1
    (broadcastInDim S100000 ![] bcast_S_S100000 (constant S_ .f32 0x00000000#32))
    (broadcastInDim S700000x1 ![0] bcast_S700000_S700000x1_0 (dstV ei))
    (broadcastInDim S700000 ![] bcast_S_S700000 (constant S_ .f32 0x3F800000#32))

def dinvV (ei : IVec S2x600000 32) : FVec F S100000 .f32 :=
  select
    (cmpf .ogt (degV (F := F) ei) (broadcastInDim S100000 ![] bcast_S_S100000 (constant S_ .f32 0x00000000#32)))
    (Host.rsqrt (maximumf (degV (F := F) ei) (broadcastInDim S100000 ![] bcast_S_S100000 (constant S_ .f32 0x3F800000#32))))
    (broadcastInDim S100000 ![] bcast_S_S100000 (id (constant S_ .f32 0x00000000#32)))

def nrmV (ei : IVec S2x600000 32) : FVec F S700000x1 .f32 :=
  broadcastInDim S700000x1 ![0] bcast_S700000_S700000x1_0
    (mulf
      (Host.gather gather_S100000_S700000x1_S700000_n_0_n_n_0_1_1 (dinvV (F := F) ei) (wrapIdx (srcV ei)))
      (Host.gather gather_S100000_S700000x1_S700000_n_0_n_n_0_1_1 (dinvV (F := F) ei) (wrapIdx (dstV ei))))

def aggV (ei : IVec S2x600000 32) (h : FVec F S100000x128 .f32) : FVec F S100000x128 .f32 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 (dstV ei))
    (mulf
      (broadcastInDim S700000x128 ![0, 1] bcast_S700000x1_S700000x128_0_1 (nrmV (F := F) ei))
      (Host.gather gather_S100000x128_S700000x1_S700000x128_1_0_n_n_0_1_1128 h (wrapIdx (srcV ei))))

def aggC (ei : IVec S2x600000 32) : Mat 100000 128 → Mat 100000 128 :=
  fun h => cur2 (aggV (F := Ideal) ei (vec2 h))

end Cert.GCN.Ops

end
-- ==== Proof.PoolOps.lean ====
import proofs.«401124_j9440338117505_1_alg».proof.KernelIdeal
import proofs.«401124_j9440338117505_1_alg».proof.ReferenceIdeal
import proofs.«401124_j9440338117505_1_alg».proof.Proof.Spec

noncomputable section

namespace Cert.GCN.Ops

open Idealize.ShloMosaic

variable [Cert.KernelIdeal.Facts] [Cert.ReferenceIdeal.Facts]
variable {F : FTy → Type} [FloatOps F]

def ohV (bt : IVec Cert.KernelIdeal.S100000 32) : FVec F Cert.KernelIdeal.S100000x64 .f32 :=
  uitofp .f32
    (cmpi .eq
      (broadcastInDim Cert.KernelIdeal.S100000x64 ![0, 1] Cert.KernelIdeal.Facts₀.bcast_S100000x1_S100000x64_0_1
        (shapeCast Cert.KernelIdeal.S100000x1 bt Cert.KernelIdeal.Facts₀.shapeCasts_S100000_S100000x1))
      (iotaInDim Cert.KernelIdeal.S100000x64 32 1))

def clipV (bt : IVec Cert.KernelIdeal.S100000 32) : IVec Cert.KernelIdeal.S100000 32 :=
  maxsi
    (broadcastInDim Cert.KernelIdeal.S100000 ![] Cert.KernelIdeal.Facts₀.bcast_S_S100000
      (id (constantI Cert.KernelIdeal.S_ 32 0#32)))
    bt

def wrapV (bt : IVec Cert.KernelIdeal.S100000 32) : IVec Cert.KernelIdeal.S100000 32 :=
  select
    (cmpi .slt (clipV bt)
      (broadcastInDim Cert.KernelIdeal.S100000 ![] Cert.KernelIdeal.Facts₀.bcast_S_S100000
        (constantI Cert.KernelIdeal.S_ 32 0#32)))
    (addi (clipV bt)
      (broadcastInDim Cert.KernelIdeal.S100000 ![] Cert.KernelIdeal.Facts₀.bcast_S_S100000
        (constantI Cert.KernelIdeal.S_ 32 64#32)))
    (clipV bt)

def cntIV (bt : IVec Cert.KernelIdeal.S100000 32) : IVec Cert.KernelIdeal.S64 32 :=
  Host.scatter Cert.KernelIdeal.scatter_S64_S100000x1_S100000_n_0_0_1 IntOp.addi
    (broadcastInDim Cert.KernelIdeal.S64 ![] Cert.KernelIdeal.Facts₀.bcast_S_S64
      (constantI Cert.KernelIdeal.S_ 32 0#32))
    (broadcastInDim Cert.KernelIdeal.S100000x1 ![0] Cert.KernelIdeal.Facts₀.bcast_S100000_S100000x1_0 (wrapV bt))
    (broadcastInDim Cert.KernelIdeal.S100000 ![] Cert.KernelIdeal.Facts₀.bcast_S_S100000
      (constantI Cert.KernelIdeal.S_ 32 1#32))

def cntKV (bt : IVec Cert.KernelIdeal.S100000 32) : FVec F Cert.KernelIdeal.S64 .f32 :=
  sitofp .f32 (cntIV bt)

def sumsRV (bt : IVec Cert.ReferenceIdeal.S100000 32) (x : FVec F Cert.ReferenceIdeal.S100000x128 .f32) :
    FVec F Cert.ReferenceIdeal.S64x128 .f32 :=
  Host.scatterAdd Cert.ReferenceIdeal.scatter_S64x128_S100000x1_S100000x128_1_0_0_1
    (broadcastInDim Cert.ReferenceIdeal.S64x128 ![] Cert.ReferenceIdeal.Facts₀.bcast_S_S64x128
      (constant Cert.ReferenceIdeal.S_ .f32 0x00000000#32))
    (broadcastInDim Cert.ReferenceIdeal.S100000x1 ![0] Cert.ReferenceIdeal.Facts₀.bcast_S100000_S100000x1_0 bt)
    x

def cntRV (bt : IVec Cert.ReferenceIdeal.S100000 32) : FVec F Cert.ReferenceIdeal.S64 .f32 :=
  Host.scatterAdd Cert.ReferenceIdeal.scatter_S64_S100000x1_S100000_n_0_0_1
    (broadcastInDim Cert.ReferenceIdeal.S64 ![] Cert.ReferenceIdeal.Facts₀.bcast_S_S64
      (constant Cert.ReferenceIdeal.S_ .f32 0x00000000#32))
    (broadcastInDim Cert.ReferenceIdeal.S100000x1 ![0] Cert.ReferenceIdeal.Facts₀.bcast_S100000_S100000x1_0 bt)
    (broadcastInDim Cert.ReferenceIdeal.S100000 ![] Cert.ReferenceIdeal.Facts₀.bcast_S_S100000
      (constant Cert.ReferenceIdeal.S_ .f32 0x3F800000#32))

end Cert.GCN.Ops

end
-- ==== Proof.AggReal.lean ====
import proofs.«401124_j9440338117505_1_alg».proof.Proof.AggOps
import Idealize.ShloMosaic.PureOps.Ideal.Laws
import Idealize.ShloMosaic.Lib.IdealHost
import Mathlib.Data.EReal.Operations

noncomputable section

namespace Cert.GCN.Ops

open Idealize.ShloMosaic Idealize.ShloMosaic.ValueIdx Idealize.SL.Sem
open Cert.KernelIdeal Cert.KernelIdeal.Facts₀ Cert.KernelIdeal.Facts

def IsR (a : EReal) : Prop := ∃ r : ℝ, a = (r : EReal)

theorem isR_zero : IsR 0 := ⟨0, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem isR_sum {ι : Type} (s : Finset ι) (f : ι → EReal) (hf : ∀ i ∈ s, IsR (f i)) : IsR (∑ i ∈ s, f i) := by
  classical
  induction s using Finset.induction_on with
  | empty => rw [Finset.sum_empty]; exact isR_zero
  | insert a s ha ih =>
    rw [Finset.sum_insert ha]
    exact (hf a (Finset.mem_insert_self a s)).add (ih fun i hi => hf i (Finset.mem_insert_of_mem hi))

theorem isR_rsqrt_of_one_le {m : EReal} (hm : 1 ≤ m) : IsR (Ideal.rsqrt m) := by
  induction m using EReal.rec with
  | bot => exact absurd hm (not_le.mpr (EReal.bot_lt_coe 1))
  | top => exact ⟨0, rfl⟩
  | coe r =>
    have hr : (1 : ℝ) ≤ r := by exact_mod_cast hm
    rw [Ideal.rsqrt_coe, if_neg (by linarith), if_neg (by linarith)]
    exact ⟨_, rfl⟩

theorem isR_scatterAdd {s si su : Shape} (d : ScatterDims s si su) {w : Nat} (x : FVec Ideal s .f32)
    (idx : IVec si w) (upd : FVec Ideal su .f32) (hx : ∀ i, IsR (x i)) (hu : ∀ j, IsR (upd j)) (i : s.Idx) :
    IsR (Host.scatterAdd d x idx upd i) := by
  unfold Host.scatterAdd
  rw [Ideal.hostScatterAdd_def]
  unfold Ideal.hostScatterAdd
  exact (hx i).add (isR_sum _ _ fun j _ => hu j)

theorem isR_constant {s : Shape} (w : BitVec 32) (hw : IsR (Ideal.ofBits .f32 w)) (i : s.Idx) :
    IsR (constant (F := Ideal) s .f32 w i) := hw

theorem isR_constant_zero {s : Shape} (i : s.Idx) : IsR (constant (F := Ideal) s .f32 0x00000000#32 i) :=
  isR_constant _ (Ideal.ofBits_zero_f32 ▸ isR_zero) i

theorem isR_bcast {s t : Shape} (dims : Fin s.rank → Fin t.rank) (h : s.BroadcastsInDim t dims) (x : FVec Ideal s .f32)
    (hx : ∀ k, IsR (x k)) (i : t.Idx) : IsR (broadcastInDim t dims h x i) := hx _

theorem isR_gather {s si t : Shape} {w : Nat} (d : GatherDims s si t) (x : FVec Ideal s .f32) (idx : IVec si w)
    (hx : ∀ k, IsR (x k)) (j : t.Idx) : IsR (Host.gather d x idx j) := hx _

theorem isR_mulf {s : Shape} (x y : FVec Ideal s .f32) (i : s.Idx) (hx : IsR (x i)) (hy : IsR (y i)) :
    IsR (mulf x y i) := hx.mul hy

theorem isR_select {s : Shape} (c : IVec s 1) (a b : FVec Ideal s .f32) (i : s.Idx) (ha : IsR (a i)) (hb : IsR (b i)) :
    IsR (select c a b i) := by
  unfold select Scalar.select
  split
  · exact ha
  · exact hb

theorem isR_rsqrt_max_one {s t : Shape} (dims : Fin s.rank → Fin t.rank) (h : s.BroadcastsInDim t dims)
    (x : FVec Ideal t .f32) (i : t.Idx) :
    IsR (Host.rsqrt (maximumf x (broadcastInDim t dims h (constant (F := Ideal) s .f32 0x3F800000#32))) i) := by
  show IsR (Ideal.rsqrt (max (x i) (Ideal.ofBits .f32 0x3F800000#32)))
  rw [Ideal.ofBits_one_f32]
  exact isR_rsqrt_of_one_le (le_max_right _ _)

variable [Cert.KernelIdeal.Facts]

theorem dinv_isR (ei : IVec S2x600000 32) (i : S100000.Idx) : IsR (dinvV (F := Ideal) ei i) := by
  unfold dinvV
  refine isR_select _ _ _ i (isR_rsqrt_max_one _ _ _ i) (isR_bcast _ _ _ (fun k => ?_) i)
  exact isR_constant_zero k

theorem nrm_isR (ei : IVec S2x600000 32) (k : S700000x1.Idx) : IsR (nrmV (F := Ideal) ei k) := by
  unfold nrmV
  refine isR_bcast _ _ _ (fun j => ?_) k
  refine isR_mulf _ _ j ?_ ?_
  · refine isR_gather _ _ _ ?_ j
    exact dinv_isR ei
  · refine isR_gather _ _ _ ?_ j
    exact dinv_isR ei

theorem aggV_isR (ei : IVec S2x600000 32) (h : FVec Ideal S100000x128 .f32) (hh : ∀ i, IsR (h i)) (i : S100000x128.Idx) :
    IsR (aggV (F := Ideal) ei h i) := by
  unfold aggV
  refine isR_scatterAdd _ _ _ _ (fun k => ?_) (fun j => ?_) i
  · refine isR_bcast _ _ _ (fun k' => ?_) k
    exact isR_constant_zero k'
  · refine isR_mulf _ _ j ?_ ?_
    · refine isR_bcast _ _ _ ?_ j
      exact nrm_isR ei
    · refine isR_gather _ _ _ ?_ j
      exact hh

-- the aggregation is a sum of products of real entries with real edge weights
theorem aggC_real (ei : IVec S2x600000 32) (h : Mat 100000 128) (hh : IsReal2 h) : IsReal2 (aggC ei h) := by
  obtain ⟨g, rfl⟩ := hh
  have key : ∀ (r : Fin 100000) (j : Fin 128), IsR (aggC ei (fun r j => ((g r j : ℝ) : EReal)) r j) := by
    intro r j
    unfold aggC cur2
    refine aggV_isR ei _ (fun i => ?_) (ix2 r j)
    exact ⟨g (i 0) (i 1), rfl⟩
  choose g' hg' using key
  exact ⟨g', funext fun r => funext fun j => hg' r j⟩

end Cert.GCN.Ops

end
-- ==== Proof.PoolLaw.lean ====
import proofs.«401124_j9440338117505_1_alg».proof.Proof.PoolOps
import Idealize.ShloMosaic.Lib.IdealHost
import Idealize.ShloMosaic.Lib.ValueLayout
import Idealize.ShloMosaic.Lib.Pipeline.Value
import Mathlib.Algebra.BigOperators.Ring.Finset

noncomputable section

namespace Cert.GCN.Ops

open Idealize.ShloMosaic Idealize.ShloMosaic.ValueIdx

variable [Cert.KernelIdeal.Facts] [Cert.ReferenceIdeal.Facts]

abbrev dR2 := Cert.ReferenceIdeal.scatter_S64x128_S100000x1_S100000x128_1_0_0_1
abbrev dR1 := Cert.ReferenceIdeal.scatter_S64_S100000x1_S100000_n_0_0_1
abbrev dK1 := Cert.KernelIdeal.scatter_S64_S100000x1_S100000_n_0_0_1

theorem dR2_siIdx (j : Cert.ReferenceIdeal.S100000x128.Idx) (c : Fin dR2.scatterDimsToOperandDims.length) :
    dR2.siIdx j c = ix2 (j 0) 0 := by
  have hc : c.val = 0 := by have := c.isLt; change c.val < 1 at this; omega
  funext b
  match b with
  | ⟨0, _⟩ => rfl
  | ⟨1, _⟩ => exact Fin.ext hc

theorem dR2_start0 (j : Cert.ReferenceIdeal.S100000x128.Idx) (idx : IVec Cert.ReferenceIdeal.S100000x1 32) :
    dR2.start j idx 0 = (idx (ix2 (j 0) 0)).toInt := by
  have h0 : (0 : Fin Cert.ReferenceIdeal.S64x128.rank) ∈ dR2.scatterDimsToOperandDims := List.mem_singleton.2 rfl
  unfold ScatterDims.start
  rw [dif_pos h0, dR2_siIdx]
  rfl

theorem dR2_start1 (j : Cert.ReferenceIdeal.S100000x128.Idx) (idx : IVec Cert.ReferenceIdeal.S100000x1 32) :
    dR2.start j idx 1 = 0 := by
  rfl

theorem dR2_window0 (j : Cert.ReferenceIdeal.S100000x128.Idx) :
    dR2.window j 0 = 0 := by
  rfl

theorem dR2_window1 (j : Cert.ReferenceIdeal.S100000x128.Idx) :
    dR2.window j 1 = (j 1).val := by
  rfl

theorem dR2_resultIdx (idx : IVec Cert.ReferenceIdeal.S100000x1 32)
    (hb : ∀ r : Fin 100000, 0 ≤ (idx (ix2 r 0)).toInt ∧ (idx (ix2 r 0)).toInt < 64)
    (j : Cert.ReferenceIdeal.S100000x128.Idx) (g : Fin 64) (c : Fin 128) :
    dR2.resultIdx? j idx = some (ix2 g c) ↔ (idx (ix2 (j 0) 0)).toInt = g.val ∧ j 1 = c := by
  have hj1 : (j 1).val < 128 := (j 1).isLt
  have hbj := hb (j 0)
  have hin : ∀ a, 0 ≤ dR2.start j idx a + dR2.window j a ∧ dR2.start j idx a + dR2.window j a < Cert.ReferenceIdeal.S64x128.size a := by
    intro a
    match a with
    | ⟨0, _⟩ =>
      rw [show (⟨0, _⟩ : Fin Cert.ReferenceIdeal.S64x128.rank) = 0 from rfl, dR2_start0, dR2_window0]
      exact ⟨by omega, by show _ < ((64 : Nat) : Int); omega⟩
    | ⟨1, _⟩ =>
      rw [show (⟨1, _⟩ : Fin Cert.ReferenceIdeal.S64x128.rank) = 1 from rfl, dR2_start1, dR2_window1]
      exact ⟨by omega, by show _ < ((128 : Nat) : Int); omega⟩
  unfold ScatterDims.resultIdx?
  rw [dif_pos hin, Option.some_inj]
  constructor
  · intro e
    have e0 : (dR2.start j idx 0 + dR2.window j 0).toNat = g.val := congrArg Fin.val (congrFun e 0)
    have e1 : (dR2.start j idx 1 + dR2.window j 1).toNat = c.val := congrArg Fin.val (congrFun e 1)
    rw [dR2_start0, dR2_window0] at e0
    rw [dR2_start1, dR2_window1] at e1
    exact ⟨by omega, Fin.ext (by omega)⟩
  · rintro ⟨h0, h1⟩
    funext a
    match a with
    | ⟨0, _⟩ =>
      refine Fin.ext ?_
      show (dR2.start j idx 0 + dR2.window j 0).toNat = g.val
      rw [dR2_start0, dR2_window0]; omega
    | ⟨1, _⟩ =>
      refine Fin.ext ?_
      show (dR2.start j idx 1 + dR2.window j 1).toNat = c.val
      rw [dR2_start1, dR2_window1, ← h1]; omega

section Count
variable {s si u : Shape}

def stepAdd (d : ScatterDims s si u) (idx : IVec si 32) (upd : u.Idx → BitVec 32) (r : s.Idx → BitVec 32) (n : Fin u.numel) :
    s.Idx → BitVec 32 :=
  match d.resultIdx? (u.rowMajor.symm n) idx with
  | some i => fun i' => if i' = i then IntOp.addi (r i) (upd (u.rowMajor.symm n)) else r i'
  | none => r

theorem scatter_eq_foldl (d : ScatterDims s si u) (x : s.Idx → BitVec 32) (idx : IVec si 32) (upd : u.Idx → BitVec 32) :
    Host.scatter d IntOp.addi x idx upd = (List.finRange u.numel).foldl (stepAdd d idx upd) x := rfl

-- each listed position adds one to the element it lands on
theorem foldl_stepAdd_count (d : ScatterDims s si u) (idx : IVec si 32) (upd : u.Idx → BitVec 32)
    (hu : ∀ j, upd j = 1#32) (l : List (Fin u.numel)) (x : s.Idx → BitVec 32) (i : s.Idx) :
    l.foldl (stepAdd d idx upd) x i
      = x i + BitVec.ofNat 32 (l.countP fun n => d.resultIdx? (u.rowMajor.symm n) idx = some i) := by
  induction l generalizing x with
  | nil => simp
  | cons n l ih =>
    rw [List.foldl_cons, ih, List.countP_cons]
    unfold stepAdd
    cases hr : d.resultIdx? (u.rowMajor.symm n) idx with
    | none => simp
    | some i0 =>
      by_cases hi : i = i0
      · subst hi
        simp [IntOp.addi, hu, BitVec.ofNat_add, add_assoc]
        ac_rfl
      · have hne : ¬ (i0 = i) := fun e => hi e.symm
        simp [hi, hne]

theorem countP_finRange_eq_card (d : ScatterDims s si u) (idx : IVec si 32) (i : s.Idx) :
    (List.finRange u.numel).countP (fun n => d.resultIdx? (u.rowMajor.symm n) idx = some i)
      = (Finset.univ.filter fun j : u.Idx => d.resultIdx? j idx = some i).card := by
  rw [← Finset.card_map u.rowMajor.toEmbedding]
  rw [List.countP_eq_length_filter]
  have : (Finset.univ.filter fun j : u.Idx => d.resultIdx? j idx = some i).map u.rowMajor.toEmbedding
      = Finset.univ.filter fun n : Fin u.numel => d.resultIdx? (u.rowMajor.symm n) idx = some i := by
    ext n
    simp only [Finset.mem_map, Finset.mem_filter, Finset.mem_univ, true_and, Equiv.coe_toEmbedding]
    constructor
    · rintro ⟨j, hj, rfl⟩; simpa using hj
    · intro hn; exact ⟨u.rowMajor.symm n, hn, by simp⟩
  rw [this]
  simp [Finset.card, Finset.filter, Fin.univ_def]

theorem scatter_ones_apply (d : ScatterDims s si u) (idx : IVec si 32) (x : s.Idx → BitVec 32) (upd : u.Idx → BitVec 32)
    (hx : ∀ i, x i = 0#32) (hu : ∀ j, upd j = 1#32) (i : s.Idx) :
    Host.scatter d IntOp.addi x idx upd i
      = BitVec.ofNat 32 (Finset.univ.filter fun j : u.Idx => d.resultIdx? j idx = some i).card := by
  rw [scatter_eq_foldl, foldl_stepAdd_count d idx upd hu, countP_finRange_eq_card, hx]
  simp

end Count

section Read

theorem bcol_apply (h : (⟨1, ![100000]⟩ : Shape).BroadcastsInDim ⟨2, ![100000, 1]⟩ ![0])
    (bt : IVec ⟨1, ![100000]⟩ 32) (r : Fin 100000) :
    broadcastInDim (⟨2, ![100000, 1]⟩ : Shape) ![0] h bt (ix2 r 0) = bt (ix1 r) := by
  refine broadcastInDim_apply _ h bt _ (ix1 r) ?_
  intro a
  match a with
  | ⟨0, _⟩ => rfl

theorem ohV_apply (bt : IVec Cert.KernelIdeal.S100000 32) (r : Fin 100000) (g : Fin 64) :
    ohV (F := Ideal) bt (ix2 r g) = if bt (ix1 r) = BitVec.ofNat 32 g.val then 1 else 0 := by
  have h1 : broadcastInDim Cert.KernelIdeal.S100000x64 ![0, 1] Cert.KernelIdeal.Facts₀.bcast_S100000x1_S100000x64_0_1
        (shapeCast Cert.KernelIdeal.S100000x1 bt Cert.KernelIdeal.Facts₀.shapeCasts_S100000_S100000x1) (ix2 r g)
      = bt (ix1 r) := by
    rw [broadcastInDim_apply _ _ _ _ (ix2 r 0) (by
      intro a
      match a with
      | ⟨0, _⟩ => rfl
      | ⟨1, _⟩ => rfl)]
    refine shapeCast_apply _ _ _ (ix1 r) ?_
    rw [Shape.rowMajor_val_one, Shape.rowMajor_val_two]
    show r.val = r.val * 1 + 0
    omega
  show ((((IntOp.cmpi .eq (broadcastInDim Cert.KernelIdeal.S100000x64 ![0, 1] Cert.KernelIdeal.Facts₀.bcast_S100000x1_S100000x64_0_1
        (shapeCast Cert.KernelIdeal.S100000x1 bt Cert.KernelIdeal.Facts₀.shapeCasts_S100000_S100000x1) (ix2 r g))
        (BitVec.ofNat 32 g.val)).toNat : ℝ) : EReal)) = _
  rw [h1]
  unfold IntOp.cmpi
  by_cases e : bt (ix1 r) = BitVec.ofNat 32 g.val
  · simp [e]
  · simp [e]

end Read

section Words

theorem word_eq_iff (v : BitVec 32) (g : Fin 64) :
    v = BitVec.ofNat 32 g.val ↔ v.toInt = g.val := by
  have hg := g.isLt
  have hG : (BitVec.ofNat 32 g.val).toInt = g.val := by
    rw [BitVec.toInt_eq_toNat_cond, BitVec.toNat_ofNat]
    split <;> omega
  constructor
  · intro e; rw [e, hG]
  · intro e
    apply BitVec.eq_of_toInt_eq
    rw [e, hG]

theorem not_slt_zero (v : BitVec 32) (h : 0 ≤ v.toInt) : v.slt 0#32 = false := by
  have h0 : (0#32 : BitVec 32).toInt = 0 := by decide
  unfold BitVec.slt
  rw [h0]
  exact decide_eq_false (by omega)

theorem wrapV_eq (bt : IVec Cert.KernelIdeal.S100000 32) (hb : ∀ i, 0 ≤ (bt i).toInt) : wrapV bt = bt := by
  have hc : clipV bt = bt := by
    funext i
    show IntOp.maxsi 0#32 (bt i) = bt i
    unfold IntOp.maxsi
    rw [not_slt_zero _ (hb i)]
    rfl
  funext i
  unfold wrapV
  rw [hc]
  show Scalar.select (IntOp.cmpi .slt (bt i) 0#32) _ _ = _
  have : IntOp.cmpi .slt (bt i) 0#32 = 0#1 := by
    show BitVec.ofBool ((bt i).slt 0#32) = 0#1
    rw [not_slt_zero _ (hb i)]
    rfl
  rw [this]
  exact select_zero _ _

end Words

section Main

theorem dR2_lands (idx : IVec Cert.ReferenceIdeal.S100000x1 32)
    (hb : ∀ r : Fin 100000, 0 ≤ (idx (ix2 r 0)).toInt ∧ (idx (ix2 r 0)).toInt < 64)
    (r : Fin 100000) (c : Fin 128) (g : Fin 64) (d : Fin 128) :
    dR2.resultIdx? (ix2 r c) idx = some (ix2 g d) ↔ (idx (ix2 r 0)).toInt = g.val ∧ c = d :=
  dR2_resultIdx idx hb (ix2 r c) g d

-- with ids in range, row r contributes to graph g exactly when its id is g
theorem pool_sum_eq (bt : IVec Cert.KernelIdeal.S100000 32)
    (hb : ∀ r : Fin 100000, 0 ≤ (bt (ix1 r)).toInt ∧ (bt (ix1 r)).toInt < 64) (x : Mat 100000 128) :
    poolSum (cur2 (ohV (F := Ideal) bt)) x = cur2 (sumsRV (F := Ideal) bt (vec2 x)) := by
  funext g d
  have hidx : ∀ r : Fin 100000,
      0 ≤ (broadcastInDim Cert.ReferenceIdeal.S100000x1 ![0] Cert.ReferenceIdeal.Facts₀.bcast_S100000_S100000x1_0 bt (ix2 r 0)).toInt ∧
      (broadcastInDim Cert.ReferenceIdeal.S100000x1 ![0] Cert.ReferenceIdeal.Facts₀.bcast_S100000_S100000x1_0 bt (ix2 r 0)).toInt < 64 := by
    intro r
    rw [bcol_apply]
    exact hb r
  show ∑ r : Fin 100000, ohV (F := Ideal) bt (ix2 r g) * x r d
     = Ideal.hostScatterAdd dR2
        (broadcastInDim Cert.ReferenceIdeal.S64x128 ![] Cert.ReferenceIdeal.Facts₀.bcast_S_S64x128
          (constant (F := Ideal) Cert.ReferenceIdeal.S_ .f32 0x00000000#32))
        (broadcastInDim Cert.ReferenceIdeal.S100000x1 ![0] Cert.ReferenceIdeal.Facts₀.bcast_S100000_S100000x1_0 bt)
        (vec2 x) (ix2 g d)
  unfold Ideal.hostScatterAdd
  rw [broadcastInDim_scalar_apply, constant_apply, Ideal.ofBits_zero_f32, zero_add, Finset.sum_filter, sum_idx2]
  refine Finset.sum_congr rfl fun r _ => ?_
  rw [ohV_apply]
  simp only [dR2_lands _ hidx, vec2_apply]
  rw [bcol_apply Cert.ReferenceIdeal.Facts₀.bcast_S100000_S100000x1_0 bt r]
  by_cases e : (bt (ix1 r)).toInt = g.val
  · rw [if_pos ((word_eq_iff _ g).2 e), one_mul]
    simp [e]
  · rw [if_neg (mt (word_eq_iff _ g).1 e), zero_mul]
    simp [e]

theorem card_lands_le (idx : IVec Cert.ReferenceIdeal.S100000x1 32) (i : Cert.ReferenceIdeal.S64.Idx) :
    (Finset.univ.filter fun j : Cert.ReferenceIdeal.S100000.Idx => dR1.resultIdx? j idx = some i).card ≤ 100000 := by
  refine (Finset.card_filter_le _ _).trans ?_
  rw [Finset.card_univ, Shape.card_idx]
  exact le_of_eq (by simp [Shape.numel])

-- a graph has at most 100000 rows, so the integer count read as a float is the float count
theorem cnt_eq (bt : IVec Cert.KernelIdeal.S100000 32)
    (hb : ∀ r : Fin 100000, 0 ≤ (bt (ix1 r)).toInt ∧ (bt (ix1 r)).toInt < 64) :
    (fun g : Fin 64 => cntKV (F := Ideal) bt (ix1 g)) = fun g => cntRV (F := Ideal) bt (ix1 g) := by
  funext g
  have hw : wrapV bt = bt := wrapV_eq bt (fun i => by rw [eq_ix1 i]; exact (hb (i 0)).1)
  have hK : cntIV bt (ix1 g) = BitVec.ofNat 32 (Finset.univ.filter fun j : Cert.ReferenceIdeal.S100000.Idx =>
      dR1.resultIdx? j (broadcastInDim Cert.ReferenceIdeal.S100000x1 ![0] Cert.ReferenceIdeal.Facts₀.bcast_S100000_S100000x1_0 bt)
        = some (ix1 g)).card := by
    unfold cntIV
    rw [hw]
    exact scatter_ones_apply dK1 _ _ _ (fun i => by rw [broadcastInDim_scalar_apply]; rfl)
      (fun j => by rw [broadcastInDim_scalar_apply]; rfl) (ix1 g)
  have hle := card_lands_le
    (broadcastInDim Cert.ReferenceIdeal.S100000x1 ![0] Cert.ReferenceIdeal.Facts₀.bcast_S100000_S100000x1_0 bt) (ix1 g)
  show (((cntIV bt (ix1 g)).toInt : ℝ) : EReal)
     = Ideal.hostScatterAdd dR1
        (broadcastInDim Cert.ReferenceIdeal.S64 ![] Cert.ReferenceIdeal.Facts₀.bcast_S_S64
          (constant (F := Ideal) Cert.ReferenceIdeal.S_ .f32 0x00000000#32))
        (broadcastInDim Cert.ReferenceIdeal.S100000x1 ![0] Cert.ReferenceIdeal.Facts₀.bcast_S100000_S100000x1_0 bt)
        (broadcastInDim Cert.ReferenceIdeal.S100000 ![] Cert.ReferenceIdeal.Facts₀.bcast_S_S100000
          (constant (F := Ideal) Cert.ReferenceIdeal.S_ .f32 0x3F800000#32)) (ix1 g)
  unfold Ideal.hostScatterAdd
  rw [hK, broadcastInDim_scalar_apply, constant_apply, Ideal.ofBits_zero_f32, zero_add]
  rw [Finset.sum_congr rfl (fun j _ => by rw [broadcastInDim_scalar_apply, constant_apply, Ideal.ofBits_one_f32])]
  rw [Finset.sum_const, nsmul_one]
  rw [BitVec.toInt_eq_toNat_cond, BitVec.toNat_ofNat]
  rw [Nat.mod_eq_of_lt (by omega), if_pos (by omega)]
  rw [Int.cast_natCast, EReal.coe_natCast]

end Main

end Cert.GCN.Ops
end
-- ==== Proof.Bridge.lean ====
import proofs.«401124_j9440338117505_1_alg».proof.Proof.LayerLaw
import proofs.«401124_j9440338117505_1_alg».proof.Proof.AggOps
import proofs.«401124_j9440338117505_1_alg».proof.Proof.PoolOps
import proofs.«401124_j9440338117505_1_alg».proof.Proof.AggReal
import proofs.«401124_j9440338117505_1_alg».proof.Proof.PoolLaw
import proofs.«401124_j9440338117505_1_alg».proof.Proof.Gen.KernelIdeal
import proofs.«401124_j9440338117505_1_alg».proof.Proof.Gen.ReferenceIdeal

noncomputable section
open Idealize.ShloMosaic Idealize.ShloMosaic.ValueIdx

namespace Cert.GCN.Final
open Cert.GCN

def outK (x : Mat 100000 128) (ei : IVec Cert.KernelIdeal.S2x600000 32) (bt : IVec Cert.KernelIdeal.S100000 32)
    (cw : (⟨3, ![4, 128, 128]⟩ : Shape).Idx → EReal) (cb g be : (⟨2, ![4, 128]⟩ : Shape).Idx → EReal)
    (w1 : Mat 128 64) (b1 : Fin 64 → EReal) (w2 : Mat 64 2) (b2 : Fin 2 → EReal) : Mat 64 2 :=
  head (pooled (poolSum (cur2 (Ops.ohV (F := Ideal) bt)) (stackK (Ops.aggC ei) x cw cb g be)) (fun g => Ops.cntKV (F := Ideal) bt (ix1 g))) w1 b1 w2 b2

def outR (x : Mat 100000 128) (ei : IVec Cert.KernelIdeal.S2x600000 32) (bt : IVec Cert.KernelIdeal.S100000 32)
    (cw : (⟨3, ![4, 128, 128]⟩ : Shape).Idx → EReal) (cb g be : (⟨2, ![4, 128]⟩ : Shape).Idx → EReal)
    (w1 : Mat 128 64) (b1 : Fin 64 → EReal) (w2 : Mat 64 2) (b2 : Fin 2 → EReal) : Mat 64 2 :=
  head (pooled (cur2 (Ops.sumsRV (F := Ideal) bt (vec2 (stackR (Ops.aggC ei) x cw cb g be)))) (fun g => Ops.cntRV (F := Ideal) bt (ix1 g))) w1 b1 w2 b2

-- on real entries the two variance forms agree layer by layer; a sum through a 0/1 membership matrix is the rows added at their graph ids
theorem out_eq (x : Mat 100000 128) (ei : IVec Cert.KernelIdeal.S2x600000 32) (bt : IVec Cert.KernelIdeal.S100000 32)
    (cw : (⟨3, ![4, 128, 128]⟩ : Shape).Idx → EReal) (cb g be : (⟨2, ![4, 128]⟩ : Shape).Idx → EReal)
    (w1 : Mat 128 64) (b1 : Fin 64 → EReal) (w2 : Mat 64 2) (b2 : Fin 2 → EReal)
    (hx : IsReal2 x) (hcw : ∀ i, cw i ≠ ⊤ ∧ cw i ≠ ⊥) (hcb : ∀ i, cb i ≠ ⊤ ∧ cb i ≠ ⊥)
    (hg : ∀ i, g i ≠ ⊤ ∧ g i ≠ ⊥) (hbe : ∀ i, be i ≠ ⊤ ∧ be i ≠ ⊥)
    (hb : ∀ r : Fin 100000, 0 ≤ (bt (ix1 r)).toInt ∧ (bt (ix1 r)).toInt < 64) :
    outK x ei bt cw cb g be w1 b1 w2 b2 = outR x ei bt cw cb g be w1 b1 w2 b2 := by
  unfold outK outR
  rw [stack_eq (Ops.aggC ei) (Ops.aggC_real ei) x cw cb g be hx hcw hcb hg hbe, Ops.pool_sum_eq bt hb, Ops.cnt_eq bt hb]

end Cert.GCN.Final
end
-- ==== Proof.KFoldChain.lean ====
import proofs.«401124_j9440338117505_1_alg».proof.Proof.Gen.KernelIdeal.Frame
import proofs.«401124_j9440338117505_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.GCN.KChain.Fold

open Idealize.ShloMosaic Idealize.SL.Sem
open Cert.KernelIdeal Cert.KernelIdeal.Gen

variable {F : FTy → Type} [FloatOps F]

local macro "writes_in" : tactic =>
  `(tactic| (simp only [List.Forall, StableHlo.nullary_writes, StableHlo.unary_writes, StableHlo.binary_writes,
      StableHlo.ternary_writes, StableHlo.reshape_writes, Finset.singleton_subset_iff, List.mem_toFinset] <;>
    repeat' apply And.intro) <;> exact List.mem_map_of_mem (by decide))

abbrev outs0 : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem keep0 (V : Valuation τ sig (Elt F)) (b : Ref sig .tc) (hb : b ∉ outs0) :
    StableHlo.after hostOps0 V (Proc.devRef .tc b) = V (Proc.devRef .tc b) :=
  StableHlo.after_of_writes_sub _ V (by writes_in) hb
abbrev outs0_1 : List (Ref sig .tc) := [main_call0_v0, main_call0_v1, main_v16]
theorem keep0_1 (V : Valuation τ sig (Elt F)) (b : Ref sig .tc) (hb : b ∉ outs0_1) :
    StableHlo.after hostOps0_1 V (Proc.devRef .tc b) = V (Proc.devRef .tc b) :=
  StableHlo.after_of_writes_sub _ V (by writes_in) hb
abbrev outs0_2 : List (Ref sig .tc) := [main_c, main_v17, main_v18, main_c_4, main_v19, main_v20, main_v21, main_v22, main_v23, main_c_5, main_v24, main_v25, main_c_6, main_v26, main_v27, main_v28, main_v29, main_v30, main_v31, main_v32, main_v33, main_v34, main_v35, main_v36, main_v37]
theorem keep0_2 (V : Valuation τ sig (Elt F)) (b : Ref sig .tc) (hb : b ∉ outs0_2) :
    StableHlo.after hostOps0_2 V (Proc.devRef .tc b) = V (Proc.devRef .tc b) :=
  StableHlo.after_of_writes_sub _ V (by writes_in) hb
abbrev outs1 : List (Ref sig .tc) := [main_c_7, main_v39, main_v40, main_c_8, main_v41, main_v42, main_v43, main_v44, main_v45, main_v46, main_v47, main_cst_9, main_v48, main_v49, main_v50]
theorem keep1 (V : Valuation τ sig (Elt F)) (b : Ref sig .tc) (hb : b ∉ outs1) :
    StableHlo.after hostOps1 V (Proc.devRef .tc b) = V (Proc.devRef .tc b) :=
  StableHlo.after_of_writes_sub _ V (by writes_in) hb
abbrev outs2 : List (Ref sig .tc) := [main_cst_10, main_v52, main_v53, main_cst_11, main_v54, main_v55, main_v56, main_v57, main_v58, main_v59, main_v60, main_v61, main_v62, main_v63]
theorem keep2 (V : Valuation τ sig (Elt F)) (b : Ref sig .tc) (hb : b ∉ outs2) :
    StableHlo.after hostOps2 V (Proc.devRef .tc b) = V (Proc.devRef .tc b) :=
  StableHlo.after_of_writes_sub _ V (by writes_in) hb
abbrev outs3 : List (Ref sig .tc) := [main_v65, main_v66, main_v67, main_v68, main_v69]
theorem keep3 (V : Valuation τ sig (Elt F)) (b : Ref sig .tc) (hb : b ∉ outs3) :
    StableHlo.after hostOps3 V (Proc.devRef .tc b) = V (Proc.devRef .tc b) :=
  StableHlo.after_of_writes_sub _ V (by writes_in) hb
abbrev outs4 : List (Ref sig .tc) := [main_c_12, main_v71, main_v72, main_c_13, main_v73, main_v74, main_v75, main_v76, main_v77, main_v78, main_v79, main_cst_14, main_v80, main_v81, main_v82]
theorem keep4 (V : Valuation τ sig (Elt F)) (b : Ref sig .tc) (hb : b ∉ outs4) :
    StableHlo.after hostOps4 V (Proc.devRef .tc b) = V (Proc.devRef .tc b) :=
  StableHlo.after_of_writes_sub _ V (by writes_in) hb
abbrev outs5 : List (Ref sig .tc) := [main_cst_15, main_v84, main_v85, main_cst_16, main_v86, main_v87, main_v88, main_v89, main_v90, main_v91, main_v92, main_v93, main_v94, main_v95]
theorem keep5 (V : Valuation τ sig (Elt F)) (b : Ref sig .tc) (hb : b ∉ outs5) :
    StableHlo.after hostOps5 V (Proc.devRef .tc b) = V (Proc.devRef .tc b) :=
  StableHlo.after_of_writes_sub _ V (by writes_in) hb
abbrev outs6 : List (Ref sig .tc) := [main_v97, main_v98, main_v99, main_v100, main_v101]
theorem keep6 (V : Valuation τ sig (Elt F)) (b : Ref sig .tc) (hb : b ∉ outs6) :
    StableHlo.after hostOps6 V (Proc.devRef .tc b) = V (Proc.devRef .tc b) :=
  StableHlo.after_of_writes_sub _ V (by writes_in) hb
abbrev outs7 : List (Ref sig .tc) := [main_c_17, main_v103, main_v104, main_c_18, main_v105, main_v106, main_v107, main_v108, main_v109, main_v110, main_v111, main_cst_19, main_v112, main_v113, main_v114]
theorem keep7 (V : Valuation τ sig (Elt F)) (b : Ref sig .tc) (hb : b ∉ outs7) :
    StableHlo.after hostOps7 V (Proc.devRef .tc b) = V (Proc.devRef .tc b) :=
  StableHlo.after_of_writes_sub _ V (by writes_in) hb
abbrev outs8 : List (Ref sig .tc) := [main_cst_20, main_v116, main_v117, main_cst_21, main_v118, main_v119, main_v120, main_v121, main_v122, main_v123, main_v124, main_v125, main_v126, main_v127]
theorem keep8 (V : Valuation τ sig (Elt F)) (b : Ref sig .tc) (hb : b ∉ outs8) :
    StableHlo.after hostOps8 V (Proc.devRef .tc b) = V (Proc.devRef .tc b) :=
  StableHlo.after_of_writes_sub _ V (by writes_in) hb
abbrev outs9 : List (Ref sig .tc) := [main_v129, main_v130, main_v131, main_v132, main_v133]
theorem keep9 (V : Valuation τ sig (Elt F)) (b : Ref sig .tc) (hb : b ∉ outs9) :
    StableHlo.after hostOps9 V (Proc.devRef .tc b) = V (Proc.devRef .tc b) :=
  StableHlo.after_of_writes_sub _ V (by writes_in) hb
abbrev outs10 : List (Ref sig .tc) := [main_c_22, main_v135, main_v136, main_c_23, main_v137, main_v138, main_v139, main_v140, main_v141, main_v142, main_v143, main_cst_24, main_v144, main_v145, main_v146]
theorem keep10 (V : Valuation τ sig (Elt F)) (b : Ref sig .tc) (hb : b ∉ outs10) :
    StableHlo.after hostOps10 V (Proc.devRef .tc b) = V (Proc.devRef .tc b) :=
  StableHlo.after_of_writes_sub _ V (by writes_in) hb
abbrev outs11 : List (Ref sig .tc) := [main_cst_25, main_v148, main_v149, main_cst_26, main_v150, main_v151, main_v152, main_v153, main_v154, main_v155, main_v156, main_v157, main_v158, main_v159]
theorem keep11 (V : Valuation τ sig (Elt F)) (b : Ref sig .tc) (hb : b ∉ outs11) :
    StableHlo.after hostOps11 V (Proc.devRef .tc b) = V (Proc.devRef .tc b) :=
  StableHlo.after_of_writes_sub _ V (by writes_in) hb

variable (m : (ℓ : Loc nD τ sig) → Buf (Elt F) ℓ) (ρ : Dev nD → PrngReg) (c : Dev nD)

abbrev inputs : List (Ref sig .tc) := [main_arg0, main_arg3, main_arg4, main_arg5, main_arg6]
abbrev params : List (Ref sig .tc) := [main_arg3, main_arg4, main_arg5, main_arg6]
abbrev consts : List (Ref sig .tc) := [main_arg3, main_arg4, main_arg5, main_arg6, main_v3, main_v6, main_v32]

theorem p2 (b : Ref sig .tc) (hb : b ∈ inputs) : W2 m ρ c (Proc.devRef .tc b) = m ((c.tc : Thread nD τ).loc b) :=
  (keep0_1 _ b ((by decide : ∀ b ∈ inputs, b ∉ outs0_1) b hb)).trans (keep0 _ b ((by decide : ∀ b ∈ inputs, b ∉ outs0) b hb))

theorem p3 (b : Ref sig .tc) (hb : b ∈ params) : W3 m ρ c (Proc.devRef .tc b) = m ((c.tc : Thread nD τ).loc b) :=
  (keep0_2 _ b ((by decide : ∀ b ∈ params, b ∉ outs0_2) b hb)).trans (p2 m ρ c b ((by decide : ∀ b ∈ params, b ∈ inputs) b hb))

theorem c4 (b : Ref sig .tc) (hb : b ∈ consts) : W4 m ρ c (Proc.devRef .tc b) = W3 m ρ c (Proc.devRef .tc b) :=
  W4_of_ne m ρ c b ((by decide : ∀ b ∈ consts, ∀ w, Pipeline.arrRef spec0 w ≠ b) b hb)
theorem c6 (b : Ref sig .tc) (hb : b ∈ consts) : W6 m ρ c (Proc.devRef .tc b) = W3 m ρ c (Proc.devRef .tc b) :=
  (W6_of_ne m ρ c b ((by decide : ∀ b ∈ consts, ∀ w, Pipeline.arrRef spec1 w ≠ b) b hb)).trans
    ((keep1 _ b ((by decide : ∀ b ∈ consts, b ∉ outs1) b hb)).trans (c4 m ρ c b hb))
theorem c8 (b : Ref sig .tc) (hb : b ∈ consts) : W8 m ρ c (Proc.devRef .tc b) = W3 m ρ c (Proc.devRef .tc b) :=
  (W8_of_ne m ρ c b ((by decide : ∀ b ∈ consts, ∀ w, Pipeline.arrRef spec2 w ≠ b) b hb)).trans
    ((keep2 _ b ((by decide : ∀ b ∈ consts, b ∉ outs2) b hb)).trans (c6 m ρ c b hb))
theorem c10 (b : Ref sig .tc) (hb : b ∈ consts) : W10 m ρ c (Proc.devRef .tc b) = W3 m ρ c (Proc.devRef .tc b) :=
  (W10_of_ne m ρ c b ((by decide : ∀ b ∈ consts, ∀ w, Pipeline.arrRef spec3 w ≠ b) b hb)).trans
    ((keep3 _ b ((by decide : ∀ b ∈ consts, b ∉ outs3) b hb)).trans (c8 m ρ c b hb))
theorem c12 (b : Ref sig .tc) (hb : b ∈ consts) : W12 m ρ c (Proc.devRef .tc b) = W3 m ρ c (Proc.devRef .tc b) :=
  (W12_of_ne m ρ c b ((by decide : ∀ b ∈ consts, ∀ w, Pipeline.arrRef spec4 w ≠ b) b hb)).trans
    ((keep4 _ b ((by decide : ∀ b ∈ consts, b ∉ outs4) b hb)).trans (c10 m ρ c b hb))
theorem c14 (b : Ref sig .tc) (hb : b ∈ consts) : W14 m ρ c (Proc.devRef .tc b) = W3 m ρ c (Proc.devRef .tc b) :=
  (W14_of_ne m ρ c b ((by decide : ∀ b ∈ consts, ∀ w, Pipeline.arrRef spec5 w ≠ b) b hb)).trans
    ((keep5 _ b ((by decide : ∀ b ∈ consts, b ∉ outs5) b hb)).trans (c12 m ρ c b hb))
theorem c16 (b : Ref sig .tc) (hb : b ∈ consts) : W16 m ρ c (Proc.devRef .tc b) = W3 m ρ c (Proc.devRef .tc b) :=
  (W16_of_ne m ρ c b ((by decide : ∀ b ∈ consts, ∀ w, Pipeline.arrRef spec6 w ≠ b) b hb)).trans
    ((keep6 _ b ((by decide : ∀ b ∈ consts, b ∉ outs6) b hb)).trans (c14 m ρ c b hb))
theorem c18 (b : Ref sig .tc) (hb : b ∈ consts) : W18 m ρ c (Proc.devRef .tc b) = W3 m ρ c (Proc.devRef .tc b) :=
  (W18_of_ne m ρ c b ((by decide : ∀ b ∈ consts, ∀ w, Pipeline.arrRef spec7 w ≠ b) b hb)).trans
    ((keep7 _ b ((by decide : ∀ b ∈ consts, b ∉ outs7) b hb)).trans (c16 m ρ c b hb))
theorem c20 (b : Ref sig .tc) (hb : b ∈ consts) : W20 m ρ c (Proc.devRef .tc b) = W3 m ρ c (Proc.devRef .tc b) :=
  (W20_of_ne m ρ c b ((by decide : ∀ b ∈ consts, ∀ w, Pipeline.arrRef spec8 w ≠ b) b hb)).trans
    ((keep8 _ b ((by decide : ∀ b ∈ consts, b ∉ outs8) b hb)).trans (c18 m ρ c b hb))
theorem c22 (b : Ref sig .tc) (hb : b ∈ consts) : W22 m ρ c (Proc.devRef .tc b) = W3 m ρ c (Proc.devRef .tc b) :=
  (W22_of_ne m ρ c b ((by decide : ∀ b ∈ consts, ∀ w, Pipeline.arrRef spec9 w ≠ b) b hb)).trans
    ((keep9 _ b ((by decide : ∀ b ∈ consts, b ∉ outs9) b hb)).trans (c20 m ρ c b hb))
theorem c24 (b : Ref sig .tc) (hb : b ∈ consts) : W24 m ρ c (Proc.devRef .tc b) = W3 m ρ c (Proc.devRef .tc b) :=
  (W24_of_ne m ρ c b ((by decide : ∀ b ∈ consts, ∀ w, Pipeline.arrRef spec10 w ≠ b) b hb)).trans
    ((keep10 _ b ((by decide : ∀ b ∈ consts, b ∉ outs10) b hb)).trans (c22 m ρ c b hb))

section Reads
open Idealize.ShloMosaic.ValueIdx Cert.GCN

-- a one-row slice of a stacked parameter, flattened and restored to one row, is that row
theorem row_read (l : Fin 4) (h : S4x128.Slices ![l.val, 0] S1x128) (p : (⟨2, ![4, 128]⟩ : Shape).Idx → EReal) (j : Fin 128) :
    shapeCast S1x128 (shapeCast S128 (extractStridedSlice S1x128 ![l.val, 0] p h) shapeCasts_S1x128_S128)
      shapeCasts_S128_S1x128 (ix2 0 j) = rowl p l j :=
  (shapeCast_a_1a_apply _ _ 0 j).trans ((shapeCast_1a_a_apply _ _ j).trans
    (extractStridedSlice_apply _ _ _ _ (ix2 l j) fun a => match a with | ⟨0, _⟩ => rfl | ⟨1, _⟩ => (Nat.zero_add _).symm))

-- a one-matrix slice of the stacked weights with its leading axis dropped is that matrix
theorem mat_read (l : Fin 4) (h : S4x128x128.Slices ![l.val, 0, 0] S1x128x128) (p : (⟨3, ![4, 128, 128]⟩ : Shape).Idx → EReal) :
    shapeCast S128x128 (extractStridedSlice S1x128x128 ![l.val, 0, 0] p h) shapeCasts_S1x128x128_S128x128 = vec2 (Wl p l) :=
  funext fun i => (congrArg _ (eq_ix2 i)).trans ((shapeCast_1ab_ab_apply _ _ (i 0) (i 1)).trans
    (extractStridedSlice_apply _ _ _ _ (ix3 l (i 0) (i 1)) fun a => match a with
      | ⟨0, _⟩ => rfl | ⟨1, _⟩ => (Nat.zero_add _).symm | ⟨2, _⟩ => (Nat.zero_add _).symm))

theorem lin_of {x : (⟨2, ![100000, 128]⟩ : Shape).Idx → EReal} {w : (⟨2, ![128, 128]⟩ : Shape).Idx → EReal}
    {bv : (⟨2, ![1, 128]⟩ : Shape).Idx → EReal} {X : Mat 100000 128} {W : Mat 128 128} {b : Fin 128 → EReal}
    (hx : x = vec2 X) (hw : w = vec2 W) (hb : ∀ j, bv (ix2 0 j) = b j) :
    vec2 (lin (cur2 x) (cur2 w) fun j => bv (ix2 0 j)) = vec2 (lin X W b) := by
  subst hx hw; obtain rfl := funext hb; rfl

theorem norm_of {a x : (⟨2, ![100000, 128]⟩ : Shape).Idx → EReal} {μ v g be : (⟨2, ![1, 128]⟩ : Shape).Idx → EReal}
    {A X : Mat 100000 128} {M Vr G B : Fin 128 → EReal} (ha : cur2 a = A) (hx : x = vec2 X)
    (hμ : ∀ j, μ (ix2 0 j) = M j) (hv : ∀ j, v (ix2 0 j) = Vr j) (hg : ∀ j, g (ix2 0 j) = G j) (hb : ∀ j, be (ix2 0 j) = B j) :
    vec2 (normRelu (cur2 a) (cur2 x) (fun j => μ (ix2 0 j)) (fun j => v (ix2 0 j)) (fun j => g (ix2 0 j)) fun j => be (ix2 0 j))
      = vec2 (normRelu A X M Vr G B) := by
  subst ha hx; obtain rfl := funext hμ; obtain rfl := funext hv; obtain rfl := funext hg; obtain rfl := funext hb; rfl

end Reads

end Cert.GCN.KChain.Fold

end
-- ==== Proof.KChainE.lean ====
import proofs.«401124_j9440338117505_1_alg».proof.Proof.Gen.KernelIdeal.Frame
import proofs.«401124_j9440338117505_1_alg».proof.Proof.AggOps
import proofs.«401124_j9440338117505_1_alg».proof.Proof.KFoldChain

set_option maxRecDepth 16384

noncomputable section

namespace Cert.GCN.KChain

open Idealize.ShloMosaic Idealize.SL.Sem
open Cert.KernelIdeal Cert.KernelIdeal.Gen Cert.GCN.KChain.Fold

variable {F : FTy → Type} [FloatOps F]
variable (m : (ℓ : Loc nD τ sig) → Buf (Elt F) ℓ) (ρ : Dev nD → PrngReg)

abbrev ei (c : Dev nD) : IVec S2x600000 32 := m ((c.tc : Thread nD τ).loc main_arg1)

theorem W1_src (c : Dev nD) : W1 m ρ c (Proc.devRef .tc main_v3) = Ops.srcV (ei m c) := by
  show StableHlo.after hostOps0 (W0 m ρ c) (Proc.devRef .tc main_v3) = _
  after_results
  rfl

theorem W1_dst (c : Dev nD) : W1 m ρ c (Proc.devRef .tc main_v6) = Ops.dstV (ei m c) := by
  show StableHlo.after hostOps0 (W0 m ρ c) (Proc.devRef .tc main_v6) = _
  after_results
  rfl

theorem W1_v12 (c : Dev nD) : W1 m ρ c (Proc.devRef .tc main_v12)
    = cmpf .ogt (Ops.degV (F := F) (ei m c)) (broadcastInDim S100000 ![] bcast_S_S100000 (constant S_ .f32 0x00000000#32)) := by
  show StableHlo.after hostOps0 (W0 m ρ c) (Proc.devRef .tc main_v12) = _
  after_results
  rfl

theorem W1_v15 (c : Dev nD) : W1 m ρ c (Proc.devRef .tc main_v15)
    = Host.rsqrt (maximumf (Ops.degV (F := F) (ei m c)) (broadcastInDim S100000 ![] bcast_S_S100000 (constant S_ .f32 0x3F800000#32))) := by
  show StableHlo.after hostOps0 (W0 m ρ c) (Proc.devRef .tc main_v15) = _
  after_results
  rfl

theorem W1_cst3 (c : Dev nD) : W1 m ρ c (Proc.devRef .tc main_cst_3) = (constant S_ .f32 0x00000000#32 : FVec F S_ .f32) := by
  show StableHlo.after hostOps0 (W0 m ρ c) (Proc.devRef .tc main_cst_3) = _
  after_results

-- the selection between the reciprocal square root and zero, from any contents holding the two branches
theorem dinv_of (V : Valuation τ sig (Elt F)) (e : IVec S2x600000 32)
    (h12 : V (Proc.devRef .tc main_v12) = cmpf .ogt (Ops.degV (F := F) e) (broadcastInDim S100000 ![] bcast_S_S100000 (constant S_ .f32 0x00000000#32)))
    (h15 : V (Proc.devRef .tc main_v15) = Host.rsqrt (maximumf (Ops.degV (F := F) e) (broadcastInDim S100000 ![] bcast_S_S100000 (constant S_ .f32 0x3F800000#32))))
    (h3 : V (Proc.devRef .tc main_cst_3) = (constant S_ .f32 0x00000000#32 : FVec F S_ .f32)) :
    StableHlo.after hostOps0_1 V (Proc.devRef .tc main_v16) = Ops.dinvV (F := F) e := by
  after_results
  simp only [StableHlo.TRef.ofBuf, StableHlo.TRef.toBuf, cast_eq]
  rw [h12, h15, h3]
  rfl

theorem W2_src (c : Dev nD) : W2 m ρ c (Proc.devRef .tc main_v3) = Ops.srcV (ei m c) :=
  (keep0_1 _ main_v3 (by decide)).trans (W1_src m ρ c)

theorem W2_dst (c : Dev nD) : W2 m ρ c (Proc.devRef .tc main_v6) = Ops.dstV (ei m c) :=
  (keep0_1 _ main_v6 (by decide)).trans (W1_dst m ρ c)

-- the per-edge weights, from any contents holding the endpoints and the reciprocal square roots
theorem nrm_of (V : Valuation τ sig (Elt F)) (e : IVec S2x600000 32)
    (h3 : V (Proc.devRef .tc main_v3) = Ops.srcV e) (h6 : V (Proc.devRef .tc main_v6) = Ops.dstV e)
    (h16 : V (Proc.devRef .tc main_v16) = Ops.dinvV (F := F) e) :
    StableHlo.after hostOps0_2 V (Proc.devRef .tc main_v32) = Ops.nrmV (F := F) e := by
  open Idealize.ShloMosaic.StableHlo in after_results_simp
  rw [h3, h6, h16]
  rfl

theorem W3_src (c : Dev nD) : W3 m ρ c (Proc.devRef .tc main_v3) = Ops.srcV (ei m c) :=
  (keep0_2 _ main_v3 (by decide)).trans (W2_src m ρ c)

theorem W3_dst (c : Dev nD) : W3 m ρ c (Proc.devRef .tc main_v6) = Ops.dstV (ei m c) :=
  (keep0_2 _ main_v6 (by decide)).trans (W2_dst m ρ c)

theorem W3_nrm (c : Dev nD) : W3 m ρ c (Proc.devRef .tc main_v32) = Ops.nrmV (F := F) (ei m c) :=
  nrm_of (W2 m ρ c) (ei m c) (W2_src m ρ c) (W2_dst m ρ c)
    (dinv_of (W1 m ρ c) (ei m c) (W1_v12 m ρ c) (W1_v15 m ρ c) (W1_cst3 m ρ c))

end Cert.GCN.KChain

end
-- ==== Proof.KTile.lean ====
import proofs.«401124_j9440338117505_1_alg».proof.Proof.Gen.KernelIdeal
import proofs.«401124_j9440338117505_1_alg».proof.Proof.Spec
import Idealize.ShloMosaic.Lib.ValueLayout
import Idealize.ShloMosaic.Lib.StackMember

open Idealize.ShloMosaic Idealize.ShloMosaic.ValueIdx Cert.KernelIdeal

namespace Cert.GCN.KTile

theorem hz : (![0, 0] : Fin 2 → Nat) = fun _ => 0 := funext fun a => by fin_cases a <;> rfl

section Tiles

variable {n k m l : Nat}

/-- The block index `i` is at block row `t`, block column 0. -/
abbrev Rows (i : Fin 2 → Nat) (t : Nat) : Prop := i 0 = t ∧ i 1 = 0

/-- `e` places entry `y` of block `i` of an array cut into `[n, k]` blocks at `i * [n, k] + y`. -/
def Tile (e : (⟨2, ![n, k]⟩ : Shape).Idx → (⟨2, ![m, l]⟩ : Shape).Idx) (i : Fin 2 → Nat) : Prop :=
  ∀ y, (e y 0).val = i 0 * n + 1 * (y 0).val ∧ (e y 1).val = i 1 * k + 1 * (y 1).val

theorem eq_ix2_of {p : (⟨2, ![m, l]⟩ : Shape).Idx} {a : Fin m} {b : Fin l} (h0 : (p 0).val = a.val) (h1 : (p 1).val = b.val) :
    p = ix2 a b :=
  (eq_ix2 p).trans (congrArg₂ ix2 (Fin.ext h0) (Fin.ext h1))

variable {e e' : (⟨2, ![n, k]⟩ : Shape).Idx → (⟨2, ![m, l]⟩ : Shape).Idx} {i i' : Fin 2 → Nat} {t : Nat}

/-- Two placements at one block index agree. -/
theorem same (h : Tile e i) (h' : Tile e' i') (r : Rows i t) (r' : Rows i' t) (y) : e y = e' y :=
  (eq_ix2_of (by rw [(h y).1, (h' y).1, r.1, r'.1]) (by rw [(h y).2, (h' y).2, r.2, r'.2])).trans (eq_ix2 _).symm

/-- At block 0 of an array of the block's own shape an entry keeps its place. -/
theorem fixed {e : (⟨2, ![n, k]⟩ : Shape).Idx → (⟨2, ![n, k]⟩ : Shape).Idx} (h : Tile e i) (r : Rows i 0) (y) : e y = y :=
  (eq_ix2_of (by rw [(h y).1, r.1]; omega) (by rw [(h y).2, r.2]; omega)).trans (eq_ix2 y).symm

/-- At block column 0 an entry keeps its column. -/
theorem col {e : (⟨2, ![n, k]⟩ : Shape).Idx → (⟨2, ![m, k]⟩ : Shape).Idx} (h : Tile e i) (r : i 1 = 0) (y) : e y 1 = y 1 :=
  Fin.ext (by rw [(h y).2, r]; omega)

/-- At block column 0 the row an entry lands in does not depend on its column. -/
theorem rowOf {e : (⟨2, ![n, k]⟩ : Shape).Idx → (⟨2, ![m, k]⟩ : Shape).Idx} (h : Tile e i) (r : i 1 = 0) (y) (c : Fin k) :
    e (ix2 (y 0) c) = ix2 (e y 0) c :=
  eq_ix2_of ((h (ix2 (y 0) c)).1.trans (h y).1.symm) (by rw [(h (ix2 (y 0) c)).2, r]; show 0 * k + 1 * c.val = c.val; omega)

end Tiles

/-- A product of a `[4000, 128]` by a `[128, 128]` block into a zero accumulator, at an entry. -/
theorem mm_apply (A : FVec Ideal S4000x128 .bf16) (B : FVec Ideal S128x128 .bf16) (r : Fin 4000) (j : Fin 128) :
    matmul dot_S4000x128_S128x128_S4000x128_1_0_0_1_n_n none A B (constant S4000x128 .f32 0x00000000#32) (ix2 r j)
      = ∑ k : Fin 128, A (ix2 r k) * B (ix2 k j) :=
  (Ideal.matmul_constant_zero_apply _ none A B _).trans
    ((Ideal.dotGeneral_apply (DotDims.plain 4000 128 128) none default A B (ix2 r j)).symm.trans
      (StackMember.dotGeneral_plain_apply none A B r j))

/-- The dense layer's arithmetic at an entry of a block. -/
theorem lin_entry (hT : FTy.bits .bf16 < FTy.bits .f32) (hB : S1x128.Broadcasts S4000x128)
    (x0 : Vec Ideal S4000x128 .f32) (x1 : Vec Ideal S128x128 .f32) (x2 : Vec Ideal S1x128 .f32) (r : Fin 4000) (j : Fin 128) :
    (addf (matmul dot_S4000x128_S128x128_S4000x128_1_0_0_1_n_n none (truncf .bf16 x0 hT) (truncf .bf16 x1 hT)
        (constant S4000x128 .f32 0x00000000#32)) (broadcastTo S4000x128 x2 hB) : FVec Ideal S4000x128 .f32) (ix2 r j)
      = (∑ k : Fin 128, x0 (ix2 r k) * x1 (ix2 k j)) + x2 (ix2 (0 : Fin 1) j) := by
  rw [addf_apply, mm_apply, broadcastTo_1b_ab_apply]
  rfl

/-- The normalisation's arithmetic at an entry of a block. -/
theorem norm_entry (hB : S1x128.Broadcasts S4000x128)
    (a : Vec Ideal S4000x128 .f32) (μ v γ β : Vec Ideal S1x128 .f32) (x : Vec Ideal S4000x128 .f32) (r : Fin 4000) (j : Fin 128) :
    (addf (maximumf (addf (mulf (mulf (broadcastTo S4000x128 γ hB) (subf a (broadcastTo S4000x128 μ hB)))
        (broadcastTo S4000x128 (rsqrt (addf v (broadcast S1x128 (Scalar.ofBits .f32 0x3727C5AC#32)))) hB))
        (broadcastTo S4000x128 β hB)) (broadcast S4000x128 (Scalar.ofBits .f32 0x00000000#32))) x
        : FVec Ideal S4000x128 .f32) (ix2 r j)
      = max (γ (ix2 (0 : Fin 1) j) * (a (ix2 r j) - μ (ix2 (0 : Fin 1) j)) * Ideal.rsqrt (v (ix2 (0 : Fin 1) j) + cEps)
          + β (ix2 (0 : Fin 1) j)) 0 + x (ix2 r j) := by
  rw [addf_apply, maximumf_apply, addf_apply, mulf_apply, mulf_apply, subf_apply, broadcastTo_1b_ab_apply,
    broadcastTo_1b_ab_apply, broadcastTo_1b_ab_apply, broadcastTo_1b_ab_apply]
  show max (γ (ix2 (0 : Fin 1) j) * (a (ix2 r j) - μ (ix2 (0 : Fin 1) j))
        * Ideal.rsqrt (v (ix2 (0 : Fin 1) j) + Ideal.ofBits .f32 0x3727C5AC#32) + β (ix2 (0 : Fin 1) j))
      (Ideal.ofBits .f32 0x00000000#32) + x (ix2 r j) = _
  rw [Ideal.ofBits_zero_f32]
  rfl

/-- Every row `r` is in block `r / 4000`, so the 25 blocks of 4000 rows cover the `[100000, 128]` array. -/
theorem cover {N : Nat} (hN : N = 25) {S : Fin N → Finset S100000x128.Idx} {f : Fin N → Bool}
    {e : Fin N → S4000x128.Idx → S100000x128.Idx} {i : Fin N → Fin 2 → Nat}
    (he : ∀ t, Tile (e t) (i t)) (hS : ∀ t y, e t y ∈ S t) (hi : ∀ t, Rows (i t) t.val) (hf : ∀ t, f t = true)
    (x : S100000x128.Idx) : ∃ t, f t = true ∧ x ∈ S t := by
  subst hN
  have hx : (x 0).val < 100000 := (x 0).isLt
  have hy : (x 0).val % 4000 < 4000 := Nat.mod_lt _ (by decide)
  obtain ⟨t, ht⟩ : ∃ t : Fin 25, t.val = (x 0).val / 4000 := ⟨⟨(x 0).val / 4000, by omega⟩, rfl⟩
  have q := he t (ix2 ⟨(x 0).val % 4000, hy⟩ (x 1))
  have hxe : e t (ix2 ⟨(x 0).val % 4000, hy⟩ (x 1)) = x :=
    (eq_ix2_of (by rw [q.1, (hi t).1, ht]; show _ * 4000 + 1 * ((x 0).val % 4000) = _; omega)
      (by rw [q.2, (hi t).2]; show 0 * 128 + 1 * (x 1).val = _; omega)).trans (eq_ix2 x).symm
  exact ⟨t, hf t, hxe ▸ hS t _⟩

/-- The dense layer, block by block: what a point leaves is its block of `x W + b`. -/
theorem lin_block {pay : Vec Ideal S4000x128 .f32 → Vec Ideal S128x128 .f32 → Vec Ideal S1x128 .f32 → FVec Ideal S4000x128 .f32}
    (hpay : ∀ x0 x1 x2 r j, pay x0 x1 x2 (ix2 r j) = (∑ k : Fin 128, x0 (ix2 r k) * x1 (ix2 k j)) + x2 (ix2 (0 : Fin 1) j))
    (X : S100000x128.Idx → EReal) (W : S128x128.Idx → EReal) (B : S1x128.Idx → EReal)
    (e0 e3 : S4000x128.Idx → S100000x128.Idx) (e1 : S128x128.Idx → S128x128.Idx) (e2 : S1x128.Idx → S1x128.Idx)
    {i0 i1 i2 i3 : Fin 2 → Nat} {t : Nat} (h0 : Tile e0 i0) (h1 : Tile e1 i1) (h2 : Tile e2 i2) (h3 : Tile e3 i3)
    (hi : Rows i0 t ∧ Rows i1 0 ∧ Rows i2 0 ∧ Rows i3 t) (inb0 inb1 inb2) :
    View.canon [(⟨Rect.unit ![0, 0] S4000x128.size inb0, pay (View.ld (fun z => X (e0 z)) (Rect.unit ![0, 0] S4000x128.size inb0))
        (View.ld (fun z => W (e1 z)) (Rect.unit ![0, 0] S128x128.size inb1))
        (View.ld (fun z => B (e2 z)) (Rect.unit ![0, 0] S1x128.size inb2))⟩ : View.Piece (Elt Ideal) S4000x128 .f32)]
      = fun y => vec2 (lin (cur2 X) (cur2 W) fun j => B (ix2 0 j)) (e3 y) := by
  obtain ⟨r0, r1, r2, r3⟩ := hi
  rw [View.canon_unit_zero hz, View.ld_unit_zero hz, View.ld_unit_zero hz, View.ld_unit_zero hz]
  funext y
  refine ((congrArg (pay _ _ _) (eq_ix2 y)).trans (hpay _ _ _ (y 0) (y 1))).trans ?_
  have qc : ∀ {p} (c : Fin p), ix2 c (y 1) = ix2 c (e3 y 1) := fun c => congrArg (ix2 c) (col h3 r3.2 y).symm
  exact congrArg₂ (· + ·) (Finset.sum_congr rfl fun k _ => congrArg₂ (· * ·)
      (congrArg X ((same h0 h3 r0 r3 _).trans (rowOf h3 r3.2 y k))) (congrArg W ((fixed h1 r1 _).trans (qc k))))
    (congrArg B ((fixed h2 r2 _).trans (qc 0)))

theorem norm_congr {a a' μ μ' v v' γ γ' β β' x x' : EReal} (ha : a = a') (hμ : μ = μ') (hv : v = v') (hγ : γ = γ')
    (hβ : β = β') (hx : x = x') :
    max (γ * (a - μ) * Ideal.rsqrt (v + cEps) + β) 0 + x = max (γ' * (a' - μ') * Ideal.rsqrt (v' + cEps) + β') 0 + x' := by
  subst ha hμ hv hγ hβ hx; rfl

/-- The normalisation, block by block: what a point leaves is its block of the normalised rows plus the residual. -/
theorem norm_block {pay : Vec Ideal S4000x128 .f32 → Vec Ideal S1x128 .f32 → Vec Ideal S1x128 .f32 → Vec Ideal S1x128 .f32
      → Vec Ideal S1x128 .f32 → Vec Ideal S4000x128 .f32 → FVec Ideal S4000x128 .f32}
    (hpay : ∀ a μ v γ β x r j, pay a μ v γ β x (ix2 r j)
      = max (γ (ix2 (0 : Fin 1) j) * (a (ix2 r j) - μ (ix2 (0 : Fin 1) j)) * Ideal.rsqrt (v (ix2 (0 : Fin 1) j) + cEps)
          + β (ix2 (0 : Fin 1) j)) 0 + x (ix2 r j))
    (A X : S100000x128.Idx → EReal) (M Vr Gm Be : S1x128.Idx → EReal)
    (e0 e1 e6 : S4000x128.Idx → S100000x128.Idx) (e2 e3 e4 e5 : S1x128.Idx → S1x128.Idx)
    {i0 i1 i2 i3 i4 i5 i6 : Fin 2 → Nat} {t : Nat} (h0 : Tile e0 i0) (h1 : Tile e1 i1) (h2 : Tile e2 i2) (h3 : Tile e3 i3)
    (h4 : Tile e4 i4) (h5 : Tile e5 i5) (h6 : Tile e6 i6)
    (hi : Rows i0 t ∧ Rows i1 t ∧ Rows i2 0 ∧ Rows i3 0 ∧ Rows i4 0 ∧ Rows i5 0 ∧ Rows i6 t) (inb0 inb1) :
    View.canon [(⟨Rect.unit ![0, 0] S4000x128.size inb0, pay (View.ld (fun z => A (e0 z)) (Rect.unit ![0, 0] S4000x128.size inb0))
        (View.ld (fun z => M (e2 z)) (Rect.unit ![0, 0] S1x128.size inb1))
        (View.ld (fun z => Vr (e3 z)) (Rect.unit ![0, 0] S1x128.size inb1))
        (View.ld (fun z => Gm (e4 z)) (Rect.unit ![0, 0] S1x128.size inb1))
        (View.ld (fun z => Be (e5 z)) (Rect.unit ![0, 0] S1x128.size inb1))
        (View.ld (fun z => X (e1 z)) (Rect.unit ![0, 0] S4000x128.size inb0))⟩ : View.Piece (Elt Ideal) S4000x128 .f32)]
      = fun y => vec2 (normRelu (cur2 A) (cur2 X) (fun j => M (ix2 0 j)) (fun j => Vr (ix2 0 j)) (fun j => Gm (ix2 0 j))
          fun j => Be (ix2 0 j)) (e6 y) := by
  obtain ⟨r0, r1, r2, r3, r4, r5, r6⟩ := hi
  rw [View.canon_unit_zero hz, View.ld_unit_zero hz, View.ld_unit_zero hz, View.ld_unit_zero hz, View.ld_unit_zero hz,
    View.ld_unit_zero hz, View.ld_unit_zero hz]
  funext y
  refine ((congrArg (pay _ _ _ _ _ _) (eq_ix2 y)).trans (hpay _ _ _ _ _ _ (y 0) (y 1))).trans ?_
  have qr : ∀ {e i}, Tile e i → Rows i t → e (ix2 (y 0) (y 1)) = ix2 (e6 y 0) (e6 y 1) := fun h r =>
    (congrArg _ (eq_ix2 y).symm).trans ((same h h6 r r6 y).trans (eq_ix2 (e6 y)))
  have qf : ∀ {e i}, Tile e i → Rows i 0 → e (ix2 (0 : Fin 1) (y 1)) = ix2 0 (e6 y 1) := fun h r =>
    (fixed h r _).trans (congrArg (ix2 0) (col h6 r6.2 y).symm)
  exact norm_congr (congrArg A (qr h0 r0)) (congrArg M (qf h2 r2)) (congrArg Vr (qf h3 r3)) (congrArg Gm (qf h4 r4))
    (congrArg Be (qf h5 r5)) (congrArg X (qr h1 r1))

end Cert.GCN.KTile
-- ==== Proof.KLin0.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KLin0

open KTile

variable (V : (c : Dev nD) → (b : Ref sig .tc) → Buf (Elt Ideal) ((c : Thread nD τ).loc b))

theorem idx : ∀ t : Fin grid0.N, Rows (win0_0.index t) t ∧ Rows (win0_1.index t) 0 ∧ Rows (win0_2.index t) 0
    ∧ Rows (win0_3.index t) t := by
  decide +kernel

theorem value (c : Dev nD) : (dat0 V c).arrAt 3 cfg0.N
    = vec2 (lin (cur2 (V c (Pipeline.arrRef spec0 0))) (cur2 (V c (Pipeline.arrRef spec0 1)))
        (fun j => V c (Pipeline.arrRef spec0 2) (ix2 0 j))) :=
  (dat0 V c).arrAt_eq_of_cover 3 _
    (fun t _ => by
      show (cfg0.win 3).cut (grid0.coords t) ((dat0 V c).after 3 t) = _
      rw [after0_3]
      exact lin_block (fun x0 x1 x2 => by unfold k0_pay1; simp only [shapeCast_self]; exact lin_entry _ _ x0 x1 x2)
        (V c (Pipeline.arrRef spec0 0)) (V c (Pipeline.arrRef spec0 1)) (V c (Pipeline.arrRef spec0 2))
        ((cfg0.win 0).blk t).view.emb ((cfg0.win 3).blk t).view.emb ((cfg0.win 1).blk t).view.emb
        ((cfg0.win 2).blk t).view.emb (fun _ => ⟨rfl, rfl⟩) (fun _ => ⟨rfl, rfl⟩) (fun _ => ⟨rfl, rfl⟩) (fun _ => ⟨rfl, rfl⟩)
        (idx t) _ _ _)
    (cover N_0 (e := fun t => ((cfg0.win 3).blk t).view.emb) (fun _ _ => ⟨rfl, rfl⟩)
      (fun t => ((cfg0.win 3).blk t).view.emb_mem_set) (fun t => (idx t).2.2.2) flush0_3)

end Cert.GCN.KLin0
-- ==== Proof.LibTiles.lean ====
import Mathlib.Algebra.BigOperators.Fin
import Mathlib.Data.Fintype.BigOperators
import Mathlib.Logic.Equiv.Fin.Basic

namespace Cert.LibTiles

variable {M : Type*} [AddCommMonoid M]

theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- (j, k) ↦ j · b + k is a bijection from the pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

end Cert.LibTiles
-- ==== Proof.KAcc.lean ====
import proofs.«401124_j9440338117505_1_alg».proof.Proof.Gen.KernelIdeal.Skeleton
import proofs.«401124_j9440338117505_1_alg».proof.Proof.Spec
import proofs.«401124_j9440338117505_1_alg».proof.Proof.LibTiles
import Idealize.ShloMosaic.Lib.Pipeline.Value
import Idealize.ShloMosaic.PureOps.Ideal.Laws
import Idealize.ShloMosaic.Lib.ValueLayout

noncomputable section

namespace Cert.GCN.KAcc

open Cert.KernelIdeal Cert.KernelIdeal.Gen
open Idealize.ShloMosaic Idealize.ShloMosaic.TcCoe Idealize.ShloMosaic.ValueIdx

theorem hz : (![0, 0] : Fin 2 → Nat) = fun _ => 0 := funext fun a => by fin_cases a <;> rfl

theorem row_lt {t : ℕ} (ht : t < 25) (r : Fin 4000) : t * 4000 + r.val < 100000 := by
  have := r.isLt; omega

theorem eq_24 {N : ℕ} (hN : N = 25) (t : Fin N) (h : t.val % 25 = 24) : t.val = 24 := by
  have := t.isLt; omega

section Fold
variable {β : Type*} [AddCommMonoid β]

/-- Tile n's share of a sum over a · b indices; nothing past the last tile. -/
def tile (a b : ℕ) (g : Fin (a * b) → β) (n : ℕ) : β :=
  if h : n < a then ∑ k : Fin b, g ⟨n * b + k.val, LibTiles.tile_lt ⟨n, h⟩ k⟩ else 0

/-- The a tiles' shares add up to the whole sum. -/
theorem sum_tile (a b : ℕ) (g : Fin (a * b) → β) : ∑ n ∈ Finset.range a, tile a b g n = ∑ i, g i := by
  rw [LibTiles.tile_sum, ← Fin.sum_univ_eq_sum_range]
  exact Finset.sum_congr rfl fun j _ => dif_pos j.isLt

/-- Reset to the point's addend at the multiples of 25 and gaining it elsewhere, f holds the 25 addends' sum after point 24. -/
theorem acc_last {ι : Type*} {N : ℕ} (f a : (n : ℕ) → n < N → ι → β) (g : (n : ℕ) → n < N → (ι → β) → ι → β)
    (M : ℕ → ι → β) (h0 : ∀ n h, n % 25 = 0 → f n h = a n h)
    (hs : ∀ n (h : n + 1 < N), ¬(n + 1) % 25 = 0 → f (n + 1) h = g (n + 1) h (f n (Nat.lt_of_succ_lt h)))
    (ha : ∀ (h : 0 < N) i, a 0 h i = M 0 i) (hg : ∀ n h acc i, g n h acc i = acc i + M n i)
    (h : 24 < N) (i : ι) : f 24 h i = ∑ s ∈ Finset.range 25, M s i := by
  refine (congrFun (Pipeline.eq_accAt f 25 a g h0 hs 0 24 (by decide) h) i).trans ?_
  refine (Pipeline.accAt_add_apply a g (fun _ => 0) M 0 24 (fun h i => (ha h i).trans (zero_add _).symm)
    (fun n h acc i _ _ => hg n h acc i) 24 le_rfl h i).trans ?_
  simp only [zero_add]

end Fold

section Stats

theorem lift_eq (j : Fin 128) (k : Fin 4000) : reduces_S4000x128_S128.lift (ix1 j) k = ix2 k j := by
  funext a
  match a with
  | ⟨0, _⟩ => rfl
  | ⟨1, _⟩ => rfl

theorem pay_zero1 (u : Fin 1) (j : Fin 128) : k1_pay1 (F := Ideal) (ix2 u j) = 0 := Ideal.ofBits_zero_f32
theorem pay_zero2 (u : Fin 1) (j : Fin 128) : k1_pay2 (F := Ideal) (ix2 u j) = 0 := Ideal.ofBits_zero_f32

/-- The update of the sums at column j: what was held plus the block's column sum. -/
theorem pay_sum (x : Vec Ideal S4000x128 .f32) (xo : Vec Ideal S1x128 .f32) (u : Fin 1) (j : Fin 128) :
    k1_pay4 (F := Ideal) x xo (ix2 u j) = xo (ix2 u j) + ∑ r : Fin 4000, id (x (ix2 r j)) := by
  unfold k1_pay4 k1_pay3
  dsimp only
  rw [addf_apply, shapeCast_self, shapeCast_self, shapeCast_a_1a_apply]
  exact congrArg (xo (ix2 u j) + ·) ((Ideal.multiReduction_add_single _ _ _ _ _ (ix1 j)).trans
    (Finset.sum_congr rfl fun r _ => congrArg x (lift_eq j r)))

/-- The update of the sums of squares at column j: what was held plus the block's column sum of squares. -/
theorem pay_sumsq (x : Vec Ideal S4000x128 .f32) (xo : Vec Ideal S1x128 .f32) (u : Fin 1) (j : Fin 128) :
    k1_pay5 (F := Ideal) x xo (ix2 u j) = xo (ix2 u j) + ∑ r : Fin 4000, (fun v => v * v) (x (ix2 r j)) := by
  unfold k1_pay5 k1_pay3
  dsimp only
  rw [addf_apply, shapeCast_self, shapeCast_self, shapeCast_a_1a_apply]
  exact congrArg (xo (ix2 u j) + ·) ((Ideal.multiReduction_add_single _ _ _ _ _ (ix1 j)).trans
    (Finset.sum_congr rfl fun r _ => congrArg (fun i => x i * x i) (lift_eq j r)))

variable {N : ℕ} (hN : N = 25) (x : Fin N → Vec Ideal S4000x128 .f32) (A : Vec Ideal S100000x128 .f32)
  (hx : ∀ (t : Fin N) (r : Fin 4000) (j : Fin 128),
    x t (ix2 r j) = A (ix2 ⟨t.val * 4000 + r.val, row_lt (lt_of_lt_of_eq t.isLt hN) r⟩ j))
include hx

/-- A row reset to Z at the first point and gaining each block's column sums of φ ends at the sums over all rows. -/
theorem col_last (φ : EReal → EReal) (P : Vec Ideal S4000x128 .f32 → Vec Ideal S1x128 .f32 → Vec Ideal S1x128 .f32)
    (Z : Vec Ideal S1x128 .f32)
    (hP : ∀ x xo (u : Fin 1) (j : Fin 128), P x xo (ix2 u j) = xo (ix2 u j) + ∑ r : Fin 4000, φ (x (ix2 r j)))
    (hZ : ∀ (u : Fin 1) (j : Fin 128), Z (ix2 u j) = 0) (f : (n : ℕ) → n < N → Vec Ideal S1x128 .f32)
    (h0 : ∀ n h, n % 25 = 0 → f n h = P (x ⟨n, h⟩) Z)
    (hs : ∀ n (h : n + 1 < N), ¬(n + 1) % 25 = 0 → f (n + 1) h = P (x ⟨n + 1, h⟩) (f n (Nat.lt_of_succ_lt h)))
    (h : 24 < N) : f 24 h = fun i => colSum (fun r j => φ (cur2 A r j)) (i 1) := by
  have ex : ∀ i : S1x128.Idx, ∃ (u : Fin 1) (j : Fin 128), i = ix2 u j := fun i => ⟨i 0, i 1, eq_ix2 i⟩
  have key : ∀ n (h : n < N) (acc : Vec Ideal S1x128 .f32) (u : Fin 1) (j : Fin 128),
      P (x ⟨n, h⟩) acc (ix2 u j) = acc (ix2 u j) + tile 25 4000 (fun r => φ (A (ix2 r j))) n := fun n h acc u j => by
    rw [hP]; unfold tile; rw [dif_pos (lt_of_lt_of_eq h hN)]
    exact congrArg _ (Finset.sum_congr rfl fun r _ => congrArg φ (hx ⟨n, h⟩ r j))
  funext i
  refine (acc_last (β := EReal) f (fun n h => P (x ⟨n, h⟩) Z) (fun n h acc => P (x ⟨n, h⟩) acc)
    (fun n i => tile 25 4000 (fun r => φ (A (ix2 r (i 1)))) n) h0 hs ?_ ?_ h i).trans (sum_tile 25 4000 _)
  · intro h i
    obtain ⟨u, j, rfl⟩ := ex i
    exact (key 0 h Z u j).trans ((congrArg (· + _) (hZ u j)).trans (zero_add _))
  · intro n h acc i
    obtain ⟨u, j, rfl⟩ := ex i
    exact key n h acc u j

/-- Both carried rows after the last point: the column sums and the column sums of squares. -/
theorem stats_last (o : (n : ℕ) → n < N → Vec Ideal S1x128 .f32 × Vec Ideal S1x128 .f32)
    (hA : ∀ t : Fin N, t.val % 25 = 0 → o t.val t.isLt = (k1_pay4 (x t) (k1_pay1 (F := Ideal)), k1_pay5 (x t) (k1_pay2 (F := Ideal))))
    (hB : ∀ t : Fin N, ¬t.val % 25 = 0 → o t.val t.isLt
      = (k1_pay4 (x t) (o (t.val - 1) (Nat.lt_of_le_of_lt (Nat.sub_le _ _) t.isLt)).1,
        k1_pay5 (x t) (o (t.val - 1) (Nat.lt_of_le_of_lt (Nat.sub_le _ _) t.isLt)).2))
    (h : 24 < N) : (o 24 h).1 = (fun i => colSum (cur2 A) (i 1))
      ∧ (o 24 h).2 = fun i => colSum (fun r j => cur2 A r j * cur2 A r j) (i 1) :=
  ⟨col_last hN x A hx id (k1_pay4 (F := Ideal)) (k1_pay1 (F := Ideal)) pay_sum pay_zero1 (fun n h => (o n h).1)
      (fun n h hm => congrArg Prod.fst (hA ⟨n, h⟩ hm)) (fun n h hm => congrArg Prod.fst (hB ⟨n + 1, h⟩ hm)) h,
    col_last hN x A hx (fun v => v * v) (k1_pay5 (F := Ideal)) (k1_pay2 (F := Ideal)) pay_sumsq pay_zero2 (fun n h => (o n h).2)
      (fun n h hm => congrArg Prod.snd (hA ⟨n, h⟩ hm)) (fun n h hm => congrArg Prod.snd (hB ⟨n + 1, h⟩ hm)) h⟩

end Stats

end Cert.GCN.KAcc

end
-- ==== Proof.KStats1.lean ====
import proofs.«401124_j9440338117505_1_alg».proof.Proof.Gen.KernelIdeal.Frame
import proofs.«401124_j9440338117505_1_alg».proof.Proof.KAcc

noncomputable section

namespace Cert.GCN.KStats1

open Cert.KernelIdeal Cert.KernelIdeal.Gen Cert.GCN.KAcc
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- At the first point both rows are the zero rows updated by the row block. -/
theorem step_A (t : Fin cfg1.N) (h0 : t.val % 25 = 0) : outsAt1 V c t.val t.isLt
    = (k1_pay4 (iblk1 V c 0 t) (k1_pay1 (F := Ideal)), k1_pay5 (iblk1 V c 0 t) (k1_pay2 (F := Ideal))) := by
  rw [outsAt1_A V c t h0]
  unfold out1_A_1 out1_A_2
  rw [View.read_writes_eq_canon _ _ _ (cover1_A_1 _ _ _ _ _ _ _ _ _ _),
    View.read_writes_eq_canon _ _ _ (cover1_A_2 _ _ _ _ _ _ _ _ _ _)]
  unfold kernelRun1_A
  dsimp only
  sl_unfold_words
  simp only [View.canon_cons_unit_zero (S := S1x128) hz, View.readCov_unit_zero (S := S1x128) _ hz, View.readAt_eq_ld,
    (hs1_0 t).read_unread, View.ld_unit_zero (S := S4000x128) hz]

/-- At a later point each row is the update, by the row block, of what the point before left. -/
theorem step_B (t : Fin cfg1.N) (h0 : ¬t.val % 25 = 0) : outsAt1 V c t.val t.isLt
    = (k1_pay4 (iblk1 V c 0 t) (outsAt1 V c (t.val - 1) (Nat.lt_of_le_of_lt (Nat.sub_le _ _) t.isLt)).1,
      k1_pay5 (iblk1 V c 0 t) (outsAt1 V c (t.val - 1) (Nat.lt_of_le_of_lt (Nat.sub_le _ _) t.isLt)).2) := by
  rw [outsAt1_B V c t h0]
  unfold out1_B_1 out1_B_2
  rw [View.read_writes_eq_canon _ _ _ (cover1_B_1 _ _ _ _ _ _ _ _ _ _ _ _),
    View.read_writes_eq_canon _ _ _ (cover1_B_2 _ _ _ _ _ _ _ _ _ _ _ _)]
  unfold kernelRun1_B
  dsimp only
  sl_unfold_words
  simp only [View.canon_unit_zero (S := S1x128) hz, View.readAt_eq_ld, (hs1_0 t).read_unread, (hs1_1 t).read_unread,
    (hs1_2 t).read_unread, View.ld_unit_zero (S := S4000x128) hz, View.ld_unit_zero (S := S1x128) hz]

theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row r of the block at point t is row 4000 t + r of the array. -/
theorem blk_apply (t : Fin cfg1.N) (r : Fin 4000) (j : Fin 128) : iblk1 V c 0 t (ix2 r j)
    = V c (Pipeline.arrRef spec1 0) (ix2 ⟨t.val * 4000 + r.val, row_lt (lt_of_lt_of_eq t.isLt N_1) r⟩ j) := by
  obtain ⟨e0, e1⟩ := idx_facts t
  show V c (Pipeline.arrRef spec1 0) (((cfg1.win 0).blk t).view.emb (ix2 r j)) = _
  congr 1
  funext a; apply Fin.ext
  match a with
  | ⟨0, _⟩ => show win1_0.index t (0 : Fin 2) * 4000 + 1 * r.val = t.val * 4000 + r.val; omega
  | ⟨1, _⟩ => show win1_0.index t (1 : Fin 2) * 128 + 1 * j.val = j.val; omega

def tLast : Fin cfg1.N := ⟨24, by rw [show cfg1.N = 25 from N_1]; decide⟩

theorem last : (outsAt1 V c tLast.val tLast.isLt).1 = (fun i => colSum (cur2 (V c (Pipeline.arrRef spec1 0))) (i 1))
    ∧ (outsAt1 V c tLast.val tLast.isLt).2
      = fun i => colSum (fun r j => cur2 (V c (Pipeline.arrRef spec1 0)) r j * cur2 (V c (Pipeline.arrRef spec1 0)) r j) (i 1) :=
  stats_last N_1 (iblk1 V c 0) _ (blk_apply V c) (outsAt1 V c) (step_A V c) (step_B V c) tLast.isLt

/-- The last point's block of either row sits at offset zero. -/
theorem hz1 : (fun a => win1_1.index tLast a * (Pipeline.arrRef spec1 1).ty.shape.size a) = fun _ => 0 :=
  funext fun a => by fin_cases a <;> decide
theorem hz2 : (fun a => win1_2.index tLast a * (Pipeline.arrRef spec1 2).ty.shape.size a) = fun _ => 0 :=
  funext fun a => by fin_cases a <;> decide

/-- The last point's block is the whole row, which by then holds the column sums over all rows. -/
theorem value_sum : (dat1 V c).arrAt 1 cfg1.N = fun i => colSum (cur2 (V c (Pipeline.arrRef spec1 0))) (i 1) := by
  refine (dat1 V c).arrAt_eq_of_cover 1 _ (fun t hf => ?_) fun i => ⟨tLast, (flush1_1 tLast).mpr rfl, ?_⟩
  · obtain rfl : t = tLast := Fin.ext (eq_24 N_1 t ((flush1_1 t).mp hf))
    show (cfg1.win 1).cut (grid1.coords tLast) ((dat1 V c).after 1 tLast) = _
    rw [after1_1, (last V c).1]
    exact (Memref.read_access_unit_zero (Elt Ideal) (Pipeline.arrRef spec1 1) hz1
      (fun a => by rw [congrFun hz1 a]; simp) _).symm
  · show i ∈ ((View.whole (Pipeline.arrRef spec1 1)).slice (win1_1.rect tLast)).set
    rw [View.set_slice_whole]
    exact View.mem_set_unit_zero hz1 _ i

/-- The same for the column sums of squares. -/
theorem value_sumsq : (dat1 V c).arrAt 2 cfg1.N
    = fun i => colSum (fun r j => cur2 (V c (Pipeline.arrRef spec1 0)) r j * cur2 (V c (Pipeline.arrRef spec1 0)) r j) (i 1) := by
  refine (dat1 V c).arrAt_eq_of_cover 2 _ (fun t hf => ?_) fun i => ⟨tLast, (flush1_2 tLast).mpr rfl, ?_⟩
  · obtain rfl : t = tLast := Fin.ext (eq_24 N_1 t ((flush1_2 t).mp hf))
    show (cfg1.win 2).cut (grid1.coords tLast) ((dat1 V c).after 2 tLast) = _
    rw [after1_2, (last V c).2]
    exact (Memref.read_access_unit_zero (Elt Ideal) (Pipeline.arrRef spec1 2) hz2
      (fun a => by rw [congrFun hz2 a]; simp) _).symm
  · show i ∈ ((View.whole (Pipeline.arrRef spec1 2)).slice (win1_2.rect tLast)).set
    rw [View.set_slice_whole]
    exact View.mem_set_unit_zero hz2 _ i

end Cert.GCN.KStats1

end
-- ==== Proof.KNorm2.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KNorm2

open KTile

variable (V : (c : Dev nD) → (b : Ref sig .tc) → Buf (Elt Ideal) ((c : Thread nD τ).loc b))

theorem idx : ∀ t : Fin grid2.N, Rows (win2_0.index t) t ∧ Rows (win2_1.index t) t ∧ Rows (win2_2.index t) 0
    ∧ Rows (win2_3.index t) 0 ∧ Rows (win2_4.index t) 0 ∧ Rows (win2_5.index t) 0 ∧ Rows (win2_6.index t) t := by
  decide +kernel

theorem value (c : Dev nD) : (dat2 V c).arrAt 6 cfg2.N
    = vec2 (normRelu (cur2 (V c (Pipeline.arrRef spec2 0))) (cur2 (V c (Pipeline.arrRef spec2 1)))
        (fun j => V c (Pipeline.arrRef spec2 2) (ix2 0 j)) (fun j => V c (Pipeline.arrRef spec2 3) (ix2 0 j))
        (fun j => V c (Pipeline.arrRef spec2 4) (ix2 0 j)) (fun j => V c (Pipeline.arrRef spec2 5) (ix2 0 j))) :=
  (dat2 V c).arrAt_eq_of_cover 6 _
    (fun t _ => by
      show (cfg2.win 6).cut (grid2.coords t) ((dat2 V c).after 6 t) = _
      rw [after2_6]
      exact norm_block (fun a μ v γ β x => by unfold k2_pay1; simp only [shapeCast_self]; exact norm_entry _ a μ v γ β x)
        (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        ((cfg2.win 0).blk t).view.emb ((cfg2.win 1).blk t).view.emb ((cfg2.win 6).blk t).view.emb
        ((cfg2.win 2).blk t).view.emb ((cfg2.win 3).blk t).view.emb ((cfg2.win 4).blk t).view.emb
        ((cfg2.win 5).blk t).view.emb (fun _ => ⟨rfl, rfl⟩) (fun _ => ⟨rfl, rfl⟩) (fun _ => ⟨rfl, rfl⟩) (fun _ => ⟨rfl, rfl⟩)
        (fun _ => ⟨rfl, rfl⟩) (fun _ => ⟨rfl, rfl⟩) (fun _ => ⟨rfl, rfl⟩) (idx t) _ _)
    (cover N_2 (e := fun t => ((cfg2.win 6).blk t).view.emb) (fun _ _ => ⟨rfl, rfl⟩)
      (fun t => ((cfg2.win 6).blk t).view.emb_mem_set) (fun t => (idx t).2.2.2.2.2.2) flush2_6)

end Cert.GCN.KNorm2
-- ==== Proof.KChainL0.lean ====
import proofs.«401124_j9440338117505_1_alg».proof.Proof.KChainE
import proofs.«401124_j9440338117505_1_alg».proof.Proof.KFoldChain
import proofs.«401124_j9440338117505_1_alg».proof.Proof.KLin0
import proofs.«401124_j9440338117505_1_alg».proof.Proof.KStats1
import proofs.«401124_j9440338117505_1_alg».proof.Proof.KNorm2

set_option maxRecDepth 16384

noncomputable section

open Idealize.ShloMosaic Idealize.ShloMosaic.TcCoe Idealize.SL.Sem
open Idealize.ShloMosaic.ValueIdx
open Cert.KernelIdeal Cert.KernelIdeal.Gen Cert.GCN Cert.GCN.KChain.Fold

namespace Cert.GCN.KChain.L0

variable (m : (ℓ : Loc nD τ sig) → Buf (Elt Ideal) ℓ) (ρ : Dev nD → PrngReg) (c : Dev nD)

set_option quotPrecheck false in
local notation "cwA" => m ((c.tc : Thread nD τ).loc main_arg3)
set_option quotPrecheck false in
local notation "cbA" => m ((c.tc : Thread nD τ).loc main_arg4)
set_option quotPrecheck false in
local notation "gA" => m ((c.tc : Thread nD τ).loc main_arg5)
set_option quotPrecheck false in
local notation "beA" => m ((c.tc : Thread nD τ).loc main_arg6)

theorem kc_X : W4 m ρ c (Proc.devRef .tc main_arg0) = W3 m ρ c (Proc.devRef .tc main_arg0) :=
  (W4_arr m ρ c 0).trans (((dat0 (V3 m ρ) c).arrAt_in 0 rfl _).trans (A_eq0 (V3 m ρ) c 0))
theorem ke_agg : W6 m ρ c (Proc.devRef .tc main_v50) = W5 m ρ c (Proc.devRef .tc main_v50) :=
  (W6_arr m ρ c 0).trans (((dat1 (V5 m ρ) c).arrAt_in 0 rfl _).trans (A_eq1 (V5 m ρ) c 0))

theorem wt_of (V : Valuation τ sig (Elt Ideal)) (p : (⟨3, ![4, 128, 128]⟩ : Shape).Idx → EReal)
    (hp : V (Proc.devRef .tc main_arg3) = p) : StableHlo.after hostOps0_2 V (Proc.devRef .tc main_v34) = vec2 (Wl p (0 : Fin 4)) := by
  open Idealize.ShloMosaic.StableHlo in after_results_simp
  rw [hp]; exact mat_read 0 _ p

theorem bias_of (V : Valuation τ sig (Elt Ideal)) (p : (⟨2, ![4, 128]⟩ : Shape).Idx → EReal)
    (hp : V (Proc.devRef .tc main_arg4) = p) (j : Fin 128) : StableHlo.after hostOps0_2 V (Proc.devRef .tc main_v37) (ix2 0 j) = rowl p (0 : Fin 4) j := by
  open Idealize.ShloMosaic.StableHlo in after_results_simp
  rw [hp]; exact row_read 0 _ p j

theorem agg_of (V : Valuation τ sig (Elt Ideal)) (e : IVec S2x600000 32) (h : FVec Ideal S100000x128 .f32)
    (hs : V (Proc.devRef .tc main_v3) = Ops.srcV e) (hd : V (Proc.devRef .tc main_v6) = Ops.dstV e)
    (hn : V (Proc.devRef .tc main_v32) = Ops.nrmV (F := Ideal) e) (hh : V (Proc.devRef .tc main_v38) = h) :
    StableHlo.after hostOps1 V (Proc.devRef .tc main_v50) = Ops.aggV (F := Ideal) e h := by
  open Idealize.ShloMosaic.StableHlo in after_results_simp
  rw [hs, hd, hn, hh]; rfl

theorem mean_of (V : Valuation τ sig (Elt Ideal)) (A : Mat 100000 128)
    (hs : V (Proc.devRef .tc main_v51_0) = fun i => colSum A (i 1)) (j : Fin 128) :
    StableHlo.after hostOps2 V (Proc.devRef .tc main_v53) (ix2 0 j) = mean A j := by
  open Idealize.ShloMosaic.StableHlo in after_results_simp
  rw [hs]; rfl

theorem var_of (V : Valuation τ sig (Elt Ideal)) (A : Mat 100000 128)
    (hs : V (Proc.devRef .tc main_v51_0) = fun i => colSum A (i 1))
    (hq : V (Proc.devRef .tc main_v51_1) = fun i => colSum (fun r j => A r j * A r j) (i 1)) (j : Fin 128) :
    StableHlo.after hostOps2 V (Proc.devRef .tc main_v57) (ix2 0 j) = varK A j := by
  open Idealize.ShloMosaic.StableHlo in after_results_simp
  rw [hs, hq]; rfl

theorem gam_of (V : Valuation τ sig (Elt Ideal)) (p : (⟨2, ![4, 128]⟩ : Shape).Idx → EReal)
    (hp : V (Proc.devRef .tc main_arg5) = p) (j : Fin 128) : StableHlo.after hostOps2 V (Proc.devRef .tc main_v60) (ix2 0 j) = rowl p (0 : Fin 4) j := by
  open Idealize.ShloMosaic.StableHlo in after_results_simp
  rw [hp]; exact row_read 0 _ p j

theorem bet_of (V : Valuation τ sig (Elt Ideal)) (p : (⟨2, ![4, 128]⟩ : Shape).Idx → EReal)
    (hp : V (Proc.devRef .tc main_arg6) = p) (j : Fin 128) : StableHlo.after hostOps2 V (Proc.devRef .tc main_v63) (ix2 0 j) = rowl p (0 : Fin 4) j := by
  open Idealize.ShloMosaic.StableHlo in after_results_simp
  rw [hp]; exact row_read 0 _ p j

-- x W + b with the layer's own weight matrix and bias row
theorem lin_out (X : Mat 100000 128) (hX : W2 m ρ c (Proc.devRef .tc main_arg0) = vec2 X) :
    W4 m ρ c (Proc.devRef .tc main_v38) = vec2 (lin X (Wl cwA (0 : Fin 4)) (rowl cbA (0 : Fin 4))) :=
    (W4_arr m ρ c 3).trans ((KLin0.value (V3 m ρ) c).trans (lin_of ((keep0_2 (W2 m ρ c) main_arg0 (by decide)).trans hX)
      (wt_of (W2 m ρ c) _ (p2 m ρ c main_arg3 (by decide))) (bias_of (W2 m ρ c) _ (p2 m ρ c main_arg4 (by decide)))))

-- the aggregated x W + b normalised by its column mean and variance, scaled, shifted, rectified, plus x
theorem layer (X : Mat 100000 128) (hX : W2 m ρ c (Proc.devRef .tc main_arg0) = vec2 X) :
    W8 m ρ c (Proc.devRef .tc main_v64)
      = vec2 (layerK (Ops.aggC (ei m c)) X (Wl cwA (0 : Fin 4)) (rowl cbA (0 : Fin 4)) (rowl gA (0 : Fin 4)) (rowl beA (0 : Fin 4))) := by
  unfold layerK
  have hagg := agg_of (W4 m ρ c) (ei m c) _ ((c4 m ρ c main_v3 (by decide)).trans (W3_src m ρ c))
    ((c4 m ρ c main_v6 (by decide)).trans (W3_dst m ρ c)) ((c4 m ρ c main_v32 (by decide)).trans (W3_nrm m ρ c)) (lin_out m ρ c X hX)
  generalize lin X (Wl cwA (0 : Fin 4)) (rowl cbA (0 : Fin 4)) = H at hagg ⊢
  have hA : cur2 (V5 m ρ c (Pipeline.arrRef spec1 0)) = Ops.aggC (ei m c) H := congrArg cur2 hagg
  generalize Ops.aggC (ei m c) H = A at hA ⊢
  have hs := (W6_arr m ρ c 1).trans (KStats1.value_sum (V5 m ρ) c)
  have hq := (W6_arr m ρ c 2).trans (KStats1.value_sumsq (V5 m ρ) c)
  rw [hA] at hs hq
  have a5 : cur2 (V7 m ρ c (Pipeline.arrRef spec2 0)) = A :=
    (congrArg cur2 ((keep2 (W6 m ρ c) main_v50 (by decide)).trans (ke_agg m ρ c))).trans hA
  have x5 : V7 m ρ c (Pipeline.arrRef spec2 1) = vec2 X :=
    (keep2 (W6 m ρ c) main_arg0 (by decide)).trans ((W6_of_ne m ρ c main_arg0 (by decide)).trans
      ((keep1 (W4 m ρ c) main_arg0 (by decide)).trans ((kc_X m ρ c).trans ((keep0_2 (W2 m ρ c) main_arg0 (by decide)).trans hX))))
  exact (W8_arr m ρ c 6).trans ((KNorm2.value (V7 m ρ) c).trans (norm_of a5 x5
    (mean_of (W6 m ρ c) A hs) (var_of (W6 m ρ c) A hs hq)
    (gam_of (W6 m ρ c) _ ((c6 m ρ c main_arg5 (by decide)).trans (p3 m ρ c main_arg5 (by decide))))
    (bet_of (W6 m ρ c) _ ((c6 m ρ c main_arg6 (by decide)).trans (p3 m ρ c main_arg6 (by decide))))))

end Cert.GCN.KChain.L0

end
-- ==== Proof.KLin3.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KLin3

open KTile

variable (V : (c : Dev nD) → (b : Ref sig .tc) → Buf (Elt Ideal) ((c : Thread nD τ).loc b))

theorem idx : ∀ t : Fin grid3.N, Rows (win3_0.index t) t ∧ Rows (win3_1.index t) 0 ∧ Rows (win3_2.index t) 0
    ∧ Rows (win3_3.index t) t := by
  decide +kernel

theorem value (c : Dev nD) : (dat3 V c).arrAt 3 cfg3.N
    = vec2 (lin (cur2 (V c (Pipeline.arrRef spec3 0))) (cur2 (V c (Pipeline.arrRef spec3 1)))
        (fun j => V c (Pipeline.arrRef spec3 2) (ix2 0 j))) :=
  (dat3 V c).arrAt_eq_of_cover 3 _
    (fun t _ => by
      show (cfg3.win 3).cut (grid3.coords t) ((dat3 V c).after 3 t) = _
      rw [after3_3]
      exact lin_block (fun x0 x1 x2 => by unfold k3_pay1; simp only [shapeCast_self]; exact lin_entry _ _ x0 x1 x2)
        (V c (Pipeline.arrRef spec3 0)) (V c (Pipeline.arrRef spec3 1)) (V c (Pipeline.arrRef spec3 2))
        ((cfg3.win 0).blk t).view.emb ((cfg3.win 3).blk t).view.emb ((cfg3.win 1).blk t).view.emb
        ((cfg3.win 2).blk t).view.emb (fun _ => ⟨rfl, rfl⟩) (fun _ => ⟨rfl, rfl⟩) (fun _ => ⟨rfl, rfl⟩) (fun _ => ⟨rfl, rfl⟩)
        (idx t) _ _ _)
    (cover N_3 (e := fun t => ((cfg3.win 3).blk t).view.emb) (fun _ _ => ⟨rfl, rfl⟩)
      (fun t => ((cfg3.win 3).blk t).view.emb_mem_set) (fun t => (idx t).2.2.2) flush3_3)

end Cert.GCN.KLin3
-- ==== Proof.KStats4.lean ====
import proofs.«401124_j9440338117505_1_alg».proof.Proof.Gen.KernelIdeal.Frame
import proofs.«401124_j9440338117505_1_alg».proof.Proof.KAcc

noncomputable section

namespace Cert.GCN.KStats4

open Cert.KernelIdeal Cert.KernelIdeal.Gen Cert.GCN.KAcc
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- At the first point both rows are the zero rows updated by the row block. -/
theorem step_A (t : Fin cfg4.N) (h0 : t.val % 25 = 0) : outsAt4 V c t.val t.isLt
    = (k4_pay4 (iblk4 V c 0 t) (k4_pay1 (F := Ideal)), k4_pay5 (iblk4 V c 0 t) (k4_pay2 (F := Ideal))) := by
  rw [outsAt4_A V c t h0]
  unfold out4_A_1 out4_A_2
  rw [View.read_writes_eq_canon _ _ _ (cover4_A_1 _ _ _ _ _ _ _ _ _ _),
    View.read_writes_eq_canon _ _ _ (cover4_A_2 _ _ _ _ _ _ _ _ _ _)]
  unfold kernelRun4_A
  dsimp only
  sl_unfold_words
  simp only [View.canon_cons_unit_zero (S := S1x128) hz, View.readCov_unit_zero (S := S1x128) _ hz, View.readAt_eq_ld,
    (hs4_0 t).read_unread, View.ld_unit_zero (S := S4000x128) hz]

/-- At a later point each row is the update, by the row block, of what the point before left. -/
theorem step_B (t : Fin cfg4.N) (h0 : ¬t.val % 25 = 0) : outsAt4 V c t.val t.isLt
    = (k4_pay4 (iblk4 V c 0 t) (outsAt4 V c (t.val - 1) (Nat.lt_of_le_of_lt (Nat.sub_le _ _) t.isLt)).1,
      k4_pay5 (iblk4 V c 0 t) (outsAt4 V c (t.val - 1) (Nat.lt_of_le_of_lt (Nat.sub_le _ _) t.isLt)).2) := by
  rw [outsAt4_B V c t h0]
  unfold out4_B_1 out4_B_2
  rw [View.read_writes_eq_canon _ _ _ (cover4_B_1 _ _ _ _ _ _ _ _ _ _ _ _),
    View.read_writes_eq_canon _ _ _ (cover4_B_2 _ _ _ _ _ _ _ _ _ _ _ _)]
  unfold kernelRun4_B
  dsimp only
  sl_unfold_words
  simp only [View.canon_unit_zero (S := S1x128) hz, View.readAt_eq_ld, (hs4_0 t).read_unread, (hs4_1 t).read_unread,
    (hs4_2 t).read_unread, View.ld_unit_zero (S := S4000x128) hz, View.ld_unit_zero (S := S1x128) hz]

theorem idx_facts : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row r of the block at point t is row 4000 t + r of the array. -/
theorem blk_apply (t : Fin cfg4.N) (r : Fin 4000) (j : Fin 128) : iblk4 V c 0 t (ix2 r j)
    = V c (Pipeline.arrRef spec4 0) (ix2 ⟨t.val * 4000 + r.val, row_lt (lt_of_lt_of_eq t.isLt N_4) r⟩ j) := by
  obtain ⟨e0, e1⟩ := idx_facts t
  show V c (Pipeline.arrRef spec4 0) (((cfg4.win 0).blk t).view.emb (ix2 r j)) = _
  congr 1
  funext a; apply Fin.ext
  match a with
  | ⟨0, _⟩ => show win4_0.index t (0 : Fin 2) * 4000 + 1 * r.val = t.val * 4000 + r.val; omega
  | ⟨1, _⟩ => show win4_0.index t (1 : Fin 2) * 128 + 1 * j.val = j.val; omega

def tLast : Fin cfg4.N := ⟨24, by rw [show cfg4.N = 25 from N_4]; decide⟩

theorem last : (outsAt4 V c tLast.val tLast.isLt).1 = (fun i => colSum (cur2 (V c (Pipeline.arrRef spec4 0))) (i 1))
    ∧ (outsAt4 V c tLast.val tLast.isLt).2
      = fun i => colSum (fun r j => cur2 (V c (Pipeline.arrRef spec4 0)) r j * cur2 (V c (Pipeline.arrRef spec4 0)) r j) (i 1) :=
  stats_last N_4 (iblk4 V c 0) _ (blk_apply V c) (outsAt4 V c) (step_A V c) (step_B V c) tLast.isLt

/-- The last point's block of either row sits at offset zero. -/
theorem hz1 : (fun a => win4_1.index tLast a * (Pipeline.arrRef spec4 1).ty.shape.size a) = fun _ => 0 :=
  funext fun a => by fin_cases a <;> decide
theorem hz2 : (fun a => win4_2.index tLast a * (Pipeline.arrRef spec4 2).ty.shape.size a) = fun _ => 0 :=
  funext fun a => by fin_cases a <;> decide

/-- The last point's block is the whole row, which by then holds the column sums over all rows. -/
theorem value_sum : (dat4 V c).arrAt 1 cfg4.N = fun i => colSum (cur2 (V c (Pipeline.arrRef spec4 0))) (i 1) := by
  refine (dat4 V c).arrAt_eq_of_cover 1 _ (fun t hf => ?_) fun i => ⟨tLast, (flush4_1 tLast).mpr rfl, ?_⟩
  · obtain rfl : t = tLast := Fin.ext (eq_24 N_4 t ((flush4_1 t).mp hf))
    show (cfg4.win 1).cut (grid4.coords tLast) ((dat4 V c).after 1 tLast) = _
    rw [after4_1, (last V c).1]
    exact (Memref.read_access_unit_zero (Elt Ideal) (Pipeline.arrRef spec4 1) hz1
      (fun a => by rw [congrFun hz1 a]; simp) _).symm
  · show i ∈ ((View.whole (Pipeline.arrRef spec4 1)).slice (win4_1.rect tLast)).set
    rw [View.set_slice_whole]
    exact View.mem_set_unit_zero hz1 _ i

/-- The same for the column sums of squares. -/
theorem value_sumsq : (dat4 V c).arrAt 2 cfg4.N
    = fun i => colSum (fun r j => cur2 (V c (Pipeline.arrRef spec4 0)) r j * cur2 (V c (Pipeline.arrRef spec4 0)) r j) (i 1) := by
  refine (dat4 V c).arrAt_eq_of_cover 2 _ (fun t hf => ?_) fun i => ⟨tLast, (flush4_2 tLast).mpr rfl, ?_⟩
  · obtain rfl : t = tLast := Fin.ext (eq_24 N_4 t ((flush4_2 t).mp hf))
    show (cfg4.win 2).cut (grid4.coords tLast) ((dat4 V c).after 2 tLast) = _
    rw [after4_2, (last V c).2]
    exact (Memref.read_access_unit_zero (Elt Ideal) (Pipeline.arrRef spec4 2) hz2
      (fun a => by rw [congrFun hz2 a]; simp) _).symm
  · show i ∈ ((View.whole (Pipeline.arrRef spec4 2)).slice (win4_2.rect tLast)).set
    rw [View.set_slice_whole]
    exact View.mem_set_unit_zero hz2 _ i

end Cert.GCN.KStats4

end
-- ==== Proof.KNorm5.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KNorm5

open KTile

variable (V : (c : Dev nD) → (b : Ref sig .tc) → Buf (Elt Ideal) ((c : Thread nD τ).loc b))

theorem idx : ∀ t : Fin grid5.N, Rows (win5_0.index t) t ∧ Rows (win5_1.index t) t ∧ Rows (win5_2.index t) 0
    ∧ Rows (win5_3.index t) 0 ∧ Rows (win5_4.index t) 0 ∧ Rows (win5_5.index t) 0 ∧ Rows (win5_6.index t) t := by
  decide +kernel

theorem value (c : Dev nD) : (dat5 V c).arrAt 6 cfg5.N
    = vec2 (normRelu (cur2 (V c (Pipeline.arrRef spec5 0))) (cur2 (V c (Pipeline.arrRef spec5 1)))
        (fun j => V c (Pipeline.arrRef spec5 2) (ix2 0 j)) (fun j => V c (Pipeline.arrRef spec5 3) (ix2 0 j))
        (fun j => V c (Pipeline.arrRef spec5 4) (ix2 0 j)) (fun j => V c (Pipeline.arrRef spec5 5) (ix2 0 j))) :=
  (dat5 V c).arrAt_eq_of_cover 6 _
    (fun t _ => by
      show (cfg5.win 6).cut (grid5.coords t) ((dat5 V c).after 6 t) = _
      rw [after5_6]
      exact norm_block (fun a μ v γ β x => by unfold k5_pay1; simp only [shapeCast_self]; exact norm_entry _ a μ v γ β x)
        (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))
        ((cfg5.win 0).blk t).view.emb ((cfg5.win 1).blk t).view.emb ((cfg5.win 6).blk t).view.emb
        ((cfg5.win 2).blk t).view.emb ((cfg5.win 3).blk t).view.emb ((cfg5.win 4).blk t).view.emb
        ((cfg5.win 5).blk t).view.emb (fun _ => ⟨rfl, rfl⟩) (fun _ => ⟨rfl, rfl⟩) (fun _ => ⟨rfl, rfl⟩) (fun _ => ⟨rfl, rfl⟩)
        (fun _ => ⟨rfl, rfl⟩) (fun _ => ⟨rfl, rfl⟩) (fun _ => ⟨rfl, rfl⟩) (idx t) _ _)
    (cover N_5 (e := fun t => ((cfg5.win 6).blk t).view.emb) (fun _ _ => ⟨rfl, rfl⟩)
      (fun t => ((cfg5.win 6).blk t).view.emb_mem_set) (fun t => (idx t).2.2.2.2.2.2) flush5_6)

end Cert.GCN.KNorm5
-- ==== Proof.KChainL1.lean ====
import proofs.«401124_j9440338117505_1_alg».proof.Proof.KChainE
import proofs.«401124_j9440338117505_1_alg».proof.Proof.KFoldChain
import proofs.«401124_j9440338117505_1_alg».proof.Proof.KLin3
import proofs.«401124_j9440338117505_1_alg».proof.Proof.KStats4
import proofs.«401124_j9440338117505_1_alg».proof.Proof.KNorm5

set_option maxRecDepth 16384

noncomputable section

open Idealize.ShloMosaic Idealize.ShloMosaic.TcCoe Idealize.SL.Sem
open Idealize.ShloMosaic.ValueIdx
open Cert.KernelIdeal Cert.KernelIdeal.Gen Cert.GCN Cert.GCN.KChain.Fold

namespace Cert.GCN.KChain.L1

variable (m : (ℓ : Loc nD τ sig) → Buf (Elt Ideal) ℓ) (ρ : Dev nD → PrngReg) (c : Dev nD)

set_option quotPrecheck false in
local notation "cwA" => m ((c.tc : Thread nD τ).loc main_arg3)
set_option quotPrecheck false in
local notation "cbA" => m ((c.tc : Thread nD τ).loc main_arg4)
set_option quotPrecheck false in
local notation "gA" => m ((c.tc : Thread nD τ).loc main_arg5)
set_option quotPrecheck false in
local notation "beA" => m ((c.tc : Thread nD τ).loc main_arg6)

theorem kc_X : W10 m ρ c (Proc.devRef .tc main_v64) = W9 m ρ c (Proc.devRef .tc main_v64) :=
  (W10_arr m ρ c 0).trans (((dat3 (V9 m ρ) c).arrAt_in 0 rfl _).trans (A_eq3 (V9 m ρ) c 0))
theorem ke_agg : W12 m ρ c (Proc.devRef .tc main_v82) = W11 m ρ c (Proc.devRef .tc main_v82) :=
  (W12_arr m ρ c 0).trans (((dat4 (V11 m ρ) c).arrAt_in 0 rfl _).trans (A_eq4 (V11 m ρ) c 0))

theorem wt_of (V : Valuation τ sig (Elt Ideal)) (p : (⟨3, ![4, 128, 128]⟩ : Shape).Idx → EReal)
    (hp : V (Proc.devRef .tc main_arg3) = p) : StableHlo.after hostOps3 V (Proc.devRef .tc main_v66) = vec2 (Wl p (1 : Fin 4)) := by
  open Idealize.ShloMosaic.StableHlo in after_results_simp
  rw [hp]; exact mat_read 1 _ p

theorem bias_of (V : Valuation τ sig (Elt Ideal)) (p : (⟨2, ![4, 128]⟩ : Shape).Idx → EReal)
    (hp : V (Proc.devRef .tc main_arg4) = p) (j : Fin 128) : StableHlo.after hostOps3 V (Proc.devRef .tc main_v69) (ix2 0 j) = rowl p (1 : Fin 4) j := by
  open Idealize.ShloMosaic.StableHlo in after_results_simp
  rw [hp]; exact row_read 1 _ p j

theorem agg_of (V : Valuation τ sig (Elt Ideal)) (e : IVec S2x600000 32) (h : FVec Ideal S100000x128 .f32)
    (hs : V (Proc.devRef .tc main_v3) = Ops.srcV e) (hd : V (Proc.devRef .tc main_v6) = Ops.dstV e)
    (hn : V (Proc.devRef .tc main_v32) = Ops.nrmV (F := Ideal) e) (hh : V (Proc.devRef .tc main_v70) = h) :
    StableHlo.after hostOps4 V (Proc.devRef .tc main_v82) = Ops.aggV (F := Ideal) e h := by
  open Idealize.ShloMosaic.StableHlo in after_results_simp
  rw [hs, hd, hn, hh]; rfl

theorem mean_of (V : Valuation τ sig (Elt Ideal)) (A : Mat 100000 128)
    (hs : V (Proc.devRef .tc main_v83_0) = fun i => colSum A (i 1)) (j : Fin 128) :
    StableHlo.after hostOps5 V (Proc.devRef .tc main_v85) (ix2 0 j) = mean A j := by
  open Idealize.ShloMosaic.StableHlo in after_results_simp
  rw [hs]; rfl

theorem var_of (V : Valuation τ sig (Elt Ideal)) (A : Mat 100000 128)
    (hs : V (Proc.devRef .tc main_v83_0) = fun i => colSum A (i 1))
    (hq : V (Proc.devRef .tc main_v83_1) = fun i => colSum (fun r j => A r j * A r j) (i 1)) (j : Fin 128) :
    StableHlo.after hostOps5 V (Proc.devRef .tc main_v89) (ix2 0 j) = varK A j := by
  open Idealize.ShloMosaic.StableHlo in after_results_simp
  rw [hs, hq]; rfl

theorem gam_of (V : Valuation τ sig (Elt Ideal)) (p : (⟨2, ![4, 128]⟩ : Shape).Idx → EReal)
    (hp : V (Proc.devRef .tc main_arg5) = p) (j : Fin 128) : StableHlo.after hostOps5 V (Proc.devRef .tc main_v92) (ix2 0 j) = rowl p (1 : Fin 4) j := by
  open Idealize.ShloMosaic.StableHlo in after_results_simp
  rw [hp]; exact row_read 1 _ p j

theorem bet_of (V : Valuation τ sig (Elt Ideal)) (p : (⟨2, ![4, 128]⟩ : Shape).Idx → EReal)
    (hp : V (Proc.devRef .tc main_arg6) = p) (j : Fin 128) : StableHlo.after hostOps5 V (Proc.devRef .tc main_v95) (ix2 0 j) = rowl p (1 : Fin 4) j := by
  open Idealize.ShloMosaic.StableHlo in after_results_simp
  rw [hp]; exact row_read 1 _ p j

-- x W + b with the layer's own weight matrix and bias row
theorem lin_out (X : Mat 100000 128) (hX : W8 m ρ c (Proc.devRef .tc main_v64) = vec2 X) :
    W10 m ρ c (Proc.devRef .tc main_v70) = vec2 (lin X (Wl cwA (1 : Fin 4)) (rowl cbA (1 : Fin 4))) :=
    (W10_arr m ρ c 3).trans ((KLin3.value (V9 m ρ) c).trans (lin_of ((keep3 (W8 m ρ c) main_v64 (by decide)).trans hX)
      (wt_of (W8 m ρ c) _ ((c8 m ρ c main_arg3 (by decide)).trans (p3 m ρ c main_arg3 (by decide)))) (bias_of (W8 m ρ c) _ ((c8 m ρ c main_arg4 (by decide)).trans (p3 m ρ c main_arg4 (by decide))))))

-- the aggregated x W + b normalised by its column mean and variance, scaled, shifted, rectified, plus x
theorem layer (X : Mat 100000 128) (hX : W8 m ρ c (Proc.devRef .tc main_v64) = vec2 X) :
    W14 m ρ c (Proc.devRef .tc main_v96)
      = vec2 (layerK (Ops.aggC (ei m c)) X (Wl cwA (1 : Fin 4)) (rowl cbA (1 : Fin 4)) (rowl gA (1 : Fin 4)) (rowl beA (1 : Fin 4))) := by
  unfold layerK
  have hagg := agg_of (W10 m ρ c) (ei m c) _ ((c10 m ρ c main_v3 (by decide)).trans (W3_src m ρ c))
    ((c10 m ρ c main_v6 (by decide)).trans (W3_dst m ρ c)) ((c10 m ρ c main_v32 (by decide)).trans (W3_nrm m ρ c)) (lin_out m ρ c X hX)
  generalize lin X (Wl cwA (1 : Fin 4)) (rowl cbA (1 : Fin 4)) = H at hagg ⊢
  have hA : cur2 (V11 m ρ c (Pipeline.arrRef spec4 0)) = Ops.aggC (ei m c) H := congrArg cur2 hagg
  generalize Ops.aggC (ei m c) H = A at hA ⊢
  have hs := (W12_arr m ρ c 1).trans (KStats4.value_sum (V11 m ρ) c)
  have hq := (W12_arr m ρ c 2).trans (KStats4.value_sumsq (V11 m ρ) c)
  rw [hA] at hs hq
  have a5 : cur2 (V13 m ρ c (Pipeline.arrRef spec5 0)) = A :=
    (congrArg cur2 ((keep5 (W12 m ρ c) main_v82 (by decide)).trans (ke_agg m ρ c))).trans hA
  have x5 : V13 m ρ c (Pipeline.arrRef spec5 1) = vec2 X :=
    (keep5 (W12 m ρ c) main_v64 (by decide)).trans ((W12_of_ne m ρ c main_v64 (by decide)).trans
      ((keep4 (W10 m ρ c) main_v64 (by decide)).trans ((kc_X m ρ c).trans ((keep3 (W8 m ρ c) main_v64 (by decide)).trans hX))))
  exact (W14_arr m ρ c 6).trans ((KNorm5.value (V13 m ρ) c).trans (norm_of a5 x5
    (mean_of (W12 m ρ c) A hs) (var_of (W12 m ρ c) A hs hq)
    (gam_of (W12 m ρ c) _ ((c12 m ρ c main_arg5 (by decide)).trans (p3 m ρ c main_arg5 (by decide))))
    (bet_of (W12 m ρ c) _ ((c12 m ρ c main_arg6 (by decide)).trans (p3 m ρ c main_arg6 (by decide))))))

end Cert.GCN.KChain.L1

end
-- ==== Proof.KLin6.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KLin6

open KTile

variable (V : (c : Dev nD) → (b : Ref sig .tc) → Buf (Elt Ideal) ((c : Thread nD τ).loc b))

theorem idx : ∀ t : Fin grid6.N, Rows (win6_0.index t) t ∧ Rows (win6_1.index t) 0 ∧ Rows (win6_2.index t) 0
    ∧ Rows (win6_3.index t) t := by
  decide +kernel

theorem value (c : Dev nD) : (dat6 V c).arrAt 3 cfg6.N
    = vec2 (lin (cur2 (V c (Pipeline.arrRef spec6 0))) (cur2 (V c (Pipeline.arrRef spec6 1)))
        (fun j => V c (Pipeline.arrRef spec6 2) (ix2 0 j))) :=
  (dat6 V c).arrAt_eq_of_cover 3 _
    (fun t _ => by
      show (cfg6.win 3).cut (grid6.coords t) ((dat6 V c).after 3 t) = _
      rw [after6_3]
      exact lin_block (fun x0 x1 x2 => by unfold k6_pay1; simp only [shapeCast_self]; exact lin_entry _ _ x0 x1 x2)
        (V c (Pipeline.arrRef spec6 0)) (V c (Pipeline.arrRef spec6 1)) (V c (Pipeline.arrRef spec6 2))
        ((cfg6.win 0).blk t).view.emb ((cfg6.win 3).blk t).view.emb ((cfg6.win 1).blk t).view.emb
        ((cfg6.win 2).blk t).view.emb (fun _ => ⟨rfl, rfl⟩) (fun _ => ⟨rfl, rfl⟩) (fun _ => ⟨rfl, rfl⟩) (fun _ => ⟨rfl, rfl⟩)
        (idx t) _ _ _)
    (cover N_6 (e := fun t => ((cfg6.win 3).blk t).view.emb) (fun _ _ => ⟨rfl, rfl⟩)
      (fun t => ((cfg6.win 3).blk t).view.emb_mem_set) (fun t => (idx t).2.2.2) flush6_3)

end Cert.GCN.KLin6
-- ==== Proof.KStats7.lean ====
import proofs.«401124_j9440338117505_1_alg».proof.Proof.Gen.KernelIdeal.Frame
import proofs.«401124_j9440338117505_1_alg».proof.Proof.KAcc

noncomputable section

namespace Cert.GCN.KStats7

open Cert.KernelIdeal Cert.KernelIdeal.Gen Cert.GCN.KAcc
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- At the first point both rows are the zero rows updated by the row block. -/
theorem step_A (t : Fin cfg7.N) (h0 : t.val % 25 = 0) : outsAt7 V c t.val t.isLt
    = (k7_pay4 (iblk7 V c 0 t) (k7_pay1 (F := Ideal)), k7_pay5 (iblk7 V c 0 t) (k7_pay2 (F := Ideal))) := by
  rw [outsAt7_A V c t h0]
  unfold out7_A_1 out7_A_2
  rw [View.read_writes_eq_canon _ _ _ (cover7_A_1 _ _ _ _ _ _ _ _ _ _),
    View.read_writes_eq_canon _ _ _ (cover7_A_2 _ _ _ _ _ _ _ _ _ _)]
  unfold kernelRun7_A
  dsimp only
  sl_unfold_words
  simp only [View.canon_cons_unit_zero (S := S1x128) hz, View.readCov_unit_zero (S := S1x128) _ hz, View.readAt_eq_ld,
    (hs7_0 t).read_unread, View.ld_unit_zero (S := S4000x128) hz]

/-- At a later point each row is the update, by the row block, of what the point before left. -/
theorem step_B (t : Fin cfg7.N) (h0 : ¬t.val % 25 = 0) : outsAt7 V c t.val t.isLt
    = (k7_pay4 (iblk7 V c 0 t) (outsAt7 V c (t.val - 1) (Nat.lt_of_le_of_lt (Nat.sub_le _ _) t.isLt)).1,
      k7_pay5 (iblk7 V c 0 t) (outsAt7 V c (t.val - 1) (Nat.lt_of_le_of_lt (Nat.sub_le _ _) t.isLt)).2) := by
  rw [outsAt7_B V c t h0]
  unfold out7_B_1 out7_B_2
  rw [View.read_writes_eq_canon _ _ _ (cover7_B_1 _ _ _ _ _ _ _ _ _ _ _ _),
    View.read_writes_eq_canon _ _ _ (cover7_B_2 _ _ _ _ _ _ _ _ _ _ _ _)]
  unfold kernelRun7_B
  dsimp only
  sl_unfold_words
  simp only [View.canon_unit_zero (S := S1x128) hz, View.readAt_eq_ld, (hs7_0 t).read_unread, (hs7_1 t).read_unread,
    (hs7_2 t).read_unread, View.ld_unit_zero (S := S4000x128) hz, View.ld_unit_zero (S := S1x128) hz]

theorem idx_facts : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Row r of the block at point t is row 4000 t + r of the array. -/
theorem blk_apply (t : Fin cfg7.N) (r : Fin 4000) (j : Fin 128) : iblk7 V c 0 t (ix2 r j)
    = V c (Pipeline.arrRef spec7 0) (ix2 ⟨t.val * 4000 + r.val, row_lt (lt_of_lt_of_eq t.isLt N_7) r⟩ j) := by
  obtain ⟨e0, e1⟩ := idx_facts t
  show V c (Pipeline.arrRef spec7 0) (((cfg7.win 0).blk t).view.emb (ix2 r j)) = _
  congr 1
  funext a; apply Fin.ext
  match a with
  | ⟨0, _⟩ => show win7_0.index t (0 : Fin 2) * 4000 + 1 * r.val = t.val * 4000 + r.val; omega
  | ⟨1, _⟩ => show win7_0.index t (1 : Fin 2) * 128 + 1 * j.val = j.val; omega

def tLast : Fin cfg7.N := ⟨24, by rw [show cfg7.N = 25 from N_7]; decide⟩

theorem last : (outsAt7 V c tLast.val tLast.isLt).1 = (fun i => colSum (cur2 (V c (Pipeline.arrRef spec7 0))) (i 1))
    ∧ (outsAt7 V c tLast.val tLast.isLt).2
      = fun i => colSum (fun r j => cur2 (V c (Pipeline.arrRef spec7 0)) r j * cur2 (V c (Pipeline.arrRef spec7 0)) r j) (i 1) :=
  stats_last N_7 (iblk7 V c 0) _ (blk_apply V c) (outsAt7 V c) (step_A V c) (step_B V c) tLast.isLt

/-- The last point's block of either row sits at offset zero. -/
theorem hz1 : (fun a => win7_1.index tLast a * (Pipeline.arrRef spec7 1).ty.shape.size a) = fun _ => 0 :=
  funext fun a => by fin_cases a <;> decide
theorem hz2 : (fun a => win7_2.index tLast a * (Pipeline.arrRef spec7 2).ty.shape.size a) = fun _ => 0 :=
  funext fun a => by fin_cases a <;> decide

/-- The last point's block is the whole row, which by then holds the column sums over all rows. -/
theorem value_sum : (dat7 V c).arrAt 1 cfg7.N = fun i => colSum (cur2 (V c (Pipeline.arrRef spec7 0))) (i 1) := by
  refine (dat7 V c).arrAt_eq_of_cover 1 _ (fun t hf => ?_) fun i => ⟨tLast, (flush7_1 tLast).mpr rfl, ?_⟩
  · obtain rfl : t = tLast := Fin.ext (eq_24 N_7 t ((flush7_1 t).mp hf))
    show (cfg7.win 1).cut (grid7.coords tLast) ((dat7 V c).after 1 tLast) = _
    rw [after7_1, (last V c).1]
    exact (Memref.read_access_unit_zero (Elt Ideal) (Pipeline.arrRef spec7 1) hz1
      (fun a => by rw [congrFun hz1 a]; simp) _).symm
  · show i ∈ ((View.whole (Pipeline.arrRef spec7 1)).slice (win7_1.rect tLast)).set
    rw [View.set_slice_whole]
    exact View.mem_set_unit_zero hz1 _ i

/-- The same for the column sums of squares. -/
theorem value_sumsq : (dat7 V c).arrAt 2 cfg7.N
    = fun i => colSum (fun r j => cur2 (V c (Pipeline.arrRef spec7 0)) r j * cur2 (V c (Pipeline.arrRef spec7 0)) r j) (i 1) := by
  refine (dat7 V c).arrAt_eq_of_cover 2 _ (fun t hf => ?_) fun i => ⟨tLast, (flush7_2 tLast).mpr rfl, ?_⟩
  · obtain rfl : t = tLast := Fin.ext (eq_24 N_7 t ((flush7_2 t).mp hf))
    show (cfg7.win 2).cut (grid7.coords tLast) ((dat7 V c).after 2 tLast) = _
    rw [after7_2, (last V c).2]
    exact (Memref.read_access_unit_zero (Elt Ideal) (Pipeline.arrRef spec7 2) hz2
      (fun a => by rw [congrFun hz2 a]; simp) _).symm
  · show i ∈ ((View.whole (Pipeline.arrRef spec7 2)).slice (win7_2.rect tLast)).set
    rw [View.set_slice_whole]
    exact View.mem_set_unit_zero hz2 _ i

end Cert.GCN.KStats7

end
-- ==== Proof.KNorm8.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KNorm8

open KTile

variable (V : (c : Dev nD) → (b : Ref sig .tc) → Buf (Elt Ideal) ((c : Thread nD τ).loc b))

theorem idx : ∀ t : Fin grid8.N, Rows (win8_0.index t) t ∧ Rows (win8_1.index t) t ∧ Rows (win8_2.index t) 0
    ∧ Rows (win8_3.index t) 0 ∧ Rows (win8_4.index t) 0 ∧ Rows (win8_5.index t) 0 ∧ Rows (win8_6.index t) t := by
  decide +kernel

theorem value (c : Dev nD) : (dat8 V c).arrAt 6 cfg8.N
    = vec2 (normRelu (cur2 (V c (Pipeline.arrRef spec8 0))) (cur2 (V c (Pipeline.arrRef spec8 1)))
        (fun j => V c (Pipeline.arrRef spec8 2) (ix2 0 j)) (fun j => V c (Pipeline.arrRef spec8 3) (ix2 0 j))
        (fun j => V c (Pipeline.arrRef spec8 4) (ix2 0 j)) (fun j => V c (Pipeline.arrRef spec8 5) (ix2 0 j))) :=
  (dat8 V c).arrAt_eq_of_cover 6 _
    (fun t _ => by
      show (cfg8.win 6).cut (grid8.coords t) ((dat8 V c).after 6 t) = _
      rw [after8_6]
      exact norm_block (fun a μ v γ β x => by unfold k8_pay1; simp only [shapeCast_self]; exact norm_entry _ a μ v γ β x)
        (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        ((cfg8.win 0).blk t).view.emb ((cfg8.win 1).blk t).view.emb ((cfg8.win 6).blk t).view.emb
        ((cfg8.win 2).blk t).view.emb ((cfg8.win 3).blk t).view.emb ((cfg8.win 4).blk t).view.emb
        ((cfg8.win 5).blk t).view.emb (fun _ => ⟨rfl, rfl⟩) (fun _ => ⟨rfl, rfl⟩) (fun _ => ⟨rfl, rfl⟩) (fun _ => ⟨rfl, rfl⟩)
        (fun _ => ⟨rfl, rfl⟩) (fun _ => ⟨rfl, rfl⟩) (fun _ => ⟨rfl, rfl⟩) (idx t) _ _)
    (cover N_8 (e := fun t => ((cfg8.win 6).blk t).view.emb) (fun _ _ => ⟨rfl, rfl⟩)
      (fun t => ((cfg8.win 6).blk t).view.emb_mem_set) (fun t => (idx t).2.2.2.2.2.2) flush8_6)

end Cert.GCN.KNorm8
-- ==== Proof.KChainL2.lean ====
import proofs.«401124_j9440338117505_1_alg».proof.Proof.KChainE
import proofs.«401124_j9440338117505_1_alg».proof.Proof.KFoldChain
import proofs.«401124_j9440338117505_1_alg».proof.Proof.KLin6
import proofs.«401124_j9440338117505_1_alg».proof.Proof.KStats7
import proofs.«401124_j9440338117505_1_alg».proof.Proof.KNorm8

set_option maxRecDepth 16384

noncomputable section

open Idealize.ShloMosaic Idealize.ShloMosaic.TcCoe Idealize.SL.Sem
open Idealize.ShloMosaic.ValueIdx
open Cert.KernelIdeal Cert.KernelIdeal.Gen Cert.GCN Cert.GCN.KChain.Fold

namespace Cert.GCN.KChain.L2

variable (m : (ℓ : Loc nD τ sig) → Buf (Elt Ideal) ℓ) (ρ : Dev nD → PrngReg) (c : Dev nD)

set_option quotPrecheck false in
local notation "cwA" => m ((c.tc : Thread nD τ).loc main_arg3)
set_option quotPrecheck false in
local notation "cbA" => m ((c.tc : Thread nD τ).loc main_arg4)
set_option quotPrecheck false in
local notation "gA" => m ((c.tc : Thread nD τ).loc main_arg5)
set_option quotPrecheck false in
local notation "beA" => m ((c.tc : Thread nD τ).loc main_arg6)

theorem kc_X : W16 m ρ c (Proc.devRef .tc main_v96) = W15 m ρ c (Proc.devRef .tc main_v96) :=
  (W16_arr m ρ c 0).trans (((dat6 (V15 m ρ) c).arrAt_in 0 rfl _).trans (A_eq6 (V15 m ρ) c 0))
theorem ke_agg : W18 m ρ c (Proc.devRef .tc main_v114) = W17 m ρ c (Proc.devRef .tc main_v114) :=
  (W18_arr m ρ c 0).trans (((dat7 (V17 m ρ) c).arrAt_in 0 rfl _).trans (A_eq7 (V17 m ρ) c 0))

theorem wt_of (V : Valuation τ sig (Elt Ideal)) (p : (⟨3, ![4, 128, 128]⟩ : Shape).Idx → EReal)
    (hp : V (Proc.devRef .tc main_arg3) = p) : StableHlo.after hostOps6 V (Proc.devRef .tc main_v98) = vec2 (Wl p (2 : Fin 4)) := by
  open Idealize.ShloMosaic.StableHlo in after_results_simp
  rw [hp]; exact mat_read 2 _ p

theorem bias_of (V : Valuation τ sig (Elt Ideal)) (p : (⟨2, ![4, 128]⟩ : Shape).Idx → EReal)
    (hp : V (Proc.devRef .tc main_arg4) = p) (j : Fin 128) : StableHlo.after hostOps6 V (Proc.devRef .tc main_v101) (ix2 0 j) = rowl p (2 : Fin 4) j := by
  open Idealize.ShloMosaic.StableHlo in after_results_simp
  rw [hp]; exact row_read 2 _ p j

theorem agg_of (V : Valuation τ sig (Elt Ideal)) (e : IVec S2x600000 32) (h : FVec Ideal S100000x128 .f32)
    (hs : V (Proc.devRef .tc main_v3) = Ops.srcV e) (hd : V (Proc.devRef .tc main_v6) = Ops.dstV e)
    (hn : V (Proc.devRef .tc main_v32) = Ops.nrmV (F := Ideal) e) (hh : V (Proc.devRef .tc main_v102) = h) :
    StableHlo.after hostOps7 V (Proc.devRef .tc main_v114) = Ops.aggV (F := Ideal) e h := by
  open Idealize.ShloMosaic.StableHlo in after_results_simp
  rw [hs, hd, hn, hh]; rfl

theorem mean_of (V : Valuation τ sig (Elt Ideal)) (A : Mat 100000 128)
    (hs : V (Proc.devRef .tc main_v115_0) = fun i => colSum A (i 1)) (j : Fin 128) :
    StableHlo.after hostOps8 V (Proc.devRef .tc main_v117) (ix2 0 j) = mean A j := by
  open Idealize.ShloMosaic.StableHlo in after_results_simp
  rw [hs]; rfl

theorem var_of (V : Valuation τ sig (Elt Ideal)) (A : Mat 100000 128)
    (hs : V (Proc.devRef .tc main_v115_0) = fun i => colSum A (i 1))
    (hq : V (Proc.devRef .tc main_v115_1) = fun i => colSum (fun r j => A r j * A r j) (i 1)) (j : Fin 128) :
    StableHlo.after hostOps8 V (Proc.devRef .tc main_v121) (ix2 0 j) = varK A j := by
  open Idealize.ShloMosaic.StableHlo in after_results_simp
  rw [hs, hq]; rfl

theorem gam_of (V : Valuation τ sig (Elt Ideal)) (p : (⟨2, ![4, 128]⟩ : Shape).Idx → EReal)
    (hp : V (Proc.devRef .tc main_arg5) = p) (j : Fin 128) : StableHlo.after hostOps8 V (Proc.devRef .tc main_v124) (ix2 0 j) = rowl p (2 : Fin 4) j := by
  open Idealize.ShloMosaic.StableHlo in after_results_simp
  rw [hp]; exact row_read 2 _ p j

theorem bet_of (V : Valuation τ sig (Elt Ideal)) (p : (⟨2, ![4, 128]⟩ : Shape).Idx → EReal)
    (hp : V (Proc.devRef .tc main_arg6) = p) (j : Fin 128) : StableHlo.after hostOps8 V (Proc.devRef .tc main_v127) (ix2 0 j) = rowl p (2 : Fin 4) j := by
  open Idealize.ShloMosaic.StableHlo in after_results_simp
  rw [hp]; exact row_read 2 _ p j

-- x W + b with the layer's own weight matrix and bias row
theorem lin_out (X : Mat 100000 128) (hX : W14 m ρ c (Proc.devRef .tc main_v96) = vec2 X) :
    W16 m ρ c (Proc.devRef .tc main_v102) = vec2 (lin X (Wl cwA (2 : Fin 4)) (rowl cbA (2 : Fin 4))) :=
    (W16_arr m ρ c 3).trans ((KLin6.value (V15 m ρ) c).trans (lin_of ((keep6 (W14 m ρ c) main_v96 (by decide)).trans hX)
      (wt_of (W14 m ρ c) _ ((c14 m ρ c main_arg3 (by decide)).trans (p3 m ρ c main_arg3 (by decide)))) (bias_of (W14 m ρ c) _ ((c14 m ρ c main_arg4 (by decide)).trans (p3 m ρ c main_arg4 (by decide))))))

-- the aggregated x W + b normalised by its column mean and variance, scaled, shifted, rectified, plus x
theorem layer (X : Mat 100000 128) (hX : W14 m ρ c (Proc.devRef .tc main_v96) = vec2 X) :
    W20 m ρ c (Proc.devRef .tc main_v128)
      = vec2 (layerK (Ops.aggC (ei m c)) X (Wl cwA (2 : Fin 4)) (rowl cbA (2 : Fin 4)) (rowl gA (2 : Fin 4)) (rowl beA (2 : Fin 4))) := by
  unfold layerK
  have hagg := agg_of (W16 m ρ c) (ei m c) _ ((c16 m ρ c main_v3 (by decide)).trans (W3_src m ρ c))
    ((c16 m ρ c main_v6 (by decide)).trans (W3_dst m ρ c)) ((c16 m ρ c main_v32 (by decide)).trans (W3_nrm m ρ c)) (lin_out m ρ c X hX)
  generalize lin X (Wl cwA (2 : Fin 4)) (rowl cbA (2 : Fin 4)) = H at hagg ⊢
  have hA : cur2 (V17 m ρ c (Pipeline.arrRef spec7 0)) = Ops.aggC (ei m c) H := congrArg cur2 hagg
  generalize Ops.aggC (ei m c) H = A at hA ⊢
  have hs := (W18_arr m ρ c 1).trans (KStats7.value_sum (V17 m ρ) c)
  have hq := (W18_arr m ρ c 2).trans (KStats7.value_sumsq (V17 m ρ) c)
  rw [hA] at hs hq
  have a5 : cur2 (V19 m ρ c (Pipeline.arrRef spec8 0)) = A :=
    (congrArg cur2 ((keep8 (W18 m ρ c) main_v114 (by decide)).trans (ke_agg m ρ c))).trans hA
  have x5 : V19 m ρ c (Pipeline.arrRef spec8 1) = vec2 X :=
    (keep8 (W18 m ρ c) main_v96 (by decide)).trans ((W18_of_ne m ρ c main_v96 (by decide)).trans
      ((keep7 (W16 m ρ c) main_v96 (by decide)).trans ((kc_X m ρ c).trans ((keep6 (W14 m ρ c) main_v96 (by decide)).trans hX))))
  exact (W20_arr m ρ c 6).trans ((KNorm8.value (V19 m ρ) c).trans (norm_of a5 x5
    (mean_of (W18 m ρ c) A hs) (var_of (W18 m ρ c) A hs hq)
    (gam_of (W18 m ρ c) _ ((c18 m ρ c main_arg5 (by decide)).trans (p3 m ρ c main_arg5 (by decide))))
    (bet_of (W18 m ρ c) _ ((c18 m ρ c main_arg6 (by decide)).trans (p3 m ρ c main_arg6 (by decide))))))

end Cert.GCN.KChain.L2

end
-- ==== Proof.KLin9.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KLin9

open KTile

variable (V : (c : Dev nD) → (b : Ref sig .tc) → Buf (Elt Ideal) ((c : Thread nD τ).loc b))

theorem idx : ∀ t : Fin grid9.N, Rows (win9_0.index t) t ∧ Rows (win9_1.index t) 0 ∧ Rows (win9_2.index t) 0
    ∧ Rows (win9_3.index t) t := by
  decide +kernel

theorem value (c : Dev nD) : (dat9 V c).arrAt 3 cfg9.N
    = vec2 (lin (cur2 (V c (Pipeline.arrRef spec9 0))) (cur2 (V c (Pipeline.arrRef spec9 1)))
        (fun j => V c (Pipeline.arrRef spec9 2) (ix2 0 j))) :=
  (dat9 V c).arrAt_eq_of_cover 3 _
    (fun t _ => by
      show (cfg9.win 3).cut (grid9.coords t) ((dat9 V c).after 3 t) = _
      rw [after9_3]
      exact lin_block (fun x0 x1 x2 => by unfold k9_pay1; simp only [shapeCast_self]; exact lin_entry _ _ x0 x1 x2)
        (V c (Pipeline.arrRef spec9 0)) (V c (Pipeline.arrRef spec9 1)) (V c (Pipeline.arrRef spec9 2))
        ((cfg9.win 0).blk t).view.emb ((cfg9.win 3).blk t).view.emb ((cfg9.win 1).blk t).view.emb
        ((cfg9.win 2).blk t).view.emb (fun _ => ⟨rfl, rfl⟩) (fun _ => ⟨rfl, rfl⟩) (fun _ => ⟨rfl, rfl⟩) (fun _ => ⟨rfl, rfl⟩)
        (idx t) _ _ _)
    (cover N_9 (e := fun t => ((cfg9.win 3).blk t).view.emb) (fun _ _ => ⟨rfl, rfl⟩)
      (fun t => ((cfg9.win 3).blk t).view.emb_mem_set) (fun t => (idx t).2.2.2) flush9_3)

end Cert.GCN.KLin9
-- ==== Proof.KStats10.lean ====
import proofs.«401124_j9440338117505_1_alg».proof.Proof.Gen.KernelIdeal.Frame
import proofs.«401124_j9440338117505_1_alg».proof.Proof.KAcc

noncomputable section

namespace Cert.GCN.KStats10

open Cert.KernelIdeal Cert.KernelIdeal.Gen Cert.GCN.KAcc
open Idealize.ShloMosaic Idealize.ShloMosaic.TcCoe Idealize.ShloMosaic.Tactic Idealize.ShloMosaic.ValueIdx
open Idealize.SL.Sem
open Idealize.ShloMosaic.Pipeline (Dat Cfg Window)

variable (V : (c : Dev nD) → (b : Ref sig .tc) → Buf (Elt Ideal) ((c : Thread nD τ).loc b)) (c : Dev nD)

/-- At the first point both rows are the zero rows updated by the row block. -/
theorem step_A (t : Fin cfg10.N) (h0 : t.val % 25 = 0) : outsAt10 V c t.val t.isLt
    = (k10_pay4 (iblk10 V c 0 t) (k10_pay1 (F := Ideal)), k10_pay5 (iblk10 V c 0 t) (k10_pay2 (F := Ideal))) := by
  rw [outsAt10_A V c t h0]
  unfold out10_A_1 out10_A_2
  rw [View.read_writes_eq_canon _ _ _ (cover10_A_1 _ _ _ _ _ _ _ _ _ _),
    View.read_writes_eq_canon _ _ _ (cover10_A_2 _ _ _ _ _ _ _ _ _ _)]
  unfold kernelRun10_A
  dsimp only
  sl_unfold_words
  simp only [View.canon_cons_unit_zero (S := S1x128) hz, View.readCov_unit_zero (S := S1x128) _ hz, View.readAt_eq_ld,
    (hs10_0 t).read_unread, View.ld_unit_zero (S := S4000x128) hz]

/-- At a later point each row is the update, by the row block, of what the point before left. -/
theorem step_B (t : Fin cfg10.N) (h0 : ¬t.val % 25 = 0) : outsAt10 V c t.val t.isLt
    = (k10_pay4 (iblk10 V c 0 t) (outsAt10 V c (t.val - 1) (Nat.lt_of_le_of_lt (Nat.sub_le _ _) t.isLt)).1,
      k10_pay5 (iblk10 V c 0 t) (outsAt10 V c (t.val - 1) (Nat.lt_of_le_of_lt (Nat.sub_le _ _) t.isLt)).2) := by
  rw [outsAt10_B V c t h0]
  unfold out10_B_1 out10_B_2
  rw [View.read_writes_eq_canon _ _ _ (cover10_B_1 _ _ _ _ _ _ _ _ _ _ _ _),
    View.read_writes_eq_canon _ _ _ (cover10_B_2 _ _ _ _ _ _ _ _ _ _ _ _)]
  unfold kernelRun10_B
  dsimp only
  sl_unfold_words
  simp only [View.canon_unit_zero (S := S1x128) hz, View.readAt_eq_ld, (hs10_0 t).read_unread, (hs10_1 t).read_unread,
    (hs10_2 t).read_unread, View.ld_unit_zero (S := S4000x128) hz, View.ld_unit_zero (S := S1x128) hz]

theorem idx_facts : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

/-- Row r of the block at point t is row 4000 t + r of the array. -/
theorem blk_apply (t : Fin cfg10.N) (r : Fin 4000) (j : Fin 128) : iblk10 V c 0 t (ix2 r j)
    = V c (Pipeline.arrRef spec10 0) (ix2 ⟨t.val * 4000 + r.val, row_lt (lt_of_lt_of_eq t.isLt N_10) r⟩ j) := by
  obtain ⟨e0, e1⟩ := idx_facts t
  show V c (Pipeline.arrRef spec10 0) (((cfg10.win 0).blk t).view.emb (ix2 r j)) = _
  congr 1
  funext a; apply Fin.ext
  match a with
  | ⟨0, _⟩ => show win10_0.index t (0 : Fin 2) * 4000 + 1 * r.val = t.val * 4000 + r.val; omega
  | ⟨1, _⟩ => show win10_0.index t (1 : Fin 2) * 128 + 1 * j.val = j.val; omega

def tLast : Fin cfg10.N := ⟨24, by rw [show cfg10.N = 25 from N_10]; decide⟩

theorem last : (outsAt10 V c tLast.val tLast.isLt).1 = (fun i => colSum (cur2 (V c (Pipeline.arrRef spec10 0))) (i 1))
    ∧ (outsAt10 V c tLast.val tLast.isLt).2
      = fun i => colSum (fun r j => cur2 (V c (Pipeline.arrRef spec10 0)) r j * cur2 (V c (Pipeline.arrRef spec10 0)) r j) (i 1) :=
  stats_last N_10 (iblk10 V c 0) _ (blk_apply V c) (outsAt10 V c) (step_A V c) (step_B V c) tLast.isLt

/-- The last point's block of either row sits at offset zero. -/
theorem hz1 : (fun a => win10_1.index tLast a * (Pipeline.arrRef spec10 1).ty.shape.size a) = fun _ => 0 :=
  funext fun a => by fin_cases a <;> decide
theorem hz2 : (fun a => win10_2.index tLast a * (Pipeline.arrRef spec10 2).ty.shape.size a) = fun _ => 0 :=
  funext fun a => by fin_cases a <;> decide

/-- The last point's block is the whole row, which by then holds the column sums over all rows. -/
theorem value_sum : (dat10 V c).arrAt 1 cfg10.N = fun i => colSum (cur2 (V c (Pipeline.arrRef spec10 0))) (i 1) := by
  refine (dat10 V c).arrAt_eq_of_cover 1 _ (fun t hf => ?_) fun i => ⟨tLast, (flush10_1 tLast).mpr rfl, ?_⟩
  · obtain rfl : t = tLast := Fin.ext (eq_24 N_10 t ((flush10_1 t).mp hf))
    show (cfg10.win 1).cut (grid10.coords tLast) ((dat10 V c).after 1 tLast) = _
    rw [after10_1, (last V c).1]
    exact (Memref.read_access_unit_zero (Elt Ideal) (Pipeline.arrRef spec10 1) hz1
      (fun a => by rw [congrFun hz1 a]; simp) _).symm
  · show i ∈ ((View.whole (Pipeline.arrRef spec10 1)).slice (win10_1.rect tLast)).set
    rw [View.set_slice_whole]
    exact View.mem_set_unit_zero hz1 _ i

/-- The same for the column sums of squares. -/
theorem value_sumsq : (dat10 V c).arrAt 2 cfg10.N
    = fun i => colSum (fun r j => cur2 (V c (Pipeline.arrRef spec10 0)) r j * cur2 (V c (Pipeline.arrRef spec10 0)) r j) (i 1) := by
  refine (dat10 V c).arrAt_eq_of_cover 2 _ (fun t hf => ?_) fun i => ⟨tLast, (flush10_2 tLast).mpr rfl, ?_⟩
  · obtain rfl : t = tLast := Fin.ext (eq_24 N_10 t ((flush10_2 t).mp hf))
    show (cfg10.win 2).cut (grid10.coords tLast) ((dat10 V c).after 2 tLast) = _
    rw [after10_2, (last V c).2]
    exact (Memref.read_access_unit_zero (Elt Ideal) (Pipeline.arrRef spec10 2) hz2
      (fun a => by rw [congrFun hz2 a]; simp) _).symm
  · show i ∈ ((View.whole (Pipeline.arrRef spec10 2)).slice (win10_2.rect tLast)).set
    rw [View.set_slice_whole]
    exact View.mem_set_unit_zero hz2 _ i

end Cert.GCN.KStats10

end
-- ==== Proof.KNorm11.lean ====
import proofs.«401124_j9440338117505_1_alg».proof.Proof.Gen.KernelIdeal.Frame
import proofs.«401124_j9440338117505_1_alg».proof.Proof.KTile

open Idealize.ShloMosaic Idealize.ShloMosaic.TcCoe Idealize.ShloMosaic.ValueIdx Cert.KernelIdeal Cert.KernelIdeal.Gen

namespace Cert.GCN.KNorm11

open KTile

variable (V : (c : Dev nD) → (b : Ref sig .tc) → Buf (Elt Ideal) ((c : Thread nD τ).loc b))

theorem idx : ∀ t : Fin grid11.N, Rows (win11_0.index t) t ∧ Rows (win11_1.index t) t ∧ Rows (win11_2.index t) 0
    ∧ Rows (win11_3.index t) 0 ∧ Rows (win11_4.index t) 0 ∧ Rows (win11_5.index t) 0 ∧ Rows (win11_6.index t) t := by
  decide +kernel

theorem value (c : Dev nD) : (dat11 V c).arrAt 6 cfg11.N
    = vec2 (normRelu (cur2 (V c (Pipeline.arrRef spec11 0))) (cur2 (V c (Pipeline.arrRef spec11 1)))
        (fun j => V c (Pipeline.arrRef spec11 2) (ix2 0 j)) (fun j => V c (Pipeline.arrRef spec11 3) (ix2 0 j))
        (fun j => V c (Pipeline.arrRef spec11 4) (ix2 0 j)) (fun j => V c (Pipeline.arrRef spec11 5) (ix2 0 j))) :=
  (dat11 V c).arrAt_eq_of_cover 6 _
    (fun t _ => by
      show (cfg11.win 6).cut (grid11.coords t) ((dat11 V c).after 6 t) = _
      rw [after11_6]
      exact norm_block (fun a μ v γ β x => by unfold k11_pay1; simp only [shapeCast_self]; exact norm_entry _ a μ v γ β x)
        (V c (Pipeline.arrRef spec11 0)) (V c (Pipeline.arrRef spec11 1)) (V c (Pipeline.arrRef spec11 2))
        (V c (Pipeline.arrRef spec11 3)) (V c (Pipeline.arrRef spec11 4)) (V c (Pipeline.arrRef spec11 5))
        ((cfg11.win 0).blk t).view.emb ((cfg11.win 1).blk t).view.emb ((cfg11.win 6).blk t).view.emb
        ((cfg11.win 2).blk t).view.emb ((cfg11.win 3).blk t).view.emb ((cfg11.win 4).blk t).view.emb
        ((cfg11.win 5).blk t).view.emb (fun _ => ⟨rfl, rfl⟩) (fun _ => ⟨rfl, rfl⟩) (fun _ => ⟨rfl, rfl⟩) (fun _ => ⟨rfl, rfl⟩)
        (fun _ => ⟨rfl, rfl⟩) (fun _ => ⟨rfl, rfl⟩) (fun _ => ⟨rfl, rfl⟩) (idx t) _ _)
    (cover N_11 (e := fun t => ((cfg11.win 6).blk t).view.emb) (fun _ _ => ⟨rfl, rfl⟩)
      (fun t => ((cfg11.win 6).blk t).view.emb_mem_set) (fun t => (idx t).2.2.2.2.2.2) flush11_6)

end Cert.GCN.KNorm11
-- ==== Proof.KChainL3.lean ====
import proofs.«401124_j9440338117505_1_alg».proof.Proof.KChainE
import proofs.«401124_j9440338117505_1_alg».proof.Proof.KFoldChain
import proofs.«401124_j9440338117505_1_alg».proof.Proof.KLin9
import proofs.«401124_j9440338117505_1_alg».proof.Proof.KStats10
import proofs.«401124_j9440338117505_1_alg».proof.Proof.KNorm11

set_option maxRecDepth 16384

noncomputable section

open Idealize.ShloMosaic Idealize.ShloMosaic.TcCoe Idealize.SL.Sem
open Idealize.ShloMosaic.ValueIdx
open Cert.KernelIdeal Cert.KernelIdeal.Gen Cert.GCN Cert.GCN.KChain.Fold

namespace Cert.GCN.KChain.L3

variable (m : (ℓ : Loc nD τ sig) → Buf (Elt Ideal) ℓ) (ρ : Dev nD → PrngReg) (c : Dev nD)

set_option quotPrecheck false in
local notation "cwA" => m ((c.tc : Thread nD τ).loc main_arg3)
set_option quotPrecheck false in
local notation "cbA" => m ((c.tc : Thread nD τ).loc main_arg4)
set_option quotPrecheck false in
local notation "gA" => m ((c.tc : Thread nD τ).loc main_arg5)
set_option quotPrecheck false in
local notation "beA" => m ((c.tc : Thread nD τ).loc main_arg6)

theorem kc_X : W22 m ρ c (Proc.devRef .tc main_v128) = W21 m ρ c (Proc.devRef .tc main_v128) :=
  (W22_arr m ρ c 0).trans (((dat9 (V21 m ρ) c).arrAt_in 0 rfl _).trans (A_eq9 (V21 m ρ) c 0))
theorem ke_agg : W24 m ρ c (Proc.devRef .tc main_v146) = W23 m ρ c (Proc.devRef .tc main_v146) :=
  (W24_arr m ρ c 0).trans (((dat10 (V23 m ρ) c).arrAt_in 0 rfl _).trans (A_eq10 (V23 m ρ) c 0))

theorem wt_of (V : Valuation τ sig (Elt Ideal)) (p : (⟨3, ![4, 128, 128]⟩ : Shape).Idx → EReal)
    (hp : V (Proc.devRef .tc main_arg3) = p) : StableHlo.after hostOps9 V (Proc.devRef .tc main_v130) = vec2 (Wl p (3 : Fin 4)) := by
  open Idealize.ShloMosaic.StableHlo in after_results_simp
  rw [hp]; exact mat_read 3 _ p

theorem bias_of (V : Valuation τ sig (Elt Ideal)) (p : (⟨2, ![4, 128]⟩ : Shape).Idx → EReal)
    (hp : V (Proc.devRef .tc main_arg4) = p) (j : Fin 128) : StableHlo.after hostOps9 V (Proc.devRef .tc main_v133) (ix2 0 j) = rowl p (3 : Fin 4) j := by
  open Idealize.ShloMosaic.StableHlo in after_results_simp
  rw [hp]; exact row_read 3 _ p j

theorem agg_of (V : Valuation τ sig (Elt Ideal)) (e : IVec S2x600000 32) (h : FVec Ideal S100000x128 .f32)
    (hs : V (Proc.devRef .tc main_v3) = Ops.srcV e) (hd : V (Proc.devRef .tc main_v6) = Ops.dstV e)
    (hn : V (Proc.devRef .tc main_v32) = Ops.nrmV (F := Ideal) e) (hh : V (Proc.devRef .tc main_v134) = h) :
    StableHlo.after hostOps10 V (Proc.devRef .tc main_v146) = Ops.aggV (F := Ideal) e h := by
  open Idealize.ShloMosaic.StableHlo in after_results_simp
  rw [hs, hd, hn, hh]; rfl

theorem mean_of (V : Valuation τ sig (Elt Ideal)) (A : Mat 100000 128)
    (hs : V (Proc.devRef .tc main_v147_0) = fun i => colSum A (i 1)) (j : Fin 128) :
    StableHlo.after hostOps11 V (Proc.devRef .tc main_v149) (ix2 0 j) = mean A j := by
  open Idealize.ShloMosaic.StableHlo in after_results_simp
  rw [hs]; rfl

theorem var_of (V : Valuation τ sig (Elt Ideal)) (A : Mat 100000 128)
    (hs : V (Proc.devRef .tc main_v147_0) = fun i => colSum A (i 1))
    (hq : V (Proc.devRef .tc main_v147_1) = fun i => colSum (fun r j => A r j * A r j) (i 1)) (j : Fin 128) :
    StableHlo.after hostOps11 V (Proc.devRef .tc main_v153) (ix2 0 j) = varK A j := by
  open Idealize.ShloMosaic.StableHlo in after_results_simp
  rw [hs, hq]; rfl

theorem gam_of (V : Valuation τ sig (Elt Ideal)) (p : (⟨2, ![4, 128]⟩ : Shape).Idx → EReal)
    (hp : V (Proc.devRef .tc main_arg5) = p) (j : Fin 128) : StableHlo.after hostOps11 V (Proc.devRef .tc main_v156) (ix2 0 j) = rowl p (3 : Fin 4) j := by
  open Idealize.ShloMosaic.StableHlo in after_results_simp
  rw [hp]; exact row_read 3 _ p j

theorem bet_of (V : Valuation τ sig (Elt Ideal)) (p : (⟨2, ![4, 128]⟩ : Shape).Idx → EReal)
    (hp : V (Proc.devRef .tc main_arg6) = p) (j : Fin 128) : StableHlo.after hostOps11 V (Proc.devRef .tc main_v159) (ix2 0 j) = rowl p (3 : Fin 4) j := by
  open Idealize.ShloMosaic.StableHlo in after_results_simp
  rw [hp]; exact row_read 3 _ p j

-- x W + b with the layer's own weight matrix and bias row
theorem lin_out (X : Mat 100000 128) (hX : W20 m ρ c (Proc.devRef .tc main_v128) = vec2 X) :
    W22 m ρ c (Proc.devRef .tc main_v134) = vec2 (lin X (Wl cwA (3 : Fin 4)) (rowl cbA (3 : Fin 4))) :=
    (W22_arr m ρ c 3).trans ((KLin9.value (V21 m ρ) c).trans (lin_of ((keep9 (W20 m ρ c) main_v128 (by decide)).trans hX)
      (wt_of (W20 m ρ c) _ ((c20 m ρ c main_arg3 (by decide)).trans (p3 m ρ c main_arg3 (by decide)))) (bias_of (W20 m ρ c) _ ((c20 m ρ c main_arg4 (by decide)).trans (p3 m ρ c main_arg4 (by decide))))))

-- the aggregated x W + b normalised by its column mean and variance, scaled, shifted, rectified, plus x
theorem layer (X : Mat 100000 128) (hX : W20 m ρ c (Proc.devRef .tc main_v128) = vec2 X) :
    W26 m ρ c (Proc.devRef .tc main_v160)
      = vec2 (layerK (Ops.aggC (ei m c)) X (Wl cwA (3 : Fin 4)) (rowl cbA (3 : Fin 4)) (rowl gA (3 : Fin 4)) (rowl beA (3 : Fin 4))) := by
  unfold layerK
  have hagg := agg_of (W22 m ρ c) (ei m c) _ ((c22 m ρ c main_v3 (by decide)).trans (W3_src m ρ c))
    ((c22 m ρ c main_v6 (by decide)).trans (W3_dst m ρ c)) ((c22 m ρ c main_v32 (by decide)).trans (W3_nrm m ρ c)) (lin_out m ρ c X hX)
  generalize lin X (Wl cwA (3 : Fin 4)) (rowl cbA (3 : Fin 4)) = H at hagg ⊢
  have hA : cur2 (V23 m ρ c (Pipeline.arrRef spec10 0)) = Ops.aggC (ei m c) H := congrArg cur2 hagg
  generalize Ops.aggC (ei m c) H = A at hA ⊢
  have hs := (W24_arr m ρ c 1).trans (KStats10.value_sum (V23 m ρ) c)
  have hq := (W24_arr m ρ c 2).trans (KStats10.value_sumsq (V23 m ρ) c)
  rw [hA] at hs hq
  have a5 : cur2 (V25 m ρ c (Pipeline.arrRef spec11 0)) = A :=
    (congrArg cur2 ((keep11 (W24 m ρ c) main_v146 (by decide)).trans (ke_agg m ρ c))).trans hA
  have x5 : V25 m ρ c (Pipeline.arrRef spec11 1) = vec2 X :=
    (keep11 (W24 m ρ c) main_v128 (by decide)).trans ((W24_of_ne m ρ c main_v128 (by decide)).trans
      ((keep10 (W22 m ρ c) main_v128 (by decide)).trans ((kc_X m ρ c).trans ((keep9 (W20 m ρ c) main_v128 (by decide)).trans hX))))
  exact (W26_arr m ρ c 6).trans ((KNorm11.value (V25 m ρ) c).trans (norm_of a5 x5
    (mean_of (W24 m ρ c) A hs) (var_of (W24 m ρ c) A hs hq)
    (gam_of (W24 m ρ c) _ ((c24 m ρ c main_arg5 (by decide)).trans (p3 m ρ c main_arg5 (by decide))))
    (bet_of (W24 m ρ c) _ ((c24 m ρ c main_arg6 (by decide)).trans (p3 m ρ c main_arg6 (by decide))))))

end Cert.GCN.KChain.L3

end
-- ==== Proof.KChainLayers.lean ====
import proofs.«401124_j9440338117505_1_alg».proof.Proof.KChainL0
import proofs.«401124_j9440338117505_1_alg».proof.Proof.KChainL1
import proofs.«401124_j9440338117505_1_alg».proof.Proof.KChainL2
import proofs.«401124_j9440338117505_1_alg».proof.Proof.KChainL3

set_option maxRecDepth 16384

noncomputable section

open Idealize.ShloMosaic Idealize.ShloMosaic.TcCoe Idealize.SL.Sem
open Idealize.ShloMosaic.ValueIdx
open Cert.KernelIdeal Cert.KernelIdeal.Gen Cert.GCN Cert.GCN.KChain.Fold

namespace Cert.GCN.KChain

variable (m : (ℓ : Loc nD τ sig) → Buf (Elt Ideal) ℓ) (ρ : Dev nD → PrngReg)

-- each layer's result is the next layer's input
theorem x4_value (c : Dev nD) : W26 m ρ c (Proc.devRef .tc main_v160)
    = vec2 (stackK (Ops.aggC (m ((c.tc : Thread nD τ).loc main_arg1))) (cur2 (m ((c.tc : Thread nD τ).loc main_arg0))) (m ((c.tc : Thread nD τ).loc main_arg3)) (m ((c.tc : Thread nD τ).loc main_arg4)) (m ((c.tc : Thread nD τ).loc main_arg5)) (m ((c.tc : Thread nD τ).loc main_arg6))) :=
  L3.layer m ρ c _ (L2.layer m ρ c _ (L1.layer m ρ c _ (L0.layer m ρ c _
    ((p2 m ρ c main_arg0 (by decide)).trans (vec2_cur2 (n := 100000) (k := 128) (m ((c.tc : Thread nD τ).loc main_arg0))).symm))))

end Cert.GCN.KChain

end
-- ==== Proof.KPool12.lean ====
import proofs.«401124_j9440338117505_1_alg».proof.Proof.Gen.KernelIdeal.Frame
import proofs.«401124_j9440338117505_1_alg».proof.Proof.KAcc

noncomputable section

namespace Cert.GCN.KPool12

open Cert.KernelIdeal Cert.KernelIdeal.Gen Cert.GCN.KAcc
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b)) (c : Dev nD)

abbrev oh : Mat 100000 64 := cur2 (n := 100000) (k := 64) (V c (Pipeline.arrRef spec12 0))
abbrev xs : Mat 100000 128 := cur2 (n := 100000) (k := 128) (V c (Pipeline.arrRef spec12 1))

/-- At the first point the block is the zero block plus the first tile's product. -/
theorem step_A (t : Fin cfg12.N) (h0 : t.val % 25 = 0) :
    outsAt12 V c t.val t.isLt = k12_pay2 (iblk12 V c 0 t) (iblk12 V c 1 t) (k12_pay1 (F := Ideal)) := by
  rw [outsAt12_A V c t h0]
  unfold out12_A_2
  rw [View.read_writes_eq_canon _ _ _ (cover12_A_2 _ _ _ _ _ _ _ _ _ _ _)]
  unfold kernelRun12_A
  dsimp only
  sl_unfold_words
  rw [View.canon_cons_unit_zero (S := S64x128) hz, View.readCov_unit_zero (S := S64x128) _ hz]
  simp only [View.readAt_eq_ld, (hs12_0 t).read_unread, (hs12_1 t).read_unread, View.ld_unit_zero (S := S4000x64) hz,
    View.ld_unit_zero (S := S4000x128) hz]

/-- At a later point the block is what the point before left plus this tile's product. -/
theorem step_B (t : Fin cfg12.N) (h0 : ¬t.val % 25 = 0) : outsAt12 V c t.val t.isLt
    = k12_pay2 (iblk12 V c 0 t) (iblk12 V c 1 t) (outsAt12 V c (t.val - 1) (Nat.lt_of_le_of_lt (Nat.sub_le _ _) t.isLt)) := by
  rw [outsAt12_B V c t h0]
  unfold out12_B_2
  rw [View.read_writes_eq_canon _ _ _ (cover12_B_2 _ _ _ _ _ _ _ _ _ _ _ _)]
  unfold kernelRun12_B
  dsimp only
  sl_unfold_words
  rw [View.canon_unit_zero hz]
  simp only [View.readAt_eq_ld, (hs12_0 t).read_unread, (hs12_1 t).read_unread, (hs12_2 t).read_unread,
    View.ld_unit_zero (S := S4000x64) hz, View.ld_unit_zero (S := S4000x128) hz, View.ld_unit_zero (S := S64x128) hz]

/-- The product contracts the row axis of both blocks. -/
theorem mm_apply (l : FVec Ideal S4000x64 .bf16) (r : FVec Ideal S4000x128 .bf16) (g : Fin 64) (d : Fin 128) :
    matmul dot_S4000x64_S4000x128_S64x128_0_0_1_1_n_n none l r (constant S64x128 .f32 0x00000000#32) (ix2 g d) = ∑ q : Fin 4000, l (ix2 q g) * r (ix2 q d) := by
  refine (Ideal.matmul_constant_zero_apply dot_S4000x64_S4000x128_S64x128_0_0_1_1_n_n none l r (ix2 g d)).trans ?_
  rw [← Equiv.sum_comp (contrEquiv1 dot_S4000x64_S4000x128_S64x128_0_0_1_1_n_n 4000 rfl rfl).symm]
  refine Finset.sum_congr rfl fun q _ => ?_
  have hk := contrEquiv1_symm_val dot_S4000x64_S4000x128_S64x128_0_0_1_1_n_n 4000 rfl rfl q
  congr 2 <;> funext a <;> apply Fin.ext <;> match a with
    | ⟨0, _⟩ => exact hk
    | ⟨1, _⟩ => rfl

/-- The update at (g, d): what was held plus the sum over the tile's rows of membership times feature. -/
theorem pay_apply (x0 : Vec Ideal S4000x64 .f32) (x1 : Vec Ideal S4000x128 .f32) (xo : Vec Ideal S64x128 .f32)
    (g : Fin 64) (d : Fin 128) :
    k12_pay2 x0 x1 xo (ix2 g d) = xo (ix2 g d) + ∑ q : Fin 4000, x0 (ix2 q g) * x1 (ix2 q d) := by
  unfold k12_pay2
  simp only [shapeCast_self]
  exact congrArg₂ (· + ·) rfl (mm_apply _ _ g d)

theorem idx_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0 :=
  (by decide +kernel : ∀ t : Fin grid12.N, _)

/-- Row q of either input's block at point t is row 4000 t + q of its array. -/
theorem blk0_apply (t : Fin cfg12.N) (q : Fin 4000) (g : Fin 64) :
    iblk12 V c 0 t (ix2 q g) = oh V c ⟨t.val * 4000 + q.val, row_lt (lt_of_lt_of_eq t.isLt N_12) q⟩ g := by
  obtain ⟨e0, e1, -⟩ := idx_facts t
  show V c (Pipeline.arrRef spec12 0) (((cfg12.win 0).blk t).view.emb (ix2 q g)) = _
  congr 1
  funext a; apply Fin.ext
  match a with
  | ⟨0, _⟩ => show win12_0.index t (0 : Fin 2) * 4000 + 1 * q.val = t.val * 4000 + q.val; omega
  | ⟨1, _⟩ => show win12_0.index t (1 : Fin 2) * 64 + 1 * g.val = g.val; omega

theorem blk1_apply (t : Fin cfg12.N) (q : Fin 4000) (d : Fin 128) :
    iblk12 V c 1 t (ix2 q d) = xs V c ⟨t.val * 4000 + q.val, row_lt (lt_of_lt_of_eq t.isLt N_12) q⟩ d := by
  obtain ⟨-, -, e0, e1, -⟩ := idx_facts t
  show V c (Pipeline.arrRef spec12 1) (((cfg12.win 1).blk t).view.emb (ix2 q d)) = _
  congr 1
  funext a; apply Fin.ext
  match a with
  | ⟨0, _⟩ => show win12_1.index t (0 : Fin 2) * 4000 + 1 * q.val = t.val * 4000 + q.val; omega
  | ⟨1, _⟩ => show win12_1.index t (1 : Fin 2) * 128 + 1 * d.val = d.val; omega

def tLast : Fin cfg12.N := ⟨24, by rw [show cfg12.N = 25 from N_12]; decide⟩

/-- After the last point the carried block holds, at (g, d), the sum over all rows. -/
theorem last : outsAt12 V c tLast.val tLast.isLt = vec2 (poolSum (oh V c) (xs V c)) := by
  funext i
  have ex : ∀ i : S64x128.Idx, ∃ (g : Fin 64) (d : Fin 128), i = ix2 g d := fun i => ⟨i 0, i 1, eq_ix2 i⟩
  have key : ∀ n (h : n < cfg12.N) (acc : Vec Ideal S64x128 .f32) (g : Fin 64) (d : Fin 128),
      k12_pay2 (iblk12 V c 0 ⟨n, h⟩) (iblk12 V c 1 ⟨n, h⟩) acc (ix2 g d)
        = acc (ix2 g d) + tile 25 4000 (fun r => oh V c r g * xs V c r d) n := fun n h acc g d => by
    rw [pay_apply]; unfold tile; rw [dif_pos (lt_of_lt_of_eq h N_12)]
    exact congrArg _ (Finset.sum_congr rfl fun q _ =>
      congrArg₂ (fun a b : EReal => a * b) (blk0_apply V c ⟨n, h⟩ q g) (blk1_apply V c ⟨n, h⟩ q d))
  refine (acc_last (β := EReal) (outsAt12 V c) (fun n h => k12_pay2 (iblk12 V c 0 ⟨n, h⟩) (iblk12 V c 1 ⟨n, h⟩) (k12_pay1 (F := Ideal)))
    (fun n h acc => k12_pay2 (iblk12 V c 0 ⟨n, h⟩) (iblk12 V c 1 ⟨n, h⟩) acc)
    (fun n i => tile 25 4000 (fun r => oh V c r (i 0) * xs V c r (i 1)) n)
    (fun n h hm => step_A V c ⟨n, h⟩ hm) (fun n h hm => step_B V c ⟨n + 1, h⟩ hm) ?_ ?_ tLast.isLt i).trans (sum_tile 25 4000 _)
  · intro h i
    obtain ⟨g, d, rfl⟩ := ex i
    exact (key 0 h _ g d).trans ((congrArg (· + _) Ideal.ofBits_zero_f32).trans (zero_add _))
  · intro n h acc i
    obtain ⟨g, d, rfl⟩ := ex i
    exact key n h acc g d

/-- The last point's block is the whole result array, which by then holds the sums over all rows. -/
theorem value : (dat12 V c).arrAt 2 cfg12.N
    = vec2 (poolSum (cur2 (n := 100000) (k := 64) (V c (Pipeline.arrRef spec12 0))) (cur2 (n := 100000) (k := 128) (V c (Pipeline.arrRef spec12 1)))) := by
  have hz2 : (fun a => win12_2.index tLast a * (Pipeline.arrRef spec12 2).ty.shape.size a) = fun _ => 0 :=
    funext fun a => by fin_cases a <;> decide
  refine (dat12 V c).arrAt_eq_of_cover 2 _ (fun t hf => ?_) fun i => ⟨tLast, (flush12_2 tLast).mpr rfl, ?_⟩
  · obtain rfl : t = tLast := Fin.ext (eq_24 N_12 t ((flush12_2 t).mp hf))
    show (cfg12.win 2).cut (grid12.coords tLast) ((dat12 V c).after 2 tLast) = _
    rw [after12_2, last]
    exact (Memref.read_access_unit_zero (Elt Ideal) (Pipeline.arrRef spec12 2) hz2
      (fun a => by rw [congrFun hz2 a]; simp) _).symm
  · show i ∈ ((View.whole (Pipeline.arrRef spec12 2)).slice (win12_2.rect tLast)).set
    rw [View.set_slice_whole]
    exact View.mem_set_unit_zero hz2 _ i

end Cert.GCN.KPool12

end
-- ==== Proof.KHead13.lean ====
import proofs.«401124_j9440338117505_1_alg».proof.Proof.Gen.KernelIdeal.Frame
import proofs.«401124_j9440338117505_1_alg».proof.Proof.Spec
import Idealize.ShloMosaic.Lib.Pipeline.Value
import Idealize.ShloMosaic.Lib.ValueIdx
import Idealize.ShloMosaic.PureOps.Ideal.Laws
import Idealize.ShloMosaic.Lib.ValueLayout

noncomputable section

namespace Cert.GCN.KHead13

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

theorem d1_lhs_0 (j : S64x64.Idx) (k : dot_S64x128_S128x64_S64x64_1_0_0_1_n_n.contr.Idx) :
    (dot_S64x128_S128x64_S64x64_1_0_0_1_n_n.lhsIdx j k 0).val = (j 0).val := rfl
theorem d1_lhs_1 (j : S64x64.Idx) (k : dot_S64x128_S128x64_S64x64_1_0_0_1_n_n.contr.Idx) :
    (dot_S64x128_S128x64_S64x64_1_0_0_1_n_n.lhsIdx j k 1).val = (k ⟨0, by decide⟩).val := rfl
theorem d1_rhs_0 (j : S64x64.Idx) (k : dot_S64x128_S128x64_S64x64_1_0_0_1_n_n.contr.Idx) :
    (dot_S64x128_S128x64_S64x64_1_0_0_1_n_n.rhsIdx j k 0).val = (k ⟨0, by decide⟩).val := rfl
theorem d1_rhs_1 (j : S64x64.Idx) (k : dot_S64x128_S128x64_S64x64_1_0_0_1_n_n.contr.Idx) :
    (dot_S64x128_S128x64_S64x64_1_0_0_1_n_n.rhsIdx j k 1).val = (j 1).val := rfl

theorem mm1_apply (l : FVec Ideal S64x128 .bf16) (r : FVec Ideal S128x64 .bf16) (g : Fin 64) (k : Fin 64) :
    matmul dot_S64x128_S128x64_S64x64_1_0_0_1_n_n none l r (constant S64x64 .f32 0x00000000#32) (ix2 g k)
      = ∑ d : Fin 128, l (ix2 g d) * r (ix2 d k) := by
  refine (Ideal.matmul_constant_zero_apply dot_S64x128_S128x64_S64x64_1_0_0_1_n_n none l r (ix2 g k)).trans ?_
  rw [← Equiv.sum_comp (contrEquiv1 dot_S64x128_S128x64_S64x64_1_0_0_1_n_n 128 rfl rfl).symm]
  refine Finset.sum_congr rfl fun d _ => ?_
  have hk := contrEquiv1_symm_val dot_S64x128_S128x64_S64x64_1_0_0_1_n_n 128 rfl rfl d
  have el : dot_S64x128_S128x64_S64x64_1_0_0_1_n_n.lhsIdx (ix2 g k) ((contrEquiv1 dot_S64x128_S128x64_S64x64_1_0_0_1_n_n 128 rfl rfl).symm d) = ix2 g d := by
    funext a; apply Fin.ext
    match a with
    | ⟨0, _⟩ => exact d1_lhs_0 _ _
    | ⟨1, _⟩ => exact (d1_lhs_1 _ _).trans hk
  have er : dot_S64x128_S128x64_S64x64_1_0_0_1_n_n.rhsIdx (ix2 g k) ((contrEquiv1 dot_S64x128_S128x64_S64x64_1_0_0_1_n_n 128 rfl rfl).symm d) = ix2 d k := by
    funext a; apply Fin.ext
    match a with
    | ⟨0, _⟩ => exact (d1_rhs_0 _ _).trans hk
    | ⟨1, _⟩ => exact d1_rhs_1 _ _
  rw [el, er]

theorem d2_lhs_0 (j : S64x2.Idx) (k : dot_S64x64_S64x2_S64x2_1_0_0_1_n_n.contr.Idx) :
    (dot_S64x64_S64x2_S64x2_1_0_0_1_n_n.lhsIdx j k 0).val = (j 0).val := rfl
theorem d2_lhs_1 (j : S64x2.Idx) (k : dot_S64x64_S64x2_S64x2_1_0_0_1_n_n.contr.Idx) :
    (dot_S64x64_S64x2_S64x2_1_0_0_1_n_n.lhsIdx j k 1).val = (k ⟨0, by decide⟩).val := rfl
theorem d2_rhs_0 (j : S64x2.Idx) (k : dot_S64x64_S64x2_S64x2_1_0_0_1_n_n.contr.Idx) :
    (dot_S64x64_S64x2_S64x2_1_0_0_1_n_n.rhsIdx j k 0).val = (k ⟨0, by decide⟩).val := rfl
theorem d2_rhs_1 (j : S64x2.Idx) (k : dot_S64x64_S64x2_S64x2_1_0_0_1_n_n.contr.Idx) :
    (dot_S64x64_S64x2_S64x2_1_0_0_1_n_n.rhsIdx j k 1).val = (j 1).val := rfl

theorem mm2_apply (l : FVec Ideal S64x64 .bf16) (r : FVec Ideal S64x2 .bf16) (g : Fin 64) (cc : Fin 2) :
    matmul dot_S64x64_S64x2_S64x2_1_0_0_1_n_n none l r (constant S64x2 .f32 0x00000000#32) (ix2 g cc)
      = ∑ k : Fin 64, l (ix2 g k) * r (ix2 k cc) := by
  refine (Ideal.matmul_constant_zero_apply dot_S64x64_S64x2_S64x2_1_0_0_1_n_n none l r (ix2 g cc)).trans ?_
  rw [← Equiv.sum_comp (contrEquiv1 dot_S64x64_S64x2_S64x2_1_0_0_1_n_n 64 rfl rfl).symm]
  refine Finset.sum_congr rfl fun k _ => ?_
  have hk := contrEquiv1_symm_val dot_S64x64_S64x2_S64x2_1_0_0_1_n_n 64 rfl rfl k
  have el : dot_S64x64_S64x2_S64x2_1_0_0_1_n_n.lhsIdx (ix2 g cc) ((contrEquiv1 dot_S64x64_S64x2_S64x2_1_0_0_1_n_n 64 rfl rfl).symm k) = ix2 g k := by
    funext a; apply Fin.ext
    match a with
    | ⟨0, _⟩ => exact d2_lhs_0 _ _
    | ⟨1, _⟩ => exact (d2_lhs_1 _ _).trans hk
  have er : dot_S64x64_S64x2_S64x2_1_0_0_1_n_n.rhsIdx (ix2 g cc) ((contrEquiv1 dot_S64x64_S64x2_S64x2_1_0_0_1_n_n 64 rfl rfl).symm k) = ix2 k cc := by
    funext a; apply Fin.ext
    match a with
    | ⟨0, _⟩ => exact (d2_rhs_0 _ _).trans hk
    | ⟨1, _⟩ => exact d2_rhs_1 _ _
  rw [el, er]

theorem pay_apply (x0 : Vec Ideal S64x128 .f32) (x1 : Vec Ideal S128x64 .f32) (x2 : Vec Ideal S1x64 .f32)
    (x3 : Vec Ideal S64x2 .f32) (x4 : Vec Ideal S1x2 .f32) (g : Fin 64) (cc : Fin 2) :
    k13_pay1 x0 x1 x2 x3 x4 (ix2 g cc)
      = (∑ k : Fin 64, max ((∑ d : Fin 128, x0 (ix2 g d) * x1 (ix2 d k)) + x2 (ix2 0 k)) 0 * x3 (ix2 k cc)) + x4 (ix2 0 cc) := by
  unfold k13_pay1
  simp only [shapeCast_self]
  refine (congrArg₂ (· + ·) (mm2_apply _ _ g cc) (broadcastTo_1b_ab_apply _ broadcasts_S1x2_S64x2 g cc)).trans ?_
  refine congrArg₂ (· + ·) (Finset.sum_congr rfl fun k _ => ?_) rfl
  refine congrArg₂ (· * ·) ?_ rfl
  exact congrArg₂ max (congrArg₂ (· + ·) (mm1_apply _ _ g k) (broadcastTo_1b_ab_apply _ broadcasts_S1x64_S64x64 g k)) Ideal.ofBits_zero_f32

theorem idx_facts : ∀ t : Fin cfg13.N,
    win13_0.index t (0 : Fin 2) = 0 ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0 :=
  (by decide +kernel : ∀ t : Fin grid13.N, _)

-- a block whose index is 0 on an axis sits at the array's own coordinate there
theorem at0 {i : ℕ} (h : i = 0) (s y : ℕ) : i * s + 1 * y = y := by subst h; omega

theorem blk0 (c : Dev nD) (t : Fin cfg13.N) : (iblk13 V c 0 t : S64x128.Idx → EReal) = V c (Pipeline.arrRef spec13 0) := by
  obtain ⟨e0, e1, -⟩ := idx_facts t
  funext y
  refine congrArg (V c (Pipeline.arrRef spec13 0)) (funext fun a => Fin.ext ?_)
  match a with
  | ⟨0, _⟩ => exact at0 e0 64 _
  | ⟨1, _⟩ => exact at0 e1 128 _

theorem blk1 (c : Dev nD) (t : Fin cfg13.N) : (iblk13 V c 1 t : S128x64.Idx → EReal) = V c (Pipeline.arrRef spec13 1) := by
  obtain ⟨-, -, e0, e1, -⟩ := idx_facts t
  funext y
  refine congrArg (V c (Pipeline.arrRef spec13 1)) (funext fun a => Fin.ext ?_)
  match a with
  | ⟨0, _⟩ => exact at0 e0 128 _
  | ⟨1, _⟩ => exact at0 e1 64 _

theorem blk2 (c : Dev nD) (t : Fin cfg13.N) : (iblk13 V c 2 t : S1x64.Idx → EReal) = V c (Pipeline.arrRef spec13 2) := by
  obtain ⟨-, -, -, -, e0, e1, -⟩ := idx_facts t
  funext y
  refine congrArg (V c (Pipeline.arrRef spec13 2)) (funext fun a => Fin.ext ?_)
  match a with
  | ⟨0, _⟩ => exact at0 e0 1 _
  | ⟨1, _⟩ => exact at0 e1 64 _

theorem blk3 (c : Dev nD) (t : Fin cfg13.N) : (iblk13 V c 3 t : S64x2.Idx → EReal) = V c (Pipeline.arrRef spec13 3) := by
  obtain ⟨-, -, -, -, -, -, e0, e1, -⟩ := idx_facts t
  funext y
  refine congrArg (V c (Pipeline.arrRef spec13 3)) (funext fun a => Fin.ext ?_)
  match a with
  | ⟨0, _⟩ => exact at0 e0 64 _
  | ⟨1, _⟩ => exact at0 e1 2 _

theorem blk4 (c : Dev nD) (t : Fin cfg13.N) : (iblk13 V c 4 t : S1x2.Idx → EReal) = V c (Pipeline.arrRef spec13 4) := by
  obtain ⟨-, -, -, -, -, -, -, -, e0, e1, -⟩ := idx_facts t
  funext y
  refine congrArg (V c (Pipeline.arrRef spec13 4)) (funext fun a => Fin.ext ?_)
  match a with
  | ⟨0, _⟩ => exact at0 e0 1 _
  | ⟨1, _⟩ => exact at0 e1 2 _

abbrev result (c : Dev nD) : S64x2.Idx → EReal :=
  vec2 (head (cur2 (n := 64) (k := 128) (V c (Pipeline.arrRef spec13 0))) (cur2 (n := 128) (k := 64) (V c (Pipeline.arrRef spec13 1)))
    (fun k => (V c (Pipeline.arrRef spec13 2) : S1x64.Idx → EReal) (ix2 0 k)) (cur2 (n := 64) (k := 2) (V c (Pipeline.arrRef spec13 3)))
    (fun k => (V c (Pipeline.arrRef spec13 4) : S1x2.Idx → EReal) (ix2 0 k)))

theorem flushed_eq (c : Dev nD) (t : Fin cfg13.N) :
    (dat13 V c).flushed 5 t = ((cfg13.win 5).blk t).view.read (Elt Ideal) (result V c) := by
  show (cfg13.win 5).cut (grid13.coords t) ((dat13 V c).after 5 t) = _
  rw [after13_5]
  unfold out13_5
  rw [View.canon_unit_zero hz]
  simp only [View.ld_unit_zero (S := S64x128) hz, View.ld_unit_zero (S := S128x64) hz, View.ld_unit_zero (S := S1x64) hz,
    View.ld_unit_zero (S := S64x2) hz, View.ld_unit_zero (S := S1x2) hz]
  obtain ⟨-, -, -, -, -, -, -, -, -, -, e0, e1⟩ := idx_facts t
  funext y
  obtain ⟨g, cc, rfl⟩ : ∃ (g : Fin 64) (cc : Fin 2), y = ix2 g cc := ⟨y 0, y 1, eq_ix2 y⟩
  rw [View.read_apply]
  have hy : ((cfg13.win 5).blk t).view.emb (ix2 g cc) = ix2 g cc := by
    funext a; apply Fin.ext
    match a with
    | ⟨0, _⟩ => show win13_5.index t (0 : Fin 2) * 64 + 1 * g.val = g.val; rw [e0]; omega
    | ⟨1, _⟩ => show win13_5.index t (1 : Fin 2) * 2 + 1 * cc.val = cc.val; rw [e1]; omega
  rw [hy]
  refine (pay_apply (iblk13 V c 0 t) (iblk13 V c 1 t) (iblk13 V c 2 t) (iblk13 V c 3 t) (iblk13 V c 4 t) g cc).trans ?_
  rw [blk0 V c t, blk1 V c t, blk2 V c t, blk3 V c t, blk4 V c t]
  rfl

theorem cover (i : S64x2.Idx) : ∃ t : Fin cfg13.N, (cfg13.win 5).flush t = true ∧ i ∈ ((cfg13.win 5).blk t).view.set := by
  have hN : 0 < cfg13.N := by rw [show cfg13.N = 1 from N_13]; decide
  refine ⟨⟨0, hN⟩, flush13_5 _, ?_⟩
  obtain ⟨-, -, -, -, -, -, -, -, -, -, e0, e1⟩ := idx_facts ⟨0, hN⟩
  show i ∈ ((View.whole main_v185).slice (win13_5.rect ⟨0, hN⟩)).set
  rw [View.set_slice_whole, Rect.mem_set_unit]
  intro a
  have h0 : (i 0).val < 64 := (i 0).isLt
  have h1 : (i 1).val < 2 := (i 1).isLt
  match a with
  | ⟨0, _⟩ => show win13_5.index ⟨0, hN⟩ (0 : Fin 2) * 64 ≤ (i 0).val ∧ (i 0).val < win13_5.index ⟨0, hN⟩ (0 : Fin 2) * 64 + 64; rw [e0]; omega
  | ⟨1, _⟩ => show win13_5.index ⟨0, hN⟩ (1 : Fin 2) * 2 ≤ (i 1).val ∧ (i 1).val < win13_5.index ⟨0, hN⟩ (1 : Fin 2) * 2 + 2; rw [e1]; omega

theorem value (c : Dev nD) : (dat13 V c).arrAt 5 cfg13.N
    = vec2 (head (cur2 (n := 64) (k := 128) (V c (Pipeline.arrRef spec13 0))) (cur2 (n := 128) (k := 64) (V c (Pipeline.arrRef spec13 1)))
        (fun k => (V c (Pipeline.arrRef spec13 2) : S1x64.Idx → EReal) (ix2 0 k)) (cur2 (n := 64) (k := 2) (V c (Pipeline.arrRef spec13 3)))
        (fun k => (V c (Pipeline.arrRef spec13 4) : S1x2.Idx → EReal) (ix2 0 k))) :=
  (dat13 V c).arrAt_eq_of_cover 5 (result V c) (fun t _ => flushed_eq V c t) (cover)

end Cert.GCN.KHead13

end
-- ==== Proof.KChainTail.lean ====
import proofs.«401124_j9440338117505_1_alg».proof.Proof.Gen.KernelIdeal.Frame
import proofs.«401124_j9440338117505_1_alg».proof.Proof.Spec
import proofs.«401124_j9440338117505_1_alg».proof.Proof.PoolOps
import proofs.«401124_j9440338117505_1_alg».proof.Proof.KPool12
import proofs.«401124_j9440338117505_1_alg».proof.Proof.KHead13
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

namespace Cert.GCN.KChain

open Cert.KernelIdeal Cert.KernelIdeal.Gen Cert.GCN
open Idealize.ShloMosaic Idealize.ShloMosaic.TcCoe Idealize.ShloMosaic.ValueIdx
open Idealize.ShloMosaic.Pipeline (Dat Cfg Window)

variable (m : (ℓ : Loc nD τ sig) → Buf (Elt Ideal) ℓ) (ρ : Dev nD → PrngReg)

local macro "unwritten" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

theorem bt29 (c : Dev nD) : W29 m ρ c (Proc.devRef .tc main_arg2) = m ((c : Thread nD τ).loc main_arg2) := by
  have e30 : W30 m ρ c (Proc.devRef .tc main_arg2) = W29 m ρ c (Proc.devRef .tc main_arg2) := by unwritten hostOps13_1
  have e31 : W31 m ρ c (Proc.devRef .tc main_arg2) = W30 m ρ c (Proc.devRef .tc main_arg2) := by unwritten hostOps13_2
  have e32 : W32 m ρ c (Proc.devRef .tc main_arg2) = W31 m ρ c (Proc.devRef .tc main_arg2) :=
    W32_of_ne m ρ c main_arg2 (by decide)
  exact ((e32.trans (e31.trans e30)).symm).trans (W32_main_arg2 m ρ c)

theorem bt26 (c : Dev nD) : W26 m ρ c (Proc.devRef .tc main_arg2) = m ((c : Thread nD τ).loc main_arg2) := by
  have e27 : W27 m ρ c (Proc.devRef .tc main_arg2) = W26 m ρ c (Proc.devRef .tc main_arg2) := by unwritten hostOps12
  have e28 : W28 m ρ c (Proc.devRef .tc main_arg2) = W27 m ρ c (Proc.devRef .tc main_arg2) :=
    W28_of_ne m ρ c main_arg2 (by decide)
  have e29 : W29 m ρ c (Proc.devRef .tc main_arg2) = W28 m ρ c (Proc.devRef .tc main_arg2) := by unwritten hostOps13
  exact ((e29.trans (e28.trans e27)).symm).trans (bt29 m ρ c)

theorem b1_30 (c : Dev nD) : W30 m ρ c (Proc.devRef .tc main_arg8) = m ((c : Thread nD τ).loc main_arg8) := by
  have e31 : W31 m ρ c (Proc.devRef .tc main_arg8) = W30 m ρ c (Proc.devRef .tc main_arg8) := by unwritten hostOps13_2
  have e32 : W32 m ρ c (Proc.devRef .tc main_arg8) = W31 m ρ c (Proc.devRef .tc main_arg8) :=
    W32_of_ne m ρ c main_arg8 (by decide)
  exact ((e32.trans e31).symm).trans (W32_main_arg8 m ρ c)

theorem b2_30 (c : Dev nD) : W30 m ρ c (Proc.devRef .tc main_arg10) = m ((c : Thread nD τ).loc main_arg10) := by
  have e31 : W31 m ρ c (Proc.devRef .tc main_arg10) = W30 m ρ c (Proc.devRef .tc main_arg10) := by unwritten hostOps13_2
  have e32 : W32 m ρ c (Proc.devRef .tc main_arg10) = W31 m ρ c (Proc.devRef .tc main_arg10) :=
    W32_of_ne m ρ c main_arg10 (by decide)
  exact ((e32.trans e31).symm).trans (W32_main_arg10 m ρ c)

theorem w1_31 (c : Dev nD) : W31 m ρ c (Proc.devRef .tc main_arg7) = m ((c : Thread nD τ).loc main_arg7) := by
  have e32 : W32 m ρ c (Proc.devRef .tc main_arg7) = W31 m ρ c (Proc.devRef .tc main_arg7) :=
    (W32_arr m ρ c 1).trans (((dat13 (V31 m ρ) c).arrAt_in 1 rfl _).trans (A_eq13 (V31 m ρ) c 1))
  exact e32.symm.trans (W32_main_arg7 m ρ c)

theorem w2_31 (c : Dev nD) : W31 m ρ c (Proc.devRef .tc main_arg9) = m ((c : Thread nD τ).loc main_arg9) := by
  have e32 : W32 m ρ c (Proc.devRef .tc main_arg9) = W31 m ρ c (Proc.devRef .tc main_arg9) :=
    (W32_arr m ρ c 3).trans (((dat13 (V31 m ρ) c).arrAt_in 3 rfl _).trans (A_eq13 (V31 m ρ) c 3))
  exact e32.symm.trans (W32_main_arg9 m ρ c)

theorem oh27 (c : Dev nD) :
    W27 m ρ c (Proc.devRef .tc main_v165) = Ops.ohV (F := Ideal) (m ((c : Thread nD τ).loc main_arg2)) := by
  rw [← bt26 m ρ c]
  show StableHlo.after hostOps12 (W26 m ρ c) (Proc.devRef .tc main_v165) = _
  after_results
  rfl

theorem x27 (c : Dev nD) : W27 m ρ c (Proc.devRef .tc main_v160) = W26 m ρ c (Proc.devRef .tc main_v160) := by
  unwritten hostOps12

theorem sums28 (c : Dev nD) (X : Mat 100000 128) (hX : W26 m ρ c (Proc.devRef .tc main_v160) = vec2 X) :
    W28 m ρ c (Proc.devRef .tc main_v166)
      = vec2 (poolSum (cur2 (Ops.ohV (F := Ideal) (m ((c : Thread nD τ).loc main_arg2)))) X) := by
  refine (W28_arr m ρ c 2).trans ((KPool12.value (V27 m ρ) c).trans ?_)
  show vec2 (poolSum (cur2 (W27 m ρ c (Proc.devRef .tc main_v165))) (cur2 (W27 m ρ c (Proc.devRef .tc main_v160)))) = _
  rw [oh27 m ρ c, x27 m ρ c, hX, cur2_vec2]

section Host
variable (Wv : Valuation τ sig (Elt Ideal))

theorem host13_zero : StableHlo.after hostOps13 Wv (Proc.devRef .tc main_c_28) = constantI S_ 32 0#32 := by
  after_results

theorem host13_zeros : StableHlo.after hostOps13 Wv (Proc.devRef .tc main_v167)
    = broadcastInDim S64 ![] Facts₀.bcast_S_S64 (constantI S_ 32 0#32) := by
  after_results

theorem host13_1_clip : StableHlo.after hostOps13_1 Wv (Proc.devRef .tc main_v168)
    = maxsi (broadcastInDim S100000 ![] Facts₀.bcast_S_S100000 (id (Wv (Proc.devRef .tc main_c_28))))
        (Wv (Proc.devRef .tc main_arg2)) := by
  after_results
  rfl

end Host

section Host2
variable (Wv : Valuation τ sig (Elt Ideal))

theorem host13_2_quot : StableHlo.after hostOps13_2 Wv (Proc.devRef .tc main_v182)
    = Host.divf (Wv (Proc.devRef .tc main_v166))
        (broadcastInDim S64x128 ![0, 1] Facts₀.bcast_S64x1_S64x128_0_1
          (broadcastInDim S64x1 ![0] Facts₀.bcast_S64_S64x1_0
            (maximumf
              (sitofp .f32
                (Host.scatter scatter_S64_S100000x1_S100000_n_0_0_1 IntOp.addi
                  (Wv (Proc.devRef .tc main_v167))
                  (broadcastInDim S100000x1 ![0] Facts₀.bcast_S100000_S100000x1_0
                    (select
                      (cmpi .slt (Wv (Proc.devRef .tc main_v168))
                        (broadcastInDim S100000 ![] Facts₀.bcast_S_S100000 (constantI S_ 32 0#32)))
                      (addi (Wv (Proc.devRef .tc main_v168))
                        (broadcastInDim S100000 ![] Facts₀.bcast_S_S100000 (constantI S_ 32 64#32)))
                      (Wv (Proc.devRef .tc main_v168))))
                  (broadcastInDim S100000 ![] Facts₀.bcast_S_S100000 (constantI S_ 32 1#32))))
              (broadcastInDim S64 ![] Facts₀.bcast_S_S64 (constant (F := Ideal) S_ .f32 0x3F800000#32))))) := by
  after_results_simp

theorem host13_2_b1 : StableHlo.after hostOps13_2 Wv (Proc.devRef .tc main_v183)
    = shapeCast S1x64 (Wv (Proc.devRef .tc main_arg8)) Facts₀.shapeCasts_S64_S1x64 := by
  after_results
  rfl

theorem host13_2_b2 : StableHlo.after hostOps13_2 Wv (Proc.devRef .tc main_v184)
    = shapeCast S1x2 (Wv (Proc.devRef .tc main_arg10)) Facts₀.shapeCasts_S2_S1x2 := by
  after_results
  rfl

end Host2

theorem quot_eq (S : Mat 64 128) (cnt : FVec Ideal S64 .f32) :
    Host.divf (vec2 S : FVec Ideal S64x128 .f32)
        (broadcastInDim S64x128 ![0, 1] Facts₀.bcast_S64x1_S64x128_0_1
          (broadcastInDim S64x1 ![0] Facts₀.bcast_S64_S64x1_0
            (maximumf cnt
              (broadcastInDim S64 ![] Facts₀.bcast_S_S64 (constant (F := Ideal) S_ .f32 0x3F800000#32)))))
      = vec2 (pooled S (fun g => cnt (ix1 g))) := by
  funext i
  show Ideal.div (S (i 0) (i 1)) _ = Ideal.div (S (i 0) (i 1)) (max (cnt (ix1 (i 0))) cOne)
  refine congrArg (Ideal.div (S (i 0) (i 1))) ?_
  refine (broadcastInDim_apply ![0, 1] Facts₀.bcast_S64x1_S64x128_0_1 _ i (ix2 (i 0) (0 : Fin 1))
    (fun a => match a with | ⟨0, _⟩ => rfl | ⟨1, _⟩ => rfl)).trans ?_
  refine (broadcastInDim_apply ![0] Facts₀.bcast_S64_S64x1_0 _ (ix2 (i 0) (0 : Fin 1)) (ix1 (i 0))
    (fun a => match a with | ⟨0, _⟩ => rfl)).trans ?_
  rfl

theorem row_eq {a : ℕ} (x : (⟨1, ![a]⟩ : Shape).Idx → EReal) (h : (⟨1, ![a]⟩ : Shape).ShapeCasts ⟨2, ![1, a]⟩) :
    (fun k : Fin a => shapeCast ⟨2, ![1, a]⟩ x h (ix2 (0 : Fin 1) k)) = fun k => x (ix1 k) :=
  funext fun k => shapeCast_a_1a_apply x h 0 k

theorem sums30 (c : Dev nD) : W30 m ρ c (Proc.devRef .tc main_v166) = W28 m ρ c (Proc.devRef .tc main_v166) := by
  have e29 : W29 m ρ c (Proc.devRef .tc main_v166) = W28 m ρ c (Proc.devRef .tc main_v166) := by unwritten hostOps13
  have e30 : W30 m ρ c (Proc.devRef .tc main_v166) = W29 m ρ c (Proc.devRef .tc main_v166) := by unwritten hostOps13_1
  exact e30.trans e29

theorem zeros30 (c : Dev nD) : W30 m ρ c (Proc.devRef .tc main_v167)
    = broadcastInDim S64 ![] Facts₀.bcast_S_S64 (constantI S_ 32 0#32) := by
  have e30 : W30 m ρ c (Proc.devRef .tc main_v167) = W29 m ρ c (Proc.devRef .tc main_v167) := by unwritten hostOps13_1
  exact e30.trans (host13_zeros (W28 m ρ c))

theorem clip30 (c : Dev nD) :
    W30 m ρ c (Proc.devRef .tc main_v168) = Ops.clipV (m ((c : Thread nD τ).loc main_arg2)) := by
  refine (host13_1_clip (W29 m ρ c)).trans ?_
  rw [bt29 m ρ c, show W29 m ρ c (Proc.devRef .tc main_c_28) = constantI S_ 32 0#32 from host13_zero (W28 m ρ c)]
  rfl

theorem pooled31 (c : Dev nD) (X : Mat 100000 128) (hX : W26 m ρ c (Proc.devRef .tc main_v160) = vec2 X) :
    W31 m ρ c (Proc.devRef .tc main_v182)
      = vec2 (pooled (poolSum (cur2 (Ops.ohV (F := Ideal) (m ((c : Thread nD τ).loc main_arg2)))) X)
          (fun g => Ops.cntKV (F := Ideal) (m ((c : Thread nD τ).loc main_arg2)) (ix1 g))) := by
  refine (host13_2_quot (W30 m ρ c)).trans ?_
  rw [sums30 m ρ c, sums28 m ρ c X hX, zeros30 m ρ c, clip30 m ρ c]
  exact quot_eq _ (Ops.cntKV (F := Ideal) (m ((c : Thread nD τ).loc main_arg2)))

theorem b1_31 (c : Dev nD) :
    (fun k : Fin 64 => (W31 m ρ c (Proc.devRef .tc main_v183) : S1x64.Idx → EReal) (ix2 0 k))
      = fun k => m ((c : Thread nD τ).loc main_arg8) (ix1 k) := by
  rw [show W31 m ρ c (Proc.devRef .tc main_v183)
        = shapeCast S1x64 (W30 m ρ c (Proc.devRef .tc main_arg8)) Facts₀.shapeCasts_S64_S1x64 from host13_2_b1 (W30 m ρ c),
    b1_30 m ρ c]
  exact row_eq _ _

theorem b2_31 (c : Dev nD) :
    (fun k : Fin 2 => (W31 m ρ c (Proc.devRef .tc main_v184) : S1x2.Idx → EReal) (ix2 0 k))
      = fun k => m ((c : Thread nD τ).loc main_arg10) (ix1 k) := by
  rw [show W31 m ρ c (Proc.devRef .tc main_v184)
        = shapeCast S1x2 (W30 m ρ c (Proc.devRef .tc main_arg10)) Facts₀.shapeCasts_S2_S1x2 from host13_2_b2 (W30 m ρ c),
    b2_30 m ρ c]
  exact row_eq _ _

theorem tail_value (c : Dev nD) (X : Mat 100000 128) (hX : W26 m ρ c (Proc.devRef .tc main_v160) = vec2 X) :
    W32 m ρ c (Proc.devRef .tc main_v185)
      = vec2 (head
          (pooled (poolSum (cur2 (Ops.ohV (F := Ideal) (m ((c : Thread nD τ).loc main_arg2)))) X)
            (fun g => Ops.cntKV (F := Ideal) (m ((c : Thread nD τ).loc main_arg2)) (ix1 g)))
          (cur2 (m ((c : Thread nD τ).loc main_arg7))) (fun k => m ((c : Thread nD τ).loc main_arg8) (ix1 k))
          (cur2 (m ((c : Thread nD τ).loc main_arg9))) (fun k => m ((c : Thread nD τ).loc main_arg10) (ix1 k))) := by
  refine (W32_arr m ρ c 5).trans ((KHead13.value (V31 m ρ) c).trans ?_)
  show vec2 (head (cur2 (W31 m ρ c (Proc.devRef .tc main_v182))) (cur2 (W31 m ρ c (Proc.devRef .tc main_arg7)))
      (fun k : Fin 64 => (W31 m ρ c (Proc.devRef .tc main_v183) : S1x64.Idx → EReal) (ix2 0 k))
      (cur2 (W31 m ρ c (Proc.devRef .tc main_arg9)))
      (fun k : Fin 2 => (W31 m ρ c (Proc.devRef .tc main_v184) : S1x2.Idx → EReal) (ix2 0 k))) = _
  rw [b1_31 m ρ c, b2_31 m ρ c, pooled31 m ρ c X hX, w1_31 m ρ c, w2_31 m ρ c, cur2_vec2]

end Cert.GCN.KChain

end
-- ==== Proof.KValue.lean ====
import proofs.«401124_j9440338117505_1_alg».proof.Proof.Bridge
import proofs.«401124_j9440338117505_1_alg».proof.Proof.KChainLayers
import proofs.«401124_j9440338117505_1_alg».proof.Proof.KChainTail

noncomputable section
open Idealize.ShloMosaic Idealize.ShloMosaic.TcCoe Idealize.SL.Sem Idealize.ShloMosaic.ValueIdx

namespace Cert.GCN.KChain
open Cert.GCN Cert.GCN.Final Cert.KernelIdeal Cert.KernelIdeal.Gen

variable (m : (ℓ : Loc nD τ sig) → Buf (Elt Ideal) ℓ) (ρ : Dev nD → PrngReg)

theorem kernel_value (c : Dev nD) : W32 m ρ c (Proc.devRef .tc main_v185) =
    vec2 (outK (cur2 (m ((c.tc : Thread nD τ).loc main_arg0))) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (cur2 (m ((c.tc : Thread nD τ).loc main_arg7))) (fun k => m ((c.tc : Thread nD τ).loc main_arg8) (ix1 k))
      (cur2 (m ((c.tc : Thread nD τ).loc main_arg9))) (fun k => m ((c.tc : Thread nD τ).loc main_arg10) (ix1 k))) :=
  tail_value m ρ c _ (x4_value m ρ c)

end Cert.GCN.KChain
end
-- ==== Proof.RefOps.lean ====
import Idealize.ShloMosaic.Lib.StableHlo.Run

namespace Cert.RefRun

open Idealize.ShloMosaic Idealize.SL.Sem Idealize.ShloMosaic.StableHlo

variable {τ : Topo} {sig : RefSig} {Val : EltTy → Type}

/-- A list of operations leaves unchanged every buffer outside the list of those it writes. -/
theorem keep_of_writes {ops : List (HloOp τ sig Val)} {W : List (Ref sig .tc)}
    (hW : ops.map (·.writes) = W.map fun y => {Proc.devRef .tc y}) (V : Valuation τ sig Val) {r : Ref sig .tc}
    (hr : r ∉ W) : after ops V (Proc.devRef .tc r) = V (Proc.devRef .tc r) :=
  after_of_forall_not_mem ops V fun op hop hb => by
    obtain ⟨y, hy, e⟩ := List.mem_map.mp (hW ▸ List.mem_map_of_mem hop)
    exact hr (Proc.devRef_injective _ (Finset.mem_singleton.mp (e ▸ hb)) ▸ hy)

theorem fresh_of_map {ops : List (HloOp τ sig Val)} {n : Nat} (h : ops.map (·.fresh) = List.replicate n ∅) :
    ∀ op ∈ ops, op.fresh = ∅ := fun _ hop => List.eq_of_mem_replicate (h ▸ List.mem_map_of_mem hop)

end Cert.RefRun
-- ==== Proof.RefRun1.lean ====
import proofs.«401124_j9440338117505_1_alg».proof.Proof.Gen.ReferenceIdeal
import proofs.«401124_j9440338117505_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsEa : List (HloOp τ sig (Elt F)) :=
  [ nullary main_v0 (iotaInDim S100000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000 ]

abbrev opsEa_W : List (Ref sig .tc) := [main_v0, main_v1, main_v2]

theorem opsEa_keep (V : Valuation τ sig (Elt F)) (r : Ref sig .tc) (h : r ∉ opsEa_W) :
    after opsEa V (Proc.devRef .tc r) = V (Proc.devRef .tc r) :=
  keep_of_writes rfl V h

abbrev opsEb : List (HloOp τ sig (Elt F)) :=
  [ binary main_v2 main_v0 main_v3 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000 ]

abbrev opsEb_W : List (Ref sig .tc) := [main_v3, main_v4, main_v5]

theorem opsEb_keep (V : Valuation τ sig (Elt F)) (r : Ref sig .tc) (h : r ∉ opsEb_W) :
    after opsEb V (Proc.devRef .tc r) = V (Proc.devRef .tc r) :=
  keep_of_writes rfl V h

abbrev opsEc : List (HloOp τ sig (Elt F)) :=
  [ binary main_v5 main_v0 main_v6 ((fun a b => concatenate S700000 0 [⟨S600000, a⟩, ⟨S100000, b⟩] concatenates_S600000_S100000_S700000_d0) : (⟨S600000, .i32⟩ : BufTy).Contents (Elt F) → (⟨S100000, .i32⟩ : BufTy).Contents (Elt F) → (⟨S700000, .i32⟩ : BufTy).Contents (Elt F)),
    nullary main_cst (constant S_ .f32 0x3F800000#32),
    unary main_cst main_v7 (broadcastInDim S700000 ![] bcast_S_S700000 : (⟨S_, .f32⟩ : BufTy).Contents (Elt F) → (⟨S700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S700000x1 ![0] bcast_S700000_S700000x1_0 : (⟨S700000, .i32⟩ : BufTy).Contents (Elt F) → (⟨S700000x1, .i32⟩ : BufTy).Contents (Elt F)),
    ternary main_v8 main_v9 main_v7 main_v10 ((fun x i u => Host.scatterAdd scatter_S100000_S700000x1_S700000_n_0_0_1 x i u) : (⟨S100000, .f32⟩ : BufTy).Contents (Elt F) → (⟨S700000x1, .i32⟩ : BufTy).Contents (Elt F) → (⟨S700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S700000 ![] bcast_S_S700000 : (⟨S_, .i32⟩ : BufTy).Contents (Elt F) → (⟨S700000, .i32⟩ : BufTy).Contents (Elt F)),
    binary main_v3 main_v17 main_v18 (cmpi .slt : (⟨S700000, .i32⟩ : BufTy).Contents (Elt F) → (⟨S700000, .i32⟩ : BufTy).Contents (Elt F) → (⟨S700000, .i1⟩ : BufTy).Contents (Elt F)),
    nullary main_c_4 (constantI S_ 32 100000#32),
    unary main_c_4 main_v19 (broadcastInDim S700000 ![] bcast_S_S700000 : (⟨S_, .i32⟩ : BufTy).Contents (Elt F) → (⟨S700000, .i32⟩ : BufTy).Contents (Elt F)),
    binary main_v3 main_v19 main_v20 (addi : (⟨S700000, .i32⟩ : BufTy).Contents (Elt F) → (⟨S700000, .i32⟩ : BufTy).Contents (Elt F) → (⟨S700000, .i32⟩ : BufTy).Contents (Elt F)),
    ternary main_v18 main_v20 main_v3 main_v21 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v21 main_v22 (broadcastInDim S700000x1 ![0] bcast_S700000_S700000x1_0 : (⟨S700000, .i32⟩ : BufTy).Contents (Elt F) → (⟨S700000x1, .i32⟩ : BufTy).Contents (Elt F)),
    binary main_v16 main_v22 main_v23 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    nullary main_c_5 (constantI S_ 32 0#32),
    unary main_c_5 main_v24 (broadcastInDim S700000 ![] bcast_S_S700000 : (⟨S_, .i32⟩ : BufTy).Contents (Elt F) → (⟨S700000, .i32⟩ : BufTy).Contents (Elt F)),
    binary main_v6 main_v24 main_v25 (cmpi .slt : (⟨S700000, .i32⟩ : BufTy).Contents (Elt F) → (⟨S700000, .i32⟩ : BufTy).Contents (Elt F) → (⟨S700000, .i1⟩ : BufTy).Contents (Elt F)),
    nullary main_c_6 (constantI S_ 32 100000#32),
    unary main_c_6 main_v26 (broadcastInDim S700000 ![] bcast_S_S700000 : (⟨S_, .i32⟩ : BufTy).Contents (Elt F) → (⟨S700000, .i32⟩ : BufTy).Contents (Elt F)),
    binary main_v6 main_v26 main_v27 (addi : (⟨S700000, .i32⟩ : BufTy).Contents (Elt F) → (⟨S700000, .i32⟩ : BufTy).Contents (Elt F) → (⟨S700000, .i32⟩ : BufTy).Contents (Elt F)),
    ternary main_v25 main_v27 main_v6 main_v28 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v28 main_v29 (broadcastInDim S700000x1 ![0] bcast_S700000_S700000x1_0 : (⟨S700000, .i32⟩ : BufTy).Contents (Elt F) → (⟨S700000x1, .i32⟩ : BufTy).Contents (Elt F)),
    binary main_v16 main_v29 main_v30 ((fun x i => Host.gather gather_S100000_S700000x1_S700000_n_0_n_n_0_1_1 x i) : (⟨S100000, .f32⟩ : BufTy).Contents (Elt F) → (⟨S700000x1, .i32⟩ : BufTy).Contents (Elt F) → (⟨S700000, .f32⟩ : BufTy).Contents (Elt F)),
    binary main_v23 main_v30 main_v31 (mulf : (⟨S700000, .f32⟩ : BufTy).Contents (Elt F) → (⟨S700000, .f32⟩ : BufTy).Contents (Elt F) → (⟨S700000, .f32⟩ : BufTy).Contents (Elt F)),
    unary main_v31 main_v32 (broadcastInDim S700000x1 ![0] bcast_S700000_S700000x1_0 : (⟨S700000, .f32⟩ : BufTy).Contents (Elt F) → (⟨S700000x1, .f32⟩ : BufTy).Contents (Elt F)) ]

abbrev opsEc_W : List (Ref sig .tc) := [main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_v32]

theorem opsEc_keep (V : Valuation τ sig (Elt F)) (r : Ref sig .tc) (h : r ∉ opsEc_W) :
    after opsEc V (Proc.devRef .tc r) = V (Proc.devRef .tc r) :=
  keep_of_writes rfl V h

abbrev opsL0a : List (HloOp τ sig (Elt F)) :=
  [ unary main_arg3 main_v33 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v33 main_v34 rfl shapeCasts_S1x128x128_S128x128,
    binary main_arg0 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v36 ((extractStridedSlice S1x128 ![0, 0] · slices_S4x128_S1x128_0_0) : (⟨S4x128, .f32⟩ : BufTy).Contents (Elt F) → (⟨S1x128, .f32⟩ : BufTy).Contents (Elt F)),
    reshape main_v36 main_v37 rfl shapeCasts_S1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v35 main_v39 main_v40 (addf : (⟨S100000x128, .f32⟩ : BufTy).Contents (Elt F) → (⟨S100000x128, .f32⟩ : BufTy).Contents (Elt F) → (⟨S100000x128, .f32⟩ : BufTy).Contents (Elt F)),
    nullary main_c_7 (constantI S_ 32 0#32),
    unary main_c_7 main_v41 (broadcastInDim S700000 ![] bcast_S_S700000 : (⟨S_, .i32⟩ : BufTy).Contents (Elt F) → (⟨S700000, .i32⟩ : BufTy).Contents (Elt F)),
    binary main_v3 main_v41 main_v42 (cmpi .slt : (⟨S700000, .i32⟩ : BufTy).Contents (Elt F) → (⟨S700000, .i32⟩ : BufTy).Contents (Elt F) → (⟨S700000, .i1⟩ : BufTy).Contents (Elt F)),
    nullary main_c_8 (constantI S_ 32 100000#32),
    unary main_c_8 main_v43 (broadcastInDim S700000 ![] bcast_S_S700000 : (⟨S_, .i32⟩ : BufTy).Contents (Elt F) → (⟨S700000, .i32⟩ : BufTy).Contents (Elt F)),
    binary main_v3 main_v43 main_v44 (addi : (⟨S700000, .i32⟩ : BufTy).Contents (Elt F) → (⟨S700000, .i32⟩ : BufTy).Contents (Elt F) → (⟨S700000, .i32⟩ : BufTy).Contents (Elt F)),
    ternary main_v42 main_v44 main_v3 main_v45 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v45 main_v46 (broadcastInDim S700000x1 ![0] bcast_S700000_S700000x1_0 : (⟨S700000, .i32⟩ : BufTy).Contents (Elt F) → (⟨S700000x1, .i32⟩ : BufTy).Contents (Elt F)),
    binary main_v40 main_v46 main_v47 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v32 main_v48 (broadcastInDim S700000x128 ![0, 1] bcast_S700000x1_S700000x128_0_1 : (⟨S700000x1, .f32⟩ : BufTy).Contents (Elt F) → (⟨S700000x128, .f32⟩ : BufTy).Contents (Elt F)) ]

abbrev opsL0a_W : List (Ref sig .tc) := [main_v33, main_v34, main_v35, main_v36, main_v37, main_v38, main_v39, main_v40, main_c_7, main_v41, main_v42, main_c_8, main_v43, main_v44, main_v45, main_v46, main_v47, main_v48]

set_option maxRecDepth 8192 in
set_option maxHeartbeats 4000000 in
theorem main_part0_eq (c : Dev nD) : main_part0 (F := F) c = (seq opsEa >>= fun _ => (seq opsEb >>= fun _ => (seq opsEc >>= fun _ => (seq opsL0a)))) := rfl

end Cert.RefRun

end
-- ==== Proof.RefRun2.lean ====
import proofs.«401124_j9440338117505_1_alg».proof.Proof.Gen.ReferenceIdeal
import proofs.«401124_j9440338117505_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL0b : List (HloOp τ sig (Elt F)) :=
  [ binary main_v48 main_v47 main_v49 (mulf : (⟨S700000x128, .f32⟩ : BufTy).Contents (Elt F) → (⟨S700000x128, .f32⟩ : BufTy).Contents (Elt F) → (⟨S700000x128, .f32⟩ : BufTy).Contents (Elt F)),
    nullary main_cst_9 (constant S_ .f32 0x00000000#32),
    unary main_cst_9 main_v50 (broadcastInDim S100000x128 ![] bcast_S_S100000x128 : (⟨S_, .f32⟩ : BufTy).Contents (Elt F) → (⟨S100000x128, .f32⟩ : BufTy).Contents (Elt F)),
    unary main_v6 main_v51 (broadcastInDim S700000x1 ![0] bcast_S700000_S700000x1_0 : (⟨S700000, .i32⟩ : BufTy).Contents (Elt F) → (⟨S700000x1, .i32⟩ : BufTy).Contents (Elt F)),
    ternary main_v50 main_v51 main_v49 main_v52 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    nullary main_cst_10 (constant S_ .f32 0x00000000#32),
    binary main_v52 main_cst_10 main_v53 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    nullary main_c_12 (constantI S_ 32 0#32),
    TRef.nullary (TRef.of (T := ⟨S_, .f32⟩) main_call1_cst) (constant S_ .f32 0x00000000#32),
    TRef.binary (TRef.of (T := ⟨S100000x128, .f32⟩) main_v52) (TRef.of (T := ⟨S_, .f32⟩) main_call1_cst) (TRef.of (T := ⟨S128, .f32⟩) main_call1_v0) (fun x v => Host.reduceAdd x v reducesTo_S100000x128_S128_d0 h_S_),
    TRef.unary (TRef.of (T := ⟨S128, .f32⟩) main_call1_v0) (TRef.of (T := ⟨S1x128, .f32⟩) main_call1_v1) (broadcastInDim S1x128 ![1] bcast_S128_S1x128_1),
    TRef.nullary (TRef.of (T := ⟨S_, .f32⟩) main_call1_cst_0) (constant S_ .f32 0x47C35000#32),
    TRef.unary (TRef.of (T := ⟨S_, .f32⟩) main_call1_cst_0) (TRef.of (T := ⟨S1x128, .f32⟩) main_call1_v2) (broadcastInDim S1x128 ![] bcast_S_S1x128),
    TRef.binary (TRef.of (T := ⟨S1x128, .f32⟩) main_call1_v1) (TRef.of (T := ⟨S1x128, .f32⟩) main_call1_v2) (TRef.of (T := ⟨S1x128, .f32⟩) main_call1_v3) Host.divf,
    TRef.unary (TRef.of (T := ⟨S1x128, .f32⟩) main_call1_v3) (TRef.of (T := ⟨S100000x128, .f32⟩) main_call1_v4) (broadcastInDim S100000x128 ![0, 1] bcast_S1x128_S100000x128_0_1),
    TRef.binary (TRef.of (T := ⟨S100000x128, .f32⟩) main_v52) (TRef.of (T := ⟨S100000x128, .f32⟩) main_call1_v4) (TRef.of (T := ⟨S100000x128, .f32⟩) main_call1_v5) subf,
    TRef.binary (TRef.of (T := ⟨S100000x128, .f32⟩) main_call1_v5) (TRef.of (T := ⟨S100000x128, .f32⟩) main_call1_v5) (TRef.of (T := ⟨S100000x128, .f32⟩) main_call1_v6) mulf,
    TRef.unary (TRef.of (T := ⟨S_, .i32⟩) main_c_12) (TRef.of (T := ⟨S_, .f32⟩) main_call1_v7) (sitofp (F := F) .f32),
    TRef.nullary (TRef.of (T := ⟨S_, .f32⟩) main_call1_cst_1) (constant S_ .f32 0x47C35000#32),
    TRef.binary (TRef.of (T := ⟨S_, .f32⟩) main_call1_cst_1) (TRef.of (T := ⟨S_, .f32⟩) main_call1_v7) (TRef.of (T := ⟨S_, .f32⟩) main_call1_v8) subf,
    TRef.nullary (TRef.of (T := ⟨S_, .f32⟩) main_call1_cst_2) (constant S_ .f32 0x00000000#32),
    TRef.binary (TRef.of (T := ⟨S100000x128, .f32⟩) main_call1_v6) (TRef.of (T := ⟨S_, .f32⟩) main_call1_cst_2) (TRef.of (T := ⟨S128, .f32⟩) main_call1_v9) (fun x v => Host.reduceAdd x v reducesTo_S100000x128_S128_d0 h_S_),
    TRef.unary (TRef.of (T := ⟨S_, .f32⟩) main_call1_v8) (TRef.of (T := ⟨S128, .f32⟩) main_call1_v10) (broadcastInDim S128 ![] bcast_S_S128),
    TRef.binary (TRef.of (T := ⟨S128, .f32⟩) main_call1_v9) (TRef.of (T := ⟨S128, .f32⟩) main_call1_v10) (TRef.of (T := ⟨S128, .f32⟩) main_call1_v11) Host.divf,
    TRef.nullary (TRef.of (T := ⟨S_, .f32⟩) main_call1_cst_3) (constant S_ .f32 0x00000000#32),
    TRef.binary (TRef.of (T := ⟨S_, .f32⟩) main_call1_v8) (TRef.of (T := ⟨S_, .f32⟩) main_call1_cst_3) (TRef.of (T := ⟨S_, .i1⟩) main_call1_v12) (cmpf (F := F) .ogt) ]

abbrev opsL0b_W : List (Ref sig .tc) := [main_v49, main_cst_9, main_v50, main_v51, main_v52, main_cst_10, main_v53, main_cst_11, main_v54, main_v55, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12]

abbrev opsL0c : List (HloOp τ sig (Elt F)) :=
  [ TRef.nullary (TRef.of (T := ⟨S_, .f32⟩) main_call1_cst_4) (constant S_ .f32 0x7FC00000#32),
    TRef.unary (TRef.of (T := ⟨S_, .f32⟩) main_call1_cst_4) (TRef.of (T := ⟨S_, .f32⟩) main_call1_call0_v0) id,
    TRef.unary (TRef.of (T := ⟨S_, .f32⟩) main_call1_call0_v0) (TRef.of (T := ⟨S128, .f32⟩) main_call1_call0_v1) (broadcastInDim S128 ![] bcast_S_S128),
    TRef.ternary (TRef.of (T := ⟨S_, .i1⟩) main_call1_v12) (TRef.of (T := ⟨S128, .f32⟩) main_call1_v11) (TRef.of (T := ⟨S128, .f32⟩) main_call1_call0_v1) (TRef.of (T := ⟨S128, .f32⟩) main_v56) (fun p a b => select (broadcastInDim S128 ![] bcast_S_S128 p) a b),
    unary main_arg5 main_v57 ((extractStridedSlice S1x128 ![0, 0] · slices_S4x128_S1x128_0_0) : (⟨S4x128, .f32⟩ : BufTy).Contents (Elt F) → (⟨S1x128, .f32⟩ : BufTy).Contents (Elt F)),
    reshape main_v57 main_v58 rfl shapeCasts_S1x128_S128,
    unary main_v55 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v52 main_v60 main_v61 (subf : (⟨S100000x128, .f32⟩ : BufTy).Contents (Elt F) → (⟨S100000x128, .f32⟩ : BufTy).Contents (Elt F) → (⟨S100000x128, .f32⟩ : BufTy).Contents (Elt F)),
    unary main_v58 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v65 (broadcastInDim S128 ![] bcast_S_S128 : (⟨S_, .f32⟩ : BufTy).Contents (Elt F) → (⟨S128, .f32⟩ : BufTy).Contents (Elt F)),
    binary main_v56 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg6 main_v71 ((extractStridedSlice S1x128 ![0, 0] · slices_S4x128_S1x128_0_0) : (⟨S4x128, .f32⟩ : BufTy).Contents (Elt F) → (⟨S1x128, .f32⟩ : BufTy).Contents (Elt F)),
    reshape main_v71 main_v72 rfl shapeCasts_S1x128_S128,
    unary main_v72 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v70 main_v74 main_v75 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v75) (TRef.of (T := ⟨S100000x128, .f32⟩) main_call2_v0) (TRef.of (T := ⟨S100000x128, .f32⟩) main_v76) maximumf,
    binary main_v76 main_arg0 main_v77 (addf : (⟨S100000x128, .f32⟩ : BufTy).Contents (Elt F) → (⟨S100000x128, .f32⟩ : BufTy).Contents (Elt F) → (⟨S100000x128, .f32⟩ : BufTy).Contents (Elt F)) ]

abbrev opsL0c_W : List (Ref sig .tc) := [main_call1_cst_4, main_call1_call0_v0, main_call1_call0_v1, main_v56, main_v57, main_v58, main_v59, main_v60, main_v61, main_v62, main_v63, main_v64, main_cst_13, main_v65, main_v66, main_v67, main_v68, main_v69, main_v70, main_v71, main_v72, main_v73, main_v74, main_v75, main_call2_cst, main_call2_v0, main_v76, main_v77]

abbrev opsL1a : List (HloOp τ sig (Elt F)) :=
  [ unary main_arg3 main_v78 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v78 main_v79 rfl shapeCasts_S1x128x128_S128x128,
    binary main_v77 main_v79 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v81 ((extractStridedSlice S1x128 ![1, 0] · slices_S4x128_S1x128_1_0) : (⟨S4x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v80 main_v84 main_v85 (addf : (⟨S100000x128, .f32⟩ : BufTy).Contents (Elt F) → (⟨S100000x128, .f32⟩ : BufTy).Contents (Elt F) → (⟨S100000x128, .f32⟩ : BufTy).Contents (Elt F)),
    nullary main_c_14 (constantI S_ 32 0#32),
    unary main_c_14 main_v86 (broadcastInDim S700000 ![] bcast_S_S700000 : (⟨S_, .i32⟩ : BufTy).Contents (Elt F) → (⟨S700000, .i32⟩ : BufTy).Contents (Elt F)),
    binary main_v3 main_v86 main_v87 (cmpi .slt : (⟨S700000, .i32⟩ : BufTy).Contents (Elt F) → (⟨S700000, .i32⟩ : BufTy).Contents (Elt F) → (⟨S700000, .i1⟩ : BufTy).Contents (Elt F)),
    nullary main_c_15 (constantI S_ 32 100000#32),
    unary main_c_15 main_v88 (broadcastInDim S700000 ![] bcast_S_S700000 : (⟨S_, .i32⟩ : BufTy).Contents (Elt F) → (⟨S700000, .i32⟩ : BufTy).Contents (Elt F)),
    binary main_v3 main_v88 main_v89 (addi : (⟨S700000, .i32⟩ : BufTy).Contents (Elt F) → (⟨S700000, .i32⟩ : BufTy).Contents (Elt F) → (⟨S700000, .i32⟩ : BufTy).Contents (Elt F)),
    ternary main_v87 main_v89 main_v3 main_v90 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v90 main_v91 (broadcastInDim S700000x1 ![0] bcast_S700000_S700000x1_0 : (⟨S700000, .i32⟩ : BufTy).Contents (Elt F) → (⟨S700000x1, .i32⟩ : BufTy).Contents (Elt F)),
    binary main_v85 main_v91 main_v92 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v32 main_v93 (broadcastInDim S700000x128 ![0, 1] bcast_S700000x1_S700000x128_0_1 : (⟨S700000x1, .f32⟩ : BufTy).Contents (Elt F) → (⟨S700000x128, .f32⟩ : BufTy).Contents (Elt F)),
    binary main_v93 main_v92 main_v94 (mulf : (⟨S700000x128, .f32⟩ : BufTy).Contents (Elt F) → (⟨S700000x128, .f32⟩ : BufTy).Contents (Elt F) → (⟨S700000x128, .f32⟩ : BufTy).Contents (Elt F)),
    nullary main_cst_16 (constant S_ .f32 0x00000000#32),
    unary main_cst_16 main_v95 (broadcastInDim S100000x128 ![] bcast_S_S100000x128 : (⟨S_, .f32⟩ : BufTy).Contents (Elt F) → (⟨S100000x128, .f32⟩ : BufTy).Contents (Elt F)),
    unary main_v6 main_v96 (broadcastInDim S700000x1 ![0] bcast_S700000_S700000x1_0 : (⟨S700000, .i32⟩ : BufTy).Contents (Elt F) → (⟨S700000x1, .i32⟩ : BufTy).Contents (Elt F)),
    ternary main_v95 main_v96 main_v94 main_v97 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    nullary main_cst_17 (constant S_ .f32 0x00000000#32),
    binary main_v97 main_cst_17 main_v98 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_18 (constant S_ .f32 0x47C35000#32) ]

abbrev opsL1a_W : List (Ref sig .tc) := [main_v78, main_v79, main_v80, main_v81, main_v82, main_v83, main_v84, main_v85, main_c_14, main_v86, main_v87, main_c_15, main_v88, main_v89, main_v90, main_v91, main_v92, main_v93, main_v94, main_cst_16, main_v95, main_v96, main_v97, main_cst_17, main_v98, main_cst_18]

set_option maxRecDepth 8192 in
set_option maxHeartbeats 4000000 in
theorem main_part1_eq (c : Dev nD) : main_part1 (F := F) c = (seq opsL0b >>= fun _ => (seq opsL0c >>= fun _ => (seq opsL1a))) := rfl

end Cert.RefRun

end
-- ==== Proof.RefRun3.lean ====
import proofs.«401124_j9440338117505_1_alg».proof.Proof.Gen.ReferenceIdeal
import proofs.«401124_j9440338117505_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL1b : List (HloOp τ sig (Elt F)) :=
  [ unary main_cst_18 main_v99 (broadcastInDim S128 ![] bcast_S_S128 : (⟨S_, .f32⟩ : BufTy).Contents (Elt F) → (⟨S128, .f32⟩ : BufTy).Contents (Elt F)),
    binary main_v98 main_v99 main_v100 (Host.divf : (⟨S128, .f32⟩ : BufTy).Contents (Elt F) → (⟨S128, .f32⟩ : BufTy).Contents (Elt F) → (⟨S128, .f32⟩ : BufTy).Contents (Elt F)),
    nullary main_c_19 (constantI S_ 32 0#32),
    TRef.nullary (TRef.of (T := ⟨S_, .f32⟩) main_call3_cst) (constant S_ .f32 0x00000000#32),
    TRef.binary (TRef.of (T := ⟨S100000x128, .f32⟩) main_v97) (TRef.of (T := ⟨S_, .f32⟩) main_call3_cst) (TRef.of (T := ⟨S128, .f32⟩) main_call3_v0) (fun x v => Host.reduceAdd x v reducesTo_S100000x128_S128_d0 h_S_),
    TRef.unary (TRef.of (T := ⟨S128, .f32⟩) main_call3_v0) (TRef.of (T := ⟨S1x128, .f32⟩) main_call3_v1) (broadcastInDim S1x128 ![1] bcast_S128_S1x128_1),
    TRef.nullary (TRef.of (T := ⟨S_, .f32⟩) main_call3_cst_0) (constant S_ .f32 0x47C35000#32),
    TRef.unary (TRef.of (T := ⟨S_, .f32⟩) main_call3_cst_0) (TRef.of (T := ⟨S1x128, .f32⟩) main_call3_v2) (broadcastInDim S1x128 ![] bcast_S_S1x128),
    TRef.binary (TRef.of (T := ⟨S1x128, .f32⟩) main_call3_v1) (TRef.of (T := ⟨S1x128, .f32⟩) main_call3_v2) (TRef.of (T := ⟨S1x128, .f32⟩) main_call3_v3) Host.divf,
    TRef.unary (TRef.of (T := ⟨S1x128, .f32⟩) main_call3_v3) (TRef.of (T := ⟨S100000x128, .f32⟩) main_call3_v4) (broadcastInDim S100000x128 ![0, 1] bcast_S1x128_S100000x128_0_1),
    TRef.binary (TRef.of (T := ⟨S100000x128, .f32⟩) main_v97) (TRef.of (T := ⟨S100000x128, .f32⟩) main_call3_v4) (TRef.of (T := ⟨S100000x128, .f32⟩) main_call3_v5) subf,
    TRef.binary (TRef.of (T := ⟨S100000x128, .f32⟩) main_call3_v5) (TRef.of (T := ⟨S100000x128, .f32⟩) main_call3_v5) (TRef.of (T := ⟨S100000x128, .f32⟩) main_call3_v6) mulf,
    TRef.unary (TRef.of (T := ⟨S_, .i32⟩) main_c_19) (TRef.of (T := ⟨S_, .f32⟩) main_call3_v7) (sitofp (F := F) .f32),
    TRef.nullary (TRef.of (T := ⟨S_, .f32⟩) main_call3_cst_1) (constant S_ .f32 0x47C35000#32),
    TRef.binary (TRef.of (T := ⟨S_, .f32⟩) main_call3_cst_1) (TRef.of (T := ⟨S_, .f32⟩) main_call3_v7) (TRef.of (T := ⟨S_, .f32⟩) main_call3_v8) subf,
    TRef.nullary (TRef.of (T := ⟨S_, .f32⟩) main_call3_cst_2) (constant S_ .f32 0x00000000#32),
    TRef.binary (TRef.of (T := ⟨S100000x128, .f32⟩) main_call3_v6) (TRef.of (T := ⟨S_, .f32⟩) main_call3_cst_2) (TRef.of (T := ⟨S128, .f32⟩) main_call3_v9) (fun x v => Host.reduceAdd x v reducesTo_S100000x128_S128_d0 h_S_),
    TRef.unary (TRef.of (T := ⟨S_, .f32⟩) main_call3_v8) (TRef.of (T := ⟨S128, .f32⟩) main_call3_v10) (broadcastInDim S128 ![] bcast_S_S128),
    TRef.binary (TRef.of (T := ⟨S128, .f32⟩) main_call3_v9) (TRef.of (T := ⟨S128, .f32⟩) main_call3_v10) (TRef.of (T := ⟨S128, .f32⟩) main_call3_v11) Host.divf,
    TRef.nullary (TRef.of (T := ⟨S_, .f32⟩) main_call3_cst_3) (constant S_ .f32 0x00000000#32),
    TRef.binary (TRef.of (T := ⟨S_, .f32⟩) main_call3_v8) (TRef.of (T := ⟨S_, .f32⟩) main_call3_cst_3) (TRef.of (T := ⟨S_, .i1⟩) main_call3_v12) (cmpf (F := F) .ogt),
    TRef.nullary (TRef.of (T := ⟨S_, .f32⟩) main_call3_cst_4) (constant S_ .f32 0x7FC00000#32),
    TRef.unary (TRef.of (T := ⟨S_, .f32⟩) main_call3_cst_4) (TRef.of (T := ⟨S_, .f32⟩) main_call3_call0_v0) id,
    TRef.unary (TRef.of (T := ⟨S_, .f32⟩) main_call3_call0_v0) (TRef.of (T := ⟨S128, .f32⟩) main_call3_call0_v1) (broadcastInDim S128 ![] bcast_S_S128),
    TRef.ternary (TRef.of (T := ⟨S_, .i1⟩) main_call3_v12) (TRef.of (T := ⟨S128, .f32⟩) main_call3_v11) (TRef.of (T := ⟨S128, .f32⟩) main_call3_call0_v1) (TRef.of (T := ⟨S128, .f32⟩) main_v101) (fun p a b => select (broadcastInDim S128 ![] bcast_S_S128 p) a b) ]

abbrev opsL1b_W : List (Ref sig .tc) := [main_v99, main_v100, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v101]

abbrev opsL1c : List (HloOp τ sig (Elt F)) :=
  [ unary main_arg5 main_v102 ((extractStridedSlice S1x128 ![1, 0] · slices_S4x128_S1x128_1_0) : (⟨S4x128, .f32⟩ : BufTy).Contents (Elt F) → (⟨S1x128, .f32⟩ : BufTy).Contents (Elt F)),
    reshape main_v102 main_v103 rfl shapeCasts_S1x128_S128,
    unary main_v100 main_v104 (broadcastInDim S1x128 ![1] bcast_S128_S1x128_1 : (⟨S128, .f32⟩ : BufTy).Contents (Elt F) → (⟨S1x128, .f32⟩ : BufTy).Contents (Elt F)),
    unary main_v104 main_v105 (broadcastInDim S100000x128 ![0, 1] bcast_S1x128_S100000x128_0_1 : (⟨S1x128, .f32⟩ : BufTy).Contents (Elt F) → (⟨S100000x128, .f32⟩ : BufTy).Contents (Elt F)),
    binary main_v97 main_v105 main_v106 (subf : (⟨S100000x128, .f32⟩ : BufTy).Contents (Elt F) → (⟨S100000x128, .f32⟩ : BufTy).Contents (Elt F) → (⟨S100000x128, .f32⟩ : BufTy).Contents (Elt F)),
    unary main_v103 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v108 main_v106 main_v109 (mulf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v110 (broadcastInDim S128 ![] bcast_S_S128 : (⟨S_, .f32⟩ : BufTy).Contents (Elt F) → (⟨S128, .f32⟩ : BufTy).Contents (Elt F)),
    binary main_v101 main_v110 main_v111 (addf : (⟨S128, .f32⟩ : BufTy).Contents (Elt F) → (⟨S128, .f32⟩ : BufTy).Contents (Elt F) → (⟨S128, .f32⟩ : BufTy).Contents (Elt F)),
    unary main_v111 main_v112 (Host.rsqrt : (⟨S128, .f32⟩ : BufTy).Contents (Elt F) → (⟨S128, .f32⟩ : BufTy).Contents (Elt F)),
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v109 main_v114 main_v115 (mulf : (⟨S100000x128, .f32⟩ : BufTy).Contents (Elt F) → (⟨S100000x128, .f32⟩ : BufTy).Contents (Elt F) → (⟨S100000x128, .f32⟩ : BufTy).Contents (Elt F)),
    unary main_arg6 main_v116 ((extractStridedSlice S1x128 ![1, 0] · slices_S4x128_S1x128_1_0) : (⟨S4x128, .f32⟩ : BufTy).Contents (Elt F) → (⟨S1x128, .f32⟩ : BufTy).Contents (Elt F)),
    reshape main_v116 main_v117 rfl shapeCasts_S1x128_S128,
    unary main_v117 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v115 main_v119 main_v120 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v120) (TRef.of (T := ⟨S100000x128, .f32⟩) main_call4_v0) (TRef.of (T := ⟨S100000x128, .f32⟩) main_v121) maximumf,
    binary main_v121 main_v77 main_v122 (addf : (⟨S100000x128, .f32⟩ : BufTy).Contents (Elt F) → (⟨S100000x128, .f32⟩ : BufTy).Contents (Elt F) → (⟨S100000x128, .f32⟩ : BufTy).Contents (Elt F)) ]

abbrev opsL1c_W : List (Ref sig .tc) := [main_v102, main_v103, main_v104, main_v105, main_v106, main_v107, main_v108, main_v109, main_cst_20, main_v110, main_v111, main_v112, main_v113, main_v114, main_v115, main_v116, main_v117, main_v118, main_v119, main_v120, main_call4_cst, main_call4_v0, main_v121, main_v122]

abbrev opsL2a : List (HloOp τ sig (Elt F)) :=
  [ unary main_arg3 main_v123 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v123 main_v124 rfl shapeCasts_S1x128x128_S128x128,
    binary main_v122 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v126 ((extractStridedSlice S1x128 ![2, 0] · slices_S4x128_S1x128_2_0) : (⟨S4x128, .f32⟩ : BufTy).Contents (Elt F) → (⟨S1x128, .f32⟩ : BufTy).Contents (Elt F)),
    reshape main_v126 main_v127 rfl shapeCasts_S1x128_S128,
    unary main_v127 main_v128 (broadcastInDim S1x128 ![1] bcast_S128_S1x128_1 : (⟨S128, .f32⟩ : BufTy).Contents (Elt F) → (⟨S1x128, .f32⟩ : BufTy).Contents (Elt F)),
    unary main_v128 main_v129 (broadcastInDim S100000x128 ![0, 1] bcast_S1x128_S100000x128_0_1 : (⟨S1x128, .f32⟩ : BufTy).Contents (Elt F) → (⟨S100000x128, .f32⟩ : BufTy).Contents (Elt F)),
    binary main_v125 main_v129 main_v130 (addf : (⟨S100000x128, .f32⟩ : BufTy).Contents (Elt F) → (⟨S100000x128, .f32⟩ : BufTy).Contents (Elt F) → (⟨S100000x128, .f32⟩ : BufTy).Contents (Elt F)),
    nullary main_c_21 (constantI S_ 32 0#32),
    unary main_c_21 main_v131 (broadcastInDim S700000 ![] bcast_S_S700000 : (⟨S_, .i32⟩ : BufTy).Contents (Elt F) → (⟨S700000, .i32⟩ : BufTy).Contents (Elt F)),
    binary main_v3 main_v131 main_v132 (cmpi .slt : (⟨S700000, .i32⟩ : BufTy).Contents (Elt F) → (⟨S700000, .i32⟩ : BufTy).Contents (Elt F) → (⟨S700000, .i1⟩ : BufTy).Contents (Elt F)),
    nullary main_c_22 (constantI S_ 32 100000#32),
    unary main_c_22 main_v133 (broadcastInDim S700000 ![] bcast_S_S700000 : (⟨S_, .i32⟩ : BufTy).Contents (Elt F) → (⟨S700000, .i32⟩ : BufTy).Contents (Elt F)),
    binary main_v3 main_v133 main_v134 (addi : (⟨S700000, .i32⟩ : BufTy).Contents (Elt F) → (⟨S700000, .i32⟩ : BufTy).Contents (Elt F) → (⟨S700000, .i32⟩ : BufTy).Contents (Elt F)),
    ternary main_v132 main_v134 main_v3 main_v135 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v135 main_v136 (broadcastInDim S700000x1 ![0] bcast_S700000_S700000x1_0 : (⟨S700000, .i32⟩ : BufTy).Contents (Elt F) → (⟨S700000x1, .i32⟩ : BufTy).Contents (Elt F)),
    binary main_v130 main_v136 main_v137 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v32 main_v138 (broadcastInDim S700000x128 ![0, 1] bcast_S700000x1_S700000x128_0_1 : (⟨S700000x1, .f32⟩ : BufTy).Contents (Elt F) → (⟨S700000x128, .f32⟩ : BufTy).Contents (Elt F)),
    binary main_v138 main_v137 main_v139 (mulf : (⟨S700000x128, .f32⟩ : BufTy).Contents (Elt F) → (⟨S700000x128, .f32⟩ : BufTy).Contents (Elt F) → (⟨S700000x128, .f32⟩ : BufTy).Contents (Elt F)),
    nullary main_cst_23 (constant S_ .f32 0x00000000#32),
    unary main_cst_23 main_v140 (broadcastInDim S100000x128 ![] bcast_S_S100000x128 : (⟨S_, .f32⟩ : BufTy).Contents (Elt F) → (⟨S100000x128, .f32⟩ : BufTy).Contents (Elt F)),
    unary main_v6 main_v141 (broadcastInDim S700000x1 ![0] bcast_S700000_S700000x1_0 : (⟨S700000, .i32⟩ : BufTy).Contents (Elt F) → (⟨S700000x1, .i32⟩ : BufTy).Contents (Elt F)),
    ternary main_v140 main_v141 main_v139 main_v142 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    nullary main_cst_24 (constant S_ .f32 0x00000000#32),
    binary main_v142 main_cst_24 main_v143 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v144 (broadcastInDim S128 ![] bcast_S_S128 : (⟨S_, .f32⟩ : BufTy).Contents (Elt F) → (⟨S128, .f32⟩ : BufTy).Contents (Elt F)),
    binary main_v143 main_v144 main_v145 (Host.divf : (⟨S128, .f32⟩ : BufTy).Contents (Elt F) → (⟨S128, .f32⟩ : BufTy).Contents (Elt F) → (⟨S128, .f32⟩ : BufTy).Contents (Elt F)) ]

abbrev opsL2a_W : List (Ref sig .tc) := [main_v123, main_v124, main_v125, main_v126, main_v127, main_v128, main_v129, main_v130, main_c_21, main_v131, main_v132, main_c_22, main_v133, main_v134, main_v135, main_v136, main_v137, main_v138, main_v139, main_cst_23, main_v140, main_v141, main_v142, main_cst_24, main_v143, main_cst_25, main_v144, main_v145]

abbrev opsL2b : List (HloOp τ sig (Elt F)) :=
  [ nullary main_c_26 (constantI S_ 32 0#32),
    TRef.nullary (TRef.of (T := ⟨S_, .f32⟩) main_call5_cst) (constant S_ .f32 0x00000000#32),
    TRef.binary (TRef.of (T := ⟨S100000x128, .f32⟩) main_v142) (TRef.of (T := ⟨S_, .f32⟩) main_call5_cst) (TRef.of (T := ⟨S128, .f32⟩) main_call5_v0) (fun x v => Host.reduceAdd x v reducesTo_S100000x128_S128_d0 h_S_),
    TRef.unary (TRef.of (T := ⟨S128, .f32⟩) main_call5_v0) (TRef.of (T := ⟨S1x128, .f32⟩) main_call5_v1) (broadcastInDim S1x128 ![1] bcast_S128_S1x128_1),
    TRef.nullary (TRef.of (T := ⟨S_, .f32⟩) main_call5_cst_0) (constant S_ .f32 0x47C35000#32),
    TRef.unary (TRef.of (T := ⟨S_, .f32⟩) main_call5_cst_0) (TRef.of (T := ⟨S1x128, .f32⟩) main_call5_v2) (broadcastInDim S1x128 ![] bcast_S_S1x128),
    TRef.binary (TRef.of (T := ⟨S1x128, .f32⟩) main_call5_v1) (TRef.of (T := ⟨S1x128, .f32⟩) main_call5_v2) (TRef.of (T := ⟨S1x128, .f32⟩) main_call5_v3) Host.divf,
    TRef.unary (TRef.of (T := ⟨S1x128, .f32⟩) main_call5_v3) (TRef.of (T := ⟨S100000x128, .f32⟩) main_call5_v4) (broadcastInDim S100000x128 ![0, 1] bcast_S1x128_S100000x128_0_1),
    TRef.binary (TRef.of (T := ⟨S100000x128, .f32⟩) main_v142) (TRef.of (T := ⟨S100000x128, .f32⟩) main_call5_v4) (TRef.of (T := ⟨S100000x128, .f32⟩) main_call5_v5) subf,
    TRef.binary (TRef.of (T := ⟨S100000x128, .f32⟩) main_call5_v5) (TRef.of (T := ⟨S100000x128, .f32⟩) main_call5_v5) (TRef.of (T := ⟨S100000x128, .f32⟩) main_call5_v6) mulf,
    TRef.unary (TRef.of (T := ⟨S_, .i32⟩) main_c_26) (TRef.of (T := ⟨S_, .f32⟩) main_call5_v7) (sitofp (F := F) .f32),
    TRef.nullary (TRef.of (T := ⟨S_, .f32⟩) main_call5_cst_1) (constant S_ .f32 0x47C35000#32),
    TRef.binary (TRef.of (T := ⟨S_, .f32⟩) main_call5_cst_1) (TRef.of (T := ⟨S_, .f32⟩) main_call5_v7) (TRef.of (T := ⟨S_, .f32⟩) main_call5_v8) subf,
    TRef.nullary (TRef.of (T := ⟨S_, .f32⟩) main_call5_cst_2) (constant S_ .f32 0x00000000#32),
    TRef.binary (TRef.of (T := ⟨S100000x128, .f32⟩) main_call5_v6) (TRef.of (T := ⟨S_, .f32⟩) main_call5_cst_2) (TRef.of (T := ⟨S128, .f32⟩) main_call5_v9) (fun x v => Host.reduceAdd x v reducesTo_S100000x128_S128_d0 h_S_),
    TRef.unary (TRef.of (T := ⟨S_, .f32⟩) main_call5_v8) (TRef.of (T := ⟨S128, .f32⟩) main_call5_v10) (broadcastInDim S128 ![] bcast_S_S128),
    TRef.binary (TRef.of (T := ⟨S128, .f32⟩) main_call5_v9) (TRef.of (T := ⟨S128, .f32⟩) main_call5_v10) (TRef.of (T := ⟨S128, .f32⟩) main_call5_v11) Host.divf,
    TRef.nullary (TRef.of (T := ⟨S_, .f32⟩) main_call5_cst_3) (constant S_ .f32 0x00000000#32),
    TRef.binary (TRef.of (T := ⟨S_, .f32⟩) main_call5_v8) (TRef.of (T := ⟨S_, .f32⟩) main_call5_cst_3) (TRef.of (T := ⟨S_, .i1⟩) main_call5_v12) (cmpf (F := F) .ogt),
    TRef.nullary (TRef.of (T := ⟨S_, .f32⟩) main_call5_cst_4) (constant S_ .f32 0x7FC00000#32),
    TRef.unary (TRef.of (T := ⟨S_, .f32⟩) main_call5_cst_4) (TRef.of (T := ⟨S_, .f32⟩) main_call5_call0_v0) id,
    TRef.unary (TRef.of (T := ⟨S_, .f32⟩) main_call5_call0_v0) (TRef.of (T := ⟨S128, .f32⟩) main_call5_call0_v1) (broadcastInDim S128 ![] bcast_S_S128),
    TRef.ternary (TRef.of (T := ⟨S_, .i1⟩) main_call5_v12) (TRef.of (T := ⟨S128, .f32⟩) main_call5_v11) (TRef.of (T := ⟨S128, .f32⟩) main_call5_call0_v1) (TRef.of (T := ⟨S128, .f32⟩) main_v146) (fun p a b => select (broadcastInDim S128 ![] bcast_S_S128 p) a b),
    unary main_arg5 main_v147 ((extractStridedSlice S1x128 ![2, 0] · slices_S4x128_S1x128_2_0) : (⟨S4x128, .f32⟩ : BufTy).Contents (Elt F) → (⟨S1x128, .f32⟩ : BufTy).Contents (Elt F)),
    reshape main_v147 main_v148 rfl shapeCasts_S1x128_S128,
    unary main_v145 main_v149 (broadcastInDim S1x128 ![1] bcast_S128_S1x128_1 : (⟨S128, .f32⟩ : BufTy).Contents (Elt F) → (⟨S1x128, .f32⟩ : BufTy).Contents (Elt F)),
    unary main_v149 main_v150 (broadcastInDim S100000x128 ![0, 1] bcast_S1x128_S100000x128_0_1 : (⟨S1x128, .f32⟩ : BufTy).Contents (Elt F) → (⟨S100000x128, .f32⟩ : BufTy).Contents (Elt F)) ]

abbrev opsL2b_W : List (Ref sig .tc) := [main_c_26, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v146, main_v147, main_v148, main_v149, main_v150]

set_option maxRecDepth 8192 in
set_option maxHeartbeats 4000000 in
theorem main_part2_eq (c : Dev nD) : main_part2 (F := F) c = (seq opsL1b >>= fun _ => (seq opsL1c >>= fun _ => (seq opsL2a >>= fun _ => (seq opsL2b)))) := rfl

end Cert.RefRun

end
-- ==== Proof.RefRun4.lean ====
import proofs.«401124_j9440338117505_1_alg».proof.Proof.Gen.ReferenceIdeal
import proofs.«401124_j9440338117505_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL2c : List (HloOp τ sig (Elt F)) :=
  [ binary main_v142 main_v150 main_v151 (subf : (⟨S100000x128, .f32⟩ : BufTy).Contents (Elt F) → (⟨S100000x128, .f32⟩ : BufTy).Contents (Elt F) → (⟨S100000x128, .f32⟩ : BufTy).Contents (Elt F)),
    unary main_v148 main_v152 (broadcastInDim S1x128 ![1] bcast_S128_S1x128_1 : (⟨S128, .f32⟩ : BufTy).Contents (Elt F) → (⟨S1x128, .f32⟩ : BufTy).Contents (Elt F)),
    unary main_v152 main_v153 (broadcastInDim S100000x128 ![0, 1] bcast_S1x128_S100000x128_0_1 : (⟨S1x128, .f32⟩ : BufTy).Contents (Elt F) → (⟨S100000x128, .f32⟩ : BufTy).Contents (Elt F)),
    binary main_v153 main_v151 main_v154 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x3727C5AC#32),
    unary main_cst_27 main_v155 (broadcastInDim S128 ![] bcast_S_S128 : (⟨S_, .f32⟩ : BufTy).Contents (Elt F) → (⟨S128, .f32⟩ : BufTy).Contents (Elt F)),
    binary main_v146 main_v155 main_v156 (addf : (⟨S128, .f32⟩ : BufTy).Contents (Elt F) → (⟨S128, .f32⟩ : BufTy).Contents (Elt F) → (⟨S128, .f32⟩ : BufTy).Contents (Elt F)),
    unary main_v156 main_v157 (Host.rsqrt : (⟨S128, .f32⟩ : BufTy).Contents (Elt F) → (⟨S128, .f32⟩ : BufTy).Contents (Elt F)),
    unary main_v157 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v154 main_v159 main_v160 (mulf : (⟨S100000x128, .f32⟩ : BufTy).Contents (Elt F) → (⟨S100000x128, .f32⟩ : BufTy).Contents (Elt F) → (⟨S100000x128, .f32⟩ : BufTy).Contents (Elt F)),
    unary main_arg6 main_v161 ((extractStridedSlice S1x128 ![2, 0] · slices_S4x128_S1x128_2_0) : (⟨S4x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v160 main_v164 main_v165 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v165) (TRef.of (T := ⟨S100000x128, .f32⟩) main_call6_v0) (TRef.of (T := ⟨S100000x128, .f32⟩) main_v166) maximumf,
    binary main_v166 main_v122 main_v167 (addf : (⟨S100000x128, .f32⟩ : BufTy).Contents (Elt F) → (⟨S100000x128, .f32⟩ : BufTy).Contents (Elt F) → (⟨S100000x128, .f32⟩ : BufTy).Contents (Elt F)) ]

abbrev opsL2c_W : List (Ref sig .tc) := [main_v151, main_v152, main_v153, main_v154, main_cst_27, main_v155, main_v156, main_v157, main_v158, main_v159, main_v160, main_v161, main_v162, main_v163, main_v164, main_v165, main_call6_cst, main_call6_v0, main_v166, main_v167]

abbrev opsL3a : List (HloOp τ sig (Elt F)) :=
  [ unary main_arg3 main_v168 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v168 main_v169 rfl shapeCasts_S1x128x128_S128x128,
    binary main_v167 main_v169 main_v170 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v171 ((extractStridedSlice S1x128 ![3, 0] · slices_S4x128_S1x128_3_0) : (⟨S4x128, .f32⟩ : BufTy).Contents (Elt F) → (⟨S1x128, .f32⟩ : BufTy).Contents (Elt F)),
    reshape main_v171 main_v172 rfl shapeCasts_S1x128_S128,
    unary main_v172 main_v173 (broadcastInDim S1x128 ![1] bcast_S128_S1x128_1 : (⟨S128, .f32⟩ : BufTy).Contents (Elt F) → (⟨S1x128, .f32⟩ : BufTy).Contents (Elt F)),
    unary main_v173 main_v174 (broadcastInDim S100000x128 ![0, 1] bcast_S1x128_S100000x128_0_1 : (⟨S1x128, .f32⟩ : BufTy).Contents (Elt F) → (⟨S100000x128, .f32⟩ : BufTy).Contents (Elt F)),
    binary main_v170 main_v174 main_v175 (addf : (⟨S100000x128, .f32⟩ : BufTy).Contents (Elt F) → (⟨S100000x128, .f32⟩ : BufTy).Contents (Elt F) → (⟨S100000x128, .f32⟩ : BufTy).Contents (Elt F)),
    nullary main_c_28 (constantI S_ 32 0#32),
    unary main_c_28 main_v176 (broadcastInDim S700000 ![] bcast_S_S700000 : (⟨S_, .i32⟩ : BufTy).Contents (Elt F) → (⟨S700000, .i32⟩ : BufTy).Contents (Elt F)),
    binary main_v3 main_v176 main_v177 (cmpi .slt : (⟨S700000, .i32⟩ : BufTy).Contents (Elt F) → (⟨S700000, .i32⟩ : BufTy).Contents (Elt F) → (⟨S700000, .i1⟩ : BufTy).Contents (Elt F)),
    nullary main_c_29 (constantI S_ 32 100000#32),
    unary main_c_29 main_v178 (broadcastInDim S700000 ![] bcast_S_S700000 : (⟨S_, .i32⟩ : BufTy).Contents (Elt F) → (⟨S700000, .i32⟩ : BufTy).Contents (Elt F)),
    binary main_v3 main_v178 main_v179 (addi : (⟨S700000, .i32⟩ : BufTy).Contents (Elt F) → (⟨S700000, .i32⟩ : BufTy).Contents (Elt F) → (⟨S700000, .i32⟩ : BufTy).Contents (Elt F)),
    ternary main_v177 main_v179 main_v3 main_v180 (select : (⟨S700000, .i1⟩ : BufTy).Contents (Elt F) → (⟨S700000, .i32⟩ : BufTy).Contents (Elt F) → (⟨S700000, .i32⟩ : BufTy).Contents (Elt F) → (⟨S700000, .i32⟩ : BufTy).Contents (Elt F)),
    unary main_v180 main_v181 (broadcastInDim S700000x1 ![0] bcast_S700000_S700000x1_0 : (⟨S700000, .i32⟩ : BufTy).Contents (Elt F) → (⟨S700000x1, .i32⟩ : BufTy).Contents (Elt F)),
    binary main_v175 main_v181 main_v182 ((fun x i => Host.gather gather_S100000x128_S700000x1_S700000x128_1_0_n_n_0_1_1128 x i) : (⟨S100000x128, .f32⟩ : BufTy).Contents (Elt F) → (⟨S700000x1, .i32⟩ : BufTy).Contents (Elt F) → (⟨S700000x128, .f32⟩ : BufTy).Contents (Elt F)),
    unary main_v32 main_v183 (broadcastInDim S700000x128 ![0, 1] bcast_S700000x1_S700000x128_0_1 : (⟨S700000x1, .f32⟩ : BufTy).Contents (Elt F) → (⟨S700000x128, .f32⟩ : BufTy).Contents (Elt F)),
    binary main_v183 main_v182 main_v184 (mulf : (⟨S700000x128, .f32⟩ : BufTy).Contents (Elt F) → (⟨S700000x128, .f32⟩ : BufTy).Contents (Elt F) → (⟨S700000x128, .f32⟩ : BufTy).Contents (Elt F)),
    nullary main_cst_30 (constant S_ .f32 0x00000000#32),
    unary main_cst_30 main_v185 (broadcastInDim S100000x128 ![] bcast_S_S100000x128 : (⟨S_, .f32⟩ : BufTy).Contents (Elt F) → (⟨S100000x128, .f32⟩ : BufTy).Contents (Elt F)),
    unary main_v6 main_v186 (broadcastInDim S700000x1 ![0] bcast_S700000_S700000x1_0 : (⟨S700000, .i32⟩ : BufTy).Contents (Elt F) → (⟨S700000x1, .i32⟩ : BufTy).Contents (Elt F)),
    ternary main_v185 main_v186 main_v184 main_v187 ((fun x i u => Host.scatterAdd scatter_S100000x128_S700000x1_S700000x128_1_0_0_1 x i u) : (⟨S100000x128, .f32⟩ : BufTy).Contents (Elt F) → (⟨S700000x1, .i32⟩ : BufTy).Contents (Elt F) → (⟨S700000x128, .f32⟩ : BufTy).Contents (Elt F) → (⟨S100000x128, .f32⟩ : BufTy).Contents (Elt F)),
    nullary main_cst_31 (constant S_ .f32 0x00000000#32),
    binary main_v187 main_cst_31 main_v188 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_32 (constant S_ .f32 0x47C35000#32),
    unary main_cst_32 main_v189 (broadcastInDim S128 ![] bcast_S_S128 : (⟨S_, .f32⟩ : BufTy).Contents (Elt F) → (⟨S128, .f32⟩ : BufTy).Contents (Elt F)),
    binary main_v188 main_v189 main_v190 (Host.divf : (⟨S128, .f32⟩ : BufTy).Contents (Elt F) → (⟨S128, .f32⟩ : BufTy).Contents (Elt F) → (⟨S128, .f32⟩ : BufTy).Contents (Elt F)),
    nullary main_c_33 (constantI S_ 32 0#32),
    TRef.nullary (TRef.of (T := ⟨S_, .f32⟩) main_call7_cst) (constant S_ .f32 0x00000000#32),
    TRef.binary (TRef.of (T := ⟨S100000x128, .f32⟩) main_v187) (TRef.of (T := ⟨S_, .f32⟩) main_call7_cst) (TRef.of (T := ⟨S128, .f32⟩) main_call7_v0) (fun x v => Host.reduceAdd x v reducesTo_S100000x128_S128_d0 h_S_),
    TRef.unary (TRef.of (T := ⟨S128, .f32⟩) main_call7_v0) (TRef.of (T := ⟨S1x128, .f32⟩) main_call7_v1) (broadcastInDim S1x128 ![1] bcast_S128_S1x128_1) ]

abbrev opsL3a_W : List (Ref sig .tc) := [main_v168, main_v169, main_v170, main_v171, main_v172, main_v173, main_v174, main_v175, main_c_28, main_v176, main_v177, main_c_29, main_v178, main_v179, main_v180, main_v181, main_v182, main_v183, main_v184, main_cst_30, main_v185, main_v186, main_v187, main_cst_31, main_v188, main_cst_32, main_v189, main_v190, main_c_33, main_call7_cst, main_call7_v0, main_call7_v1]

abbrev opsL3b : List (HloOp τ sig (Elt F)) :=
  [ TRef.nullary (TRef.of (T := ⟨S_, .f32⟩) main_call7_cst_0) (constant S_ .f32 0x47C35000#32),
    TRef.unary (TRef.of (T := ⟨S_, .f32⟩) main_call7_cst_0) (TRef.of (T := ⟨S1x128, .f32⟩) main_call7_v2) (broadcastInDim S1x128 ![] bcast_S_S1x128),
    TRef.binary (TRef.of (T := ⟨S1x128, .f32⟩) main_call7_v1) (TRef.of (T := ⟨S1x128, .f32⟩) main_call7_v2) (TRef.of (T := ⟨S1x128, .f32⟩) main_call7_v3) Host.divf,
    TRef.unary (TRef.of (T := ⟨S1x128, .f32⟩) main_call7_v3) (TRef.of (T := ⟨S100000x128, .f32⟩) main_call7_v4) (broadcastInDim S100000x128 ![0, 1] bcast_S1x128_S100000x128_0_1),
    TRef.binary (TRef.of (T := ⟨S100000x128, .f32⟩) main_v187) (TRef.of (T := ⟨S100000x128, .f32⟩) main_call7_v4) (TRef.of (T := ⟨S100000x128, .f32⟩) main_call7_v5) subf,
    TRef.binary (TRef.of (T := ⟨S100000x128, .f32⟩) main_call7_v5) (TRef.of (T := ⟨S100000x128, .f32⟩) main_call7_v5) (TRef.of (T := ⟨S100000x128, .f32⟩) main_call7_v6) mulf,
    TRef.unary (TRef.of (T := ⟨S_, .i32⟩) main_c_33) (TRef.of (T := ⟨S_, .f32⟩) main_call7_v7) (sitofp (F := F) .f32),
    TRef.nullary (TRef.of (T := ⟨S_, .f32⟩) main_call7_cst_1) (constant S_ .f32 0x47C35000#32),
    TRef.binary (TRef.of (T := ⟨S_, .f32⟩) main_call7_cst_1) (TRef.of (T := ⟨S_, .f32⟩) main_call7_v7) (TRef.of (T := ⟨S_, .f32⟩) main_call7_v8) subf,
    TRef.nullary (TRef.of (T := ⟨S_, .f32⟩) main_call7_cst_2) (constant S_ .f32 0x00000000#32),
    TRef.binary (TRef.of (T := ⟨S100000x128, .f32⟩) main_call7_v6) (TRef.of (T := ⟨S_, .f32⟩) main_call7_cst_2) (TRef.of (T := ⟨S128, .f32⟩) main_call7_v9) (fun x v => Host.reduceAdd x v reducesTo_S100000x128_S128_d0 h_S_),
    TRef.unary (TRef.of (T := ⟨S_, .f32⟩) main_call7_v8) (TRef.of (T := ⟨S128, .f32⟩) main_call7_v10) (broadcastInDim S128 ![] bcast_S_S128),
    TRef.binary (TRef.of (T := ⟨S128, .f32⟩) main_call7_v9) (TRef.of (T := ⟨S128, .f32⟩) main_call7_v10) (TRef.of (T := ⟨S128, .f32⟩) main_call7_v11) Host.divf,
    TRef.nullary (TRef.of (T := ⟨S_, .f32⟩) main_call7_cst_3) (constant S_ .f32 0x00000000#32),
    TRef.binary (TRef.of (T := ⟨S_, .f32⟩) main_call7_v8) (TRef.of (T := ⟨S_, .f32⟩) main_call7_cst_3) (TRef.of (T := ⟨S_, .i1⟩) main_call7_v12) (cmpf (F := F) .ogt),
    TRef.nullary (TRef.of (T := ⟨S_, .f32⟩) main_call7_cst_4) (constant S_ .f32 0x7FC00000#32),
    TRef.unary (TRef.of (T := ⟨S_, .f32⟩) main_call7_cst_4) (TRef.of (T := ⟨S_, .f32⟩) main_call7_call0_v0) id,
    TRef.unary (TRef.of (T := ⟨S_, .f32⟩) main_call7_call0_v0) (TRef.of (T := ⟨S128, .f32⟩) main_call7_call0_v1) (broadcastInDim S128 ![] bcast_S_S128),
    TRef.ternary (TRef.of (T := ⟨S_, .i1⟩) main_call7_v12) (TRef.of (T := ⟨S128, .f32⟩) main_call7_v11) (TRef.of (T := ⟨S128, .f32⟩) main_call7_call0_v1) (TRef.of (T := ⟨S128, .f32⟩) main_v191) (fun p a b => select (broadcastInDim S128 ![] bcast_S_S128 p) a b),
    unary main_arg5 main_v192 ((extractStridedSlice S1x128 ![3, 0] · slices_S4x128_S1x128_3_0) : (⟨S4x128, .f32⟩ : BufTy).Contents (Elt F) → (⟨S1x128, .f32⟩ : BufTy).Contents (Elt F)),
    reshape main_v192 main_v193 rfl shapeCasts_S1x128_S128,
    unary main_v190 main_v194 (broadcastInDim S1x128 ![1] bcast_S128_S1x128_1 : (⟨S128, .f32⟩ : BufTy).Contents (Elt F) → (⟨S1x128, .f32⟩ : BufTy).Contents (Elt F)),
    unary main_v194 main_v195 (broadcastInDim S100000x128 ![0, 1] bcast_S1x128_S100000x128_0_1 : (⟨S1x128, .f32⟩ : BufTy).Contents (Elt F) → (⟨S100000x128, .f32⟩ : BufTy).Contents (Elt F)),
    binary main_v187 main_v195 main_v196 (subf : (⟨S100000x128, .f32⟩ : BufTy).Contents (Elt F) → (⟨S100000x128, .f32⟩ : BufTy).Contents (Elt F) → (⟨S100000x128, .f32⟩ : BufTy).Contents (Elt F)),
    unary main_v193 main_v197 (broadcastInDim S1x128 ![1] bcast_S128_S1x128_1 : (⟨S128, .f32⟩ : BufTy).Contents (Elt F) → (⟨S1x128, .f32⟩ : BufTy).Contents (Elt F)),
    unary main_v197 main_v198 (broadcastInDim S100000x128 ![0, 1] bcast_S1x128_S100000x128_0_1 : (⟨S1x128, .f32⟩ : BufTy).Contents (Elt F) → (⟨S100000x128, .f32⟩ : BufTy).Contents (Elt F)),
    binary main_v198 main_v196 main_v199 (mulf : (⟨S100000x128, .f32⟩ : BufTy).Contents (Elt F) → (⟨S100000x128, .f32⟩ : BufTy).Contents (Elt F) → (⟨S100000x128, .f32⟩ : BufTy).Contents (Elt F)),
    nullary main_cst_34 (constant S_ .f32 0x3727C5AC#32),
    unary main_cst_34 main_v200 (broadcastInDim S128 ![] bcast_S_S128 : (⟨S_, .f32⟩ : BufTy).Contents (Elt F) → (⟨S128, .f32⟩ : BufTy).Contents (Elt F)),
    binary main_v191 main_v200 main_v201 (addf : (⟨S128, .f32⟩ : BufTy).Contents (Elt F) → (⟨S128, .f32⟩ : BufTy).Contents (Elt F) → (⟨S128, .f32⟩ : BufTy).Contents (Elt F)),
    unary main_v201 main_v202 (Host.rsqrt : (⟨S128, .f32⟩ : BufTy).Contents (Elt F) → (⟨S128, .f32⟩ : BufTy).Contents (Elt F)) ]

abbrev opsL3b_W : List (Ref sig .tc) := [main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v191, main_v192, main_v193, main_v194, main_v195, main_v196, main_v197, main_v198, main_v199, main_cst_34, main_v200, main_v201, main_v202]

set_option maxRecDepth 8192 in
set_option maxHeartbeats 4000000 in
theorem main_part3_eq (c : Dev nD) : main_part3 (F := F) c = (seq opsL2c >>= fun _ => (seq opsL3a >>= fun _ => (seq opsL3b))) := rfl

end Cert.RefRun

end
-- ==== Proof.RefRun5.lean ====
import proofs.«401124_j9440338117505_1_alg».proof.Proof.Gen.ReferenceIdeal
import proofs.«401124_j9440338117505_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL3c : List (HloOp τ sig (Elt F)) :=
  [ unary main_v202 main_v203 (broadcastInDim S1x128 ![1] bcast_S128_S1x128_1 : (⟨S128, .f32⟩ : BufTy).Contents (Elt F) → (⟨S1x128, .f32⟩ : BufTy).Contents (Elt F)),
    unary main_v203 main_v204 (broadcastInDim S100000x128 ![0, 1] bcast_S1x128_S100000x128_0_1 : (⟨S1x128, .f32⟩ : BufTy).Contents (Elt F) → (⟨S100000x128, .f32⟩ : BufTy).Contents (Elt F)),
    binary main_v199 main_v204 main_v205 (mulf : (⟨S100000x128, .f32⟩ : BufTy).Contents (Elt F) → (⟨S100000x128, .f32⟩ : BufTy).Contents (Elt F) → (⟨S100000x128, .f32⟩ : BufTy).Contents (Elt F)),
    unary main_arg6 main_v206 ((extractStridedSlice S1x128 ![3, 0] · slices_S4x128_S1x128_3_0) : (⟨S4x128, .f32⟩ : BufTy).Contents (Elt F) → (⟨S1x128, .f32⟩ : BufTy).Contents (Elt F)),
    reshape main_v206 main_v207 rfl shapeCasts_S1x128_S128,
    unary main_v207 main_v208 (broadcastInDim S1x128 ![1] bcast_S128_S1x128_1 : (⟨S128, .f32⟩ : BufTy).Contents (Elt F) → (⟨S1x128, .f32⟩ : BufTy).Contents (Elt F)),
    unary main_v208 main_v209 (broadcastInDim S100000x128 ![0, 1] bcast_S1x128_S100000x128_0_1 : (⟨S1x128, .f32⟩ : BufTy).Contents (Elt F) → (⟨S100000x128, .f32⟩ : BufTy).Contents (Elt F)),
    binary main_v205 main_v209 main_v210 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v210) (TRef.of (T := ⟨S100000x128, .f32⟩) main_call8_v0) (TRef.of (T := ⟨S100000x128, .f32⟩) main_v211) maximumf,
    binary main_v211 main_v167 main_v212 (addf : (⟨S100000x128, .f32⟩ : BufTy).Contents (Elt F) → (⟨S100000x128, .f32⟩ : BufTy).Contents (Elt F) → (⟨S100000x128, .f32⟩ : BufTy).Contents (Elt F)) ]

abbrev opsL3c_W : List (Ref sig .tc) := [main_v203, main_v204, main_v205, main_v206, main_v207, main_v208, main_v209, main_v210, main_call8_cst, main_call8_v0, main_v211, main_v212]

abbrev opsT : List (HloOp τ sig (Elt F)) :=
  [ nullary main_cst_35 (constant S_ .f32 0x00000000#32),
    unary main_cst_35 main_v213 (broadcastInDim S64x128 ![] bcast_S_S64x128 : (⟨S_, .f32⟩ : BufTy).Contents (Elt F) → (⟨S64x128, .f32⟩ : BufTy).Contents (Elt F)),
    unary main_arg2 main_v214 (broadcastInDim S100000x1 ![0] bcast_S100000_S100000x1_0 : (⟨S100000, .i32⟩ : BufTy).Contents (Elt F) → (⟨S100000x1, .i32⟩ : BufTy).Contents (Elt F)),
    ternary main_v213 main_v214 main_v212 main_v215 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_36 (constant S_ .f32 0x3F800000#32),
    unary main_cst_36 main_v216 (broadcastInDim S100000 ![] bcast_S_S100000 : (⟨S_, .f32⟩ : BufTy).Contents (Elt F) → (⟨S100000, .f32⟩ : BufTy).Contents (Elt F)),
    nullary main_cst_37 (constant S_ .f32 0x00000000#32),
    unary main_cst_37 main_v217 (broadcastInDim S64 ![] bcast_S_S64 : (⟨S_, .f32⟩ : BufTy).Contents (Elt F) → (⟨S64, .f32⟩ : BufTy).Contents (Elt F)),
    unary main_arg2 main_v218 (broadcastInDim S100000x1 ![0] bcast_S100000_S100000x1_0 : (⟨S100000, .i32⟩ : BufTy).Contents (Elt F) → (⟨S100000x1, .i32⟩ : BufTy).Contents (Elt F)),
    ternary main_v217 main_v218 main_v216 main_v219 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_38 (constant S_ .f32 0x3F800000#32),
    unary main_cst_38 main_v220 (broadcastInDim S64 ![] bcast_S_S64 : (⟨S_, .f32⟩ : BufTy).Contents (Elt F) → (⟨S64, .f32⟩ : BufTy).Contents (Elt F)),
    binary main_v219 main_v220 main_v221 (maximumf : (⟨S64, .f32⟩ : BufTy).Contents (Elt F) → (⟨S64, .f32⟩ : BufTy).Contents (Elt F) → (⟨S64, .f32⟩ : BufTy).Contents (Elt F)),
    unary main_v221 main_v222 (broadcastInDim S64x1 ![0] bcast_S64_S64x1_0 : (⟨S64, .f32⟩ : BufTy).Contents (Elt F) → (⟨S64x1, .f32⟩ : BufTy).Contents (Elt F)),
    unary main_v222 main_v223 (broadcastInDim S64x128 ![0, 1] bcast_S64x1_S64x128_0_1 : (⟨S64x1, .f32⟩ : BufTy).Contents (Elt F) → (⟨S64x128, .f32⟩ : BufTy).Contents (Elt F)),
    binary main_v215 main_v223 main_v224 (Host.divf : (⟨S64x128, .f32⟩ : BufTy).Contents (Elt F) → (⟨S64x128, .f32⟩ : BufTy).Contents (Elt F) → (⟨S64x128, .f32⟩ : BufTy).Contents (Elt F)),
    binary main_v224 main_arg7 main_v225 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg8 main_v226 (broadcastInDim S1x64 ![1] bcast_S64_S1x64_1 : (⟨S64, .f32⟩ : BufTy).Contents (Elt F) → (⟨S1x64, .f32⟩ : BufTy).Contents (Elt F)),
    unary main_v226 main_v227 (broadcastInDim S64x64 ![0, 1] bcast_S1x64_S64x64_0_1 : (⟨S1x64, .f32⟩ : BufTy).Contents (Elt F) → (⟨S64x64, .f32⟩ : BufTy).Contents (Elt F)),
    binary main_v225 main_v227 main_v228 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S64x64, .f32⟩) main_call9_v0) (broadcastInDim S64x64 ![] bcast_S_S64x64),
    TRef.binary (TRef.of (T := ⟨S64x64, .f32⟩) main_v228) (TRef.of (T := ⟨S64x64, .f32⟩) main_call9_v0) (TRef.of (T := ⟨S64x64, .f32⟩) main_v229) maximumf,
    binary main_v229 main_arg9 main_v230 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    unary main_arg10 main_v231 (broadcastInDim S1x2 ![1] bcast_S2_S1x2_1 : (⟨S2, .f32⟩ : BufTy).Contents (Elt F) → (⟨S1x2, .f32⟩ : BufTy).Contents (Elt F)),
    unary main_v231 main_v232 (broadcastInDim S64x2 ![0, 1] bcast_S1x2_S64x2_0_1 : (⟨S1x2, .f32⟩ : BufTy).Contents (Elt F) → (⟨S64x2, .f32⟩ : BufTy).Contents (Elt F)),
    binary main_v230 main_v232 main_v233 (addf : (⟨S64x2, .f32⟩ : BufTy).Contents (Elt F) → (⟨S64x2, .f32⟩ : BufTy).Contents (Elt F) → (⟨S64x2, .f32⟩ : BufTy).Contents (Elt F)) ]

abbrev opsT_W : List (Ref sig .tc) := [main_cst_35, main_v213, main_v214, main_v215, main_cst_36, main_v216, main_cst_37, main_v217, main_v218, main_v219, main_cst_38, main_v220, main_v221, main_v222, main_v223, main_v224, main_v225, main_v226, main_v227, main_v228, main_call9_cst, main_call9_v0, main_v229, main_v230, main_v231, main_v232, main_v233]

set_option maxRecDepth 8192 in
set_option maxHeartbeats 4000000 in
theorem main_part4_eq (c : Dev nD) : main_part4 (F := F) c = (seq opsL3c >>= fun _ => (seq opsT)) := rfl

end Cert.RefRun

end
-- ==== Proof.RefRun.lean ====
import proofs.«401124_j9440338117505_1_alg».proof.Proof.RefRun1
import proofs.«401124_j9440338117505_1_alg».proof.Proof.RefRun2
import proofs.«401124_j9440338117505_1_alg».proof.Proof.RefRun3
import proofs.«401124_j9440338117505_1_alg».proof.Proof.RefRun4
import proofs.«401124_j9440338117505_1_alg».proof.Proof.RefRun5
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  opsEa ++ (opsEb ++ (opsEc ++ (opsL0a ++ (opsL0b ++ (opsL0c ++ (opsL1a ++ (opsL1b ++ (opsL1c ++ (opsL2a ++ (opsL2b ++ (opsL2c ++ (opsL3a ++ (opsL3b ++ (opsL3c ++ (opsT)))))))))))))))

theorem main_eq (c : Dev nD) : main (F := F) c = seq ops := by
  simp only [ops, seq_append]
  simp only [main, main_part0_eq, main_part1_eq, main_part2_eq, main_part3_eq, main_part4_eq, bind_assoc]

theorem ops_sub : (ops : List (HloOp τ sig (Elt F))).Forall fun op => op.bufs ⊆ tcRefs τ sig := by
  simp only [ops, List.forall_append, List.Forall, nullary_bufs_sub, unary_bufs_sub, binary_bufs_sub, ternary_bufs_sub,
    reshape_bufs_sub, and_self]

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after (ops (F := F)) (StableHlo.launchContents m d) (Proc.devRef .tc b) :=
  run_seq (by decide) (by decide) defs main (fun _ => ops) main_eq (fun _ => ops_sub) m ρ fun _ => fresh_of_map (n := 371) rfl

theorem ops_keep (V : Valuation τ sig (Elt F)) {r : Ref sig .tc}
    (h : r ∉ opsEa_W ++ (opsEb_W ++ (opsEc_W ++ (opsL0a_W ++ (opsL0b_W ++ (opsL0c_W ++ (opsL1a_W ++ (opsL1b_W ++ (opsL1c_W ++ (opsL2a_W ++ (opsL2b_W ++ (opsL2c_W ++ (opsL3a_W ++ (opsL3b_W ++ (opsL3c_W ++ (opsT_W)))))))))))))))) :
    after ops V (Proc.devRef .tc r) = V (Proc.devRef .tc r) :=
  keep_of_writes rfl V h

theorem arg_0 (V : Valuation τ sig (Elt F)) :
    StableHlo.after (ops (F := F)) V (Proc.devRef .tc main_arg0) = V (Proc.devRef .tc main_arg0) := ops_keep V (by decide)

theorem arg_1 (V : Valuation τ sig (Elt F)) :
    StableHlo.after (ops (F := F)) V (Proc.devRef .tc main_arg1) = V (Proc.devRef .tc main_arg1) := ops_keep V (by decide)

theorem arg_2 (V : Valuation τ sig (Elt F)) :
    StableHlo.after (ops (F := F)) V (Proc.devRef .tc main_arg2) = V (Proc.devRef .tc main_arg2) := ops_keep V (by decide)

theorem arg_3 (V : Valuation τ sig (Elt F)) :
    StableHlo.after (ops (F := F)) V (Proc.devRef .tc main_arg3) = V (Proc.devRef .tc main_arg3) := ops_keep V (by decide)

theorem arg_4 (V : Valuation τ sig (Elt F)) :
    StableHlo.after (ops (F := F)) V (Proc.devRef .tc main_arg4) = V (Proc.devRef .tc main_arg4) := ops_keep V (by decide)

theorem arg_5 (V : Valuation τ sig (Elt F)) :
    StableHlo.after (ops (F := F)) V (Proc.devRef .tc main_arg5) = V (Proc.devRef .tc main_arg5) := ops_keep V (by decide)

theorem arg_6 (V : Valuation τ sig (Elt F)) :
    StableHlo.after (ops (F := F)) V (Proc.devRef .tc main_arg6) = V (Proc.devRef .tc main_arg6) := ops_keep V (by decide)

theorem arg_7 (V : Valuation τ sig (Elt F)) :
    StableHlo.after (ops (F := F)) V (Proc.devRef .tc main_arg7) = V (Proc.devRef .tc main_arg7) := ops_keep V (by decide)

theorem arg_8 (V : Valuation τ sig (Elt F)) :
    StableHlo.after (ops (F := F)) V (Proc.devRef .tc main_arg8) = V (Proc.devRef .tc main_arg8) := ops_keep V (by decide)

theorem arg_9 (V : Valuation τ sig (Elt F)) :
    StableHlo.after (ops (F := F)) V (Proc.devRef .tc main_arg9) = V (Proc.devRef .tc main_arg9) := ops_keep V (by decide)

theorem arg_10 (V : Valuation τ sig (Elt F)) :
    StableHlo.after (ops (F := F)) V (Proc.devRef .tc main_arg10) = V (Proc.devRef .tc main_arg10) := ops_keep V (by decide)

end Cert.RefRun

end
-- ==== Proof.RChainE.lean ====
import proofs.«401124_j9440338117505_1_alg».proof.Proof.Gen.ReferenceIdeal
import Idealize.ShloMosaic.Lib.StableHlo.Run
import Idealize.ShloMosaic.Lib.Pipeline.Frame
import proofs.«401124_j9440338117505_1_alg».proof.Proof.AggOps
import proofs.«401124_j9440338117505_1_alg».proof.Proof.RefRun1

noncomputable section

namespace Cert.GCN.RChain

open Idealize.ShloMosaic Idealize.SL.Sem Idealize.ShloMosaic.StableHlo
open Cert.ReferenceIdeal Cert.ReferenceIdeal.Facts₀ Cert.ReferenceIdeal.Facts Cert.RefRun

variable [Cert.KernelIdeal.Facts]
variable {F : FTy → Type} [FloatOps F]

theorem Ea_v0 (V : Valuation τ sig (Elt F)) :
    after opsEa V (Proc.devRef .tc main_v0) = iotaInDim S100000 32 0 := by
  after_results

theorem Ea_v2 (V : Valuation τ sig (Elt F)) :
    after opsEa V (Proc.devRef .tc main_v2)
      = shapeCast S600000 (extractStridedSlice S1x600000 ![0, 0] (V (Proc.devRef .tc main_arg1)) slices_S2x600000_S1x600000_0_0) shapeCasts_S1x600000_S600000 := by
  after_results
  rfl

theorem src_of (V : Valuation τ sig (Elt F)) (e : IVec S2x600000 32)
    (h2 : V (Proc.devRef .tc main_v2) = shapeCast S600000 (extractStridedSlice S1x600000 ![0, 0] e slices_S2x600000_S1x600000_0_0) shapeCasts_S1x600000_S600000)
    (h0 : V (Proc.devRef .tc main_v0) = iotaInDim S100000 32 0) :
    after opsEb V (Proc.devRef .tc main_v3) = Cert.GCN.Ops.srcV e := by
  after_results
  rw [h2, h0]
  rfl

theorem Eb_v5 (V : Valuation τ sig (Elt F)) :
    after opsEb V (Proc.devRef .tc main_v5)
      = shapeCast S600000 (extractStridedSlice S1x600000 ![1, 0] (V (Proc.devRef .tc main_arg1)) slices_S2x600000_S1x600000_1_0) shapeCasts_S1x600000_S600000 := by
  after_results
  rfl

theorem dst_of (V : Valuation τ sig (Elt F)) (e : IVec S2x600000 32)
    (h5 : V (Proc.devRef .tc main_v5) = shapeCast S600000 (extractStridedSlice S1x600000 ![1, 0] e slices_S2x600000_S1x600000_1_0) shapeCasts_S1x600000_S600000)
    (h0 : V (Proc.devRef .tc main_v0) = iotaInDim S100000 32 0) :
    after opsEc V (Proc.devRef .tc main_v6) = Cert.GCN.Ops.dstV e := by
  after_results_simp
  rw [h5, h0]
  rfl

theorem nrm_of (V : Valuation τ sig (Elt F)) (e : IVec S2x600000 32)
    (h3 : V (Proc.devRef .tc main_v3) = Cert.GCN.Ops.srcV e)
    (h5 : V (Proc.devRef .tc main_v5) = shapeCast S600000 (extractStridedSlice S1x600000 ![1, 0] e slices_S2x600000_S1x600000_1_0) shapeCasts_S1x600000_S600000)
    (h0 : V (Proc.devRef .tc main_v0) = iotaInDim S100000 32 0) :
    after opsEc V (Proc.devRef .tc main_v32) = Cert.GCN.Ops.nrmV (F := F) e := by
  after_results_simp
  simp only [TRef.ofBuf, TRef.toBuf, cast_eq]
  rw [h3, h5, h0]
  rfl

section Chain
variable (V : Valuation τ sig (Elt F))

abbrev eiOf : IVec S2x600000 32 := V (Proc.devRef .tc main_arg1)

theorem Eab_src : after opsEb (after opsEa V) (Proc.devRef .tc main_v3) = Cert.GCN.Ops.srcV (eiOf V) :=
  src_of (after opsEa V) (eiOf V) (Ea_v2 V) (Ea_v0 V)

theorem Eab_v5 : after opsEb (after opsEa V) (Proc.devRef .tc main_v5)
    = shapeCast S600000 (extractStridedSlice S1x600000 ![1, 0] (eiOf V) slices_S2x600000_S1x600000_1_0) shapeCasts_S1x600000_S600000 := by
  rw [Eb_v5, opsEa_keep V main_arg1 (by decide)]

theorem Eab_v0 : after opsEb (after opsEa V) (Proc.devRef .tc main_v0) = iotaInDim S100000 32 0 := by
  rw [opsEb_keep _ main_v0 (by decide), Ea_v0]

theorem E3_src : after opsEc (after opsEb (after opsEa V)) (Proc.devRef .tc main_v3) = Cert.GCN.Ops.srcV (eiOf V) := by
  rw [opsEc_keep _ main_v3 (by decide), Eab_src]

theorem E3_dst : after opsEc (after opsEb (after opsEa V)) (Proc.devRef .tc main_v6) = Cert.GCN.Ops.dstV (eiOf V) :=
  dst_of (after opsEb (after opsEa V)) (eiOf V) (Eab_v5 V) (Eab_v0 V)

theorem E3_nrm : after opsEc (after opsEb (after opsEa V)) (Proc.devRef .tc main_v32) = Cert.GCN.Ops.nrmV (F := F) (eiOf V) :=
  nrm_of (after opsEb (after opsEa V)) (eiOf V) (Eab_src V) (Eab_v5 V) (Eab_v0 V)

end Chain

end Cert.GCN.RChain

end
-- ==== Proof.RChainLayer.lean ====
import proofs.«401124_j9440338117505_1_alg».proof.ReferenceIdeal
import proofs.«401124_j9440338117505_1_alg».proof.Proof.AggOps
import proofs.«401124_j9440338117505_1_alg».proof.Proof.LayerLaw
import Idealize.ShloMosaic.Lib.IdealHost
import Idealize.ShloMosaic.Lib.ValueLayout
import Idealize.ShloMosaic.Lib.Pipeline.Value
import Idealize.ShloMosaic.Lib.KernelVsHost
import Idealize.ShloMosaic.Lib.StackMember

noncomputable section

namespace Cert.GCN.RChain

open Cert.ReferenceIdeal Cert.ReferenceIdeal.Facts₀ Cert.ReferenceIdeal.Facts Idealize.ShloMosaic Idealize.SL.Sem
open Idealize.ShloMosaic.ValueIdx

variable [Cert.KernelIdeal.Facts] [Cert.ReferenceIdeal.Facts]

def statRow (v : FVec Ideal S128 .f32) : FVec Ideal S100000x128 .f32 :=
  broadcastInDim S100000x128 ![0, 1] bcast_S1x128_S100000x128_0_1 (broadcastInDim S1x128 ![1] bcast_S128_S1x128_1 v)

def rowSel (o : Nat) (hs : S4x128.Slices ![o, 0] S1x128) (p : FVec Ideal S4x128 .f32) : FVec Ideal S128 .f32 :=
  shapeCast S128 (extractStridedSlice S1x128 ![o, 0] p hs) shapeCasts_S1x128_S128

def linV (o : Nat) (hs : S4x128x128.Slices ![o, 0, 0] S1x128x128) (hs' : S4x128.Slices ![o, 0] S1x128)
    (x : FVec Ideal S100000x128 .f32) (cw : FVec Ideal S4x128x128 .f32) (cb : FVec Ideal S4x128 .f32) :
    FVec Ideal S100000x128 .f32 :=
  addf (Host.dotGeneral dot_S100000x128_S128x128_S100000x128_1_0_0_1_n_n none x
      (shapeCast S128x128 (extractStridedSlice S1x128x128 ![o, 0, 0] cw hs) shapeCasts_S1x128x128_S128x128))
    (statRow (rowSel o hs' cb))

def aggRaw (s d : IVec S700000 32) (n : FVec Ideal S700000x1 .f32) (h : FVec Ideal S100000x128 .f32) :
    FVec Ideal S100000x128 .f32 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 d)
    (mulf
      (broadcastInDim S700000x128 ![0, 1] bcast_S700000x1_S700000x128_0_1 n)
      (Host.gather gather_S100000x128_S700000x1_S700000x128_1_0_n_n_0_1_1128 h
        (broadcastInDim S700000x1 ![0] bcast_S700000_S700000x1_0
          (select (cmpi .slt s (broadcastInDim S700000 ![] bcast_S_S700000 (constantI S_ 32 0#32)))
            (addi s (broadcastInDim S700000 ![] bcast_S_S700000 (constantI S_ 32 100000#32)))
            s))))

def sumRaw (a : FVec Ideal S100000x128 .f32) : FVec Ideal S128 .f32 :=
  Host.reduceAdd a (constant S_ .f32 0x00000000#32) reducesTo_S100000x128_S128_d0 h_S_

def meanRaw (a : FVec Ideal S100000x128 .f32) : FVec Ideal S128 .f32 :=
  Host.divf (sumRaw a) (broadcastInDim S128 ![] bcast_S_S128 (constant S_ .f32 0x47C35000#32))

def devRaw (a : FVec Ideal S100000x128 .f32) : FVec Ideal S100000x128 .f32 :=
  subf a (broadcastInDim S100000x128 ![0, 1] bcast_S1x128_S100000x128_0_1
    (Host.divf (broadcastInDim S1x128 ![1] bcast_S128_S1x128_1 (sumRaw a))
      (broadcastInDim S1x128 ![] bcast_S_S1x128 (constant S_ .f32 0x47C35000#32))))

def dofRaw : FVec Ideal S_ .f32 :=
  subf (constant S_ .f32 0x47C35000#32) (sitofp (F := Ideal) .f32 (constantI S_ 32 0#32))

def varRaw (a : FVec Ideal S100000x128 .f32) : FVec Ideal S128 .f32 :=
  select (broadcastInDim S128 ![] bcast_S_S128 (cmpf (F := Ideal) .ogt dofRaw (constant S_ .f32 0x00000000#32)))
    (Host.divf (sumRaw (mulf (devRaw a) (devRaw a))) (broadcastInDim S128 ![] bcast_S_S128 dofRaw))
    (broadcastInDim S128 ![] bcast_S_S128 (id (constant S_ .f32 0x7FC00000#32)))

def finRaw (o : Nat) (hs' : S4x128.Slices ![o, 0] S1x128) (a x : FVec Ideal S100000x128 .f32) (μ v : FVec Ideal S128 .f32)
    (g be : FVec Ideal S4x128 .f32) : FVec Ideal S100000x128 .f32 :=
  addf
    (maximumf
      (addf
        (mulf (mulf (statRow (rowSel o hs' g)) (subf a (statRow μ)))
          (statRow (Host.rsqrt (addf v (broadcastInDim S128 ![] bcast_S_S128 (constant S_ .f32 0x3727C5AC#32))))))
        (statRow (rowSel o hs' be)))
      (broadcastInDim S100000x128 ![] bcast_S_S100000x128 (constant S_ .f32 0x00000000#32)))
    x

end Cert.GCN.RChain

end
-- ==== Proof.RChainStat.lean ====
import proofs.«401124_j9440338117505_1_alg».proof.Proof.RChainLayer

noncomputable section

namespace Cert.GCN.RChain

open Cert.ReferenceIdeal Cert.ReferenceIdeal.Facts₀ Cert.ReferenceIdeal.Facts Idealize.ShloMosaic Idealize.SL.Sem
open Idealize.ShloMosaic.ValueIdx

variable [Cert.KernelIdeal.Facts] [Cert.ReferenceIdeal.Facts]

theorem statRow_apply (v : FVec Ideal S128 .f32) (r : Fin 100000) (j : Fin 128) : statRow v (ix2 r j) = v (ix1 j) := by
  unfold statRow
  rw [broadcastInDim_oneRow_apply]
  refine broadcastInDim_apply ![1] _ v (ix2 (0 : Fin 1) j) (ix1 j) fun a => ?_
  fin_cases a
  rfl

theorem rowSel_apply (o : Nat) (ho : o < 4) (hs : S4x128.Slices ![o, 0] S1x128) (p : FVec Ideal S4x128 .f32) (j : Fin 128) :
    rowSel o hs p (ix1 j) = rowl p ⟨o, ho⟩ j := by
  unfold rowSel rowl
  refine (shapeCast_dropUnit_apply ![128] _ _ (ix1 j)).trans ?_
  refine extractStridedSlice_apply _ p hs _ (ix2 ⟨o, ho⟩ j) fun a => ?_
  fin_cases a
  · show o = o + 0
    rfl
  · show j.val = 0 + j.val
    omega

theorem sumRaw_apply (a : FVec Ideal S100000x128 .f32) (j : Fin 128) : sumRaw a (ix1 j) = colSum (cur2 a) j := by
  unfold sumRaw colSum
  rw [hostReduceAdd_apply, Ideal.hostReduceAdd_single reducesTo_S100000x128_S128_d0 (by decide : S100000x128.Reduces [0] S128),
    constant_apply, Ideal.ofBits_zero_f32, zero_add]
  exact Finset.sum_congr rfl fun r _ => congrArg a (funext fun b => by fin_cases b <;> rfl)

theorem meanRaw_apply (a : FVec Ideal S100000x128 .f32) (j : Fin 128) : meanRaw a (ix1 j) = mean (cur2 a) j := by
  unfold meanRaw mean
  show Ideal.div (sumRaw a (ix1 j)) (broadcastInDim S128 ![] _ (constant (F := Ideal) S_ .f32 0x47C35000#32) (ix1 j)) = _
  rw [sumRaw_apply, broadcastInDim_scalar_apply, constant_apply]
  rfl

theorem dofRaw_apply : dofRaw ix0 = cN := by
  unfold dofRaw
  show Ideal.ofBits .f32 0x47C35000#32 - (Scalar.sitofp .f32 0#32 : Ideal .f32) = cN
  rw [sitofp_zero, sub_zero]
  rfl

theorem devRaw_apply (a : FVec Ideal S100000x128 .f32) (r : Fin 100000) (j : Fin 128) :
    devRaw a (ix2 r j) = cur2 a r j - mean (cur2 a) j := by
  unfold devRaw mean
  rw [subf_apply, broadcastInDim_oneRow_apply]
  show _ - Ideal.div (broadcastInDim S1x128 ![1] _ (sumRaw a) (ix2 (0 : Fin 1) j))
    (broadcastInDim S1x128 ![] _ (constant (F := Ideal) S_ .f32 0x47C35000#32) (ix2 (0 : Fin 1) j)) = _
  rw [broadcastInDim_scalar_apply, constant_apply,
    broadcastInDim_apply ![1] _ (sumRaw a) (ix2 (0 : Fin 1) j) (ix1 j) (fun b => by fin_cases b; rfl), sumRaw_apply]
  rfl

theorem varRaw_apply (a : FVec Ideal S100000x128 .f32) (j : Fin 128) : varRaw a (ix1 j) = varR (cur2 a) j := by
  unfold varRaw varR
  rw [select_apply]
  have hbit : broadcastInDim S128 ![] bcast_S_S128 (cmpf (F := Ideal) .ogt dofRaw (constant S_ .f32 0x00000000#32)) (ix1 j) = 1#1 := by
    rw [broadcastInDim_scalar_apply, cmpf_apply, dofRaw_apply, constant_apply, Ideal.ofBits_zero_f32]
    show Ideal.cmp .ogt cN 0 = 1#1
    rw [cN_eq]
    simp [Ideal.cmp]
  rw [hbit, select_one]
  show Ideal.div (sumRaw (mulf (devRaw a) (devRaw a)) (ix1 j)) (broadcastInDim S128 ![] _ dofRaw (ix1 j)) = _
  rw [sumRaw_apply, broadcastInDim_scalar_apply, dofRaw_apply]
  refine congrArg (fun z => Ideal.div z cN) ?_
  unfold colSum
  refine Finset.sum_congr rfl fun r _ => ?_
  show devRaw a (ix2 r j) * devRaw a (ix2 r j) = _
  rw [devRaw_apply]

theorem finRaw_eq (o : Nat) (ho : o < 4) (hs' : S4x128.Slices ![o, 0] S1x128) (a x : FVec Ideal S100000x128 .f32)
    (μ v : FVec Ideal S128 .f32) (g be : FVec Ideal S4x128 .f32) :
    finRaw o hs' a x μ v g be
      = vec2 (normRelu (cur2 a) (cur2 x) (fun j => μ (ix1 j)) (fun j => v (ix1 j)) (rowl g ⟨o, ho⟩) (rowl be ⟨o, ho⟩)) := by
  funext i
  obtain ⟨r, j, rfl⟩ : ∃ (r : Fin 100000) (j : Fin 128), i = ix2 r j := ⟨i 0, i 1, eq_ix2 i⟩
  rw [vec2_apply]
  unfold finRaw normRelu
  rw [addf_apply, maximumf_apply, addf_apply, mulf_apply, mulf_apply, subf_apply, statRow_apply, statRow_apply, statRow_apply,
    statRow_apply, rowSel_apply o ho, rowSel_apply o ho, broadcastInDim_scalar_apply, constant_apply, Ideal.ofBits_zero_f32]
  rfl

end Cert.GCN.RChain

end
-- ==== Proof.RChainLin.lean ====
import proofs.«401124_j9440338117505_1_alg».proof.Proof.RChainStat

noncomputable section

namespace Cert.GCN.RChain

open Cert.ReferenceIdeal Cert.ReferenceIdeal.Facts₀ Cert.ReferenceIdeal.Facts Idealize.ShloMosaic Idealize.SL.Sem
open Idealize.ShloMosaic.ValueIdx

variable [Cert.KernelIdeal.Facts] [Cert.ReferenceIdeal.Facts]

theorem dot_eq_plain : dot_S100000x128_S128x128_S100000x128_1_0_0_1_n_n = DotDims.plain 100000 128 128 := rfl

theorem aggRaw_eq (ei : IVec Cert.KernelIdeal.S2x600000 32) (h : FVec Ideal S100000x128 .f32) :
    aggRaw (Ops.srcV ei) (Ops.dstV ei) (Ops.nrmV (F := Ideal) ei) h = Ops.aggV (F := Ideal) ei h := rfl

theorem wSel_apply (o : Nat) (ho : o < 4) (hs : S4x128x128.Slices ![o, 0, 0] S1x128x128) (cw : FVec Ideal S4x128x128 .f32)
    (k j : Fin 128) :
    shapeCast S128x128 (extractStridedSlice S1x128x128 ![o, 0, 0] cw hs) shapeCasts_S1x128x128_S128x128 (ix2 k j)
      = Wl cw ⟨o, ho⟩ k j := by
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem linV_eq (o : Nat) (ho : o < 4) (hs : S4x128x128.Slices ![o, 0, 0] S1x128x128) (hs' : S4x128.Slices ![o, 0] S1x128)
    (x : FVec Ideal S100000x128 .f32) (cw : FVec Ideal S4x128x128 .f32) (cb : FVec Ideal S4x128 .f32) :
    linV o hs hs' x cw cb = vec2 (lin (cur2 x) (Wl cw ⟨o, ho⟩) (rowl cb ⟨o, ho⟩)) := by
  funext i
  obtain ⟨r, j, rfl⟩ : ∃ (r : Fin 100000) (j : Fin 128), i = ix2 r j := ⟨i 0, i 1, eq_ix2 i⟩
  show Host.dotGeneral dot_S100000x128_S128x128_S100000x128_1_0_0_1_n_n none x _ (ix2 r j) + statRow (rowSel o hs' cb) (ix2 r j)
    = (∑ k : Fin 128, x (ix2 r k) * Wl cw ⟨o, ho⟩ k j) + rowl cb ⟨o, ho⟩ j
  rw [dot_eq_plain, StackMember.dotGeneral_plain_apply, statRow_apply, rowSel_apply o ho]
  congr 1
  refine Finset.sum_congr rfl fun k _ => ?_
  rw [wSel_apply o ho]

end Cert.GCN.RChain

end
-- ==== Proof.RLayerOps.lean ====
import proofs.«401124_j9440338117505_1_alg».proof.Proof.Gen.ReferenceIdeal
import proofs.«401124_j9440338117505_1_alg».proof.Proof.RChainLin
import proofs.«401124_j9440338117505_1_alg».proof.Proof.RChainStat
import Idealize.ShloMosaic.Lib.Pipeline.Frame

noncomputable section

namespace Cert.GCN.RChain

open Cert.ReferenceIdeal Cert.ReferenceIdeal.Gen Idealize.ShloMosaic Idealize.ShloMosaic.TcCoe Idealize.SL.Sem Idealize.ShloMosaic.StableHlo
open Idealize.ShloMosaic.ValueIdx

variable [Cert.KernelIdeal.Facts]

/-- Buffer `j` of the 75 consecutive buffers from `b`. -/
def buf (b : Nat) (hb : b + 75 ≤ 382) (j : Nat) (hj : j < 75) : Ref sig .tc :=
  ⟨.hbm, ⟨b + j, Nat.lt_of_lt_of_le (Nat.add_lt_add_left hj b) hb⟩, rfl⟩

/-- The type of a layer's buffer `j`, the same in every layer. -/
abbrev T : Nat → BufTy
  | 0 => ⟨S1x128x128, .f32⟩
  | 1 => ⟨S128x128, .f32⟩
  | 3 | 5 | 31 | 33 | 34 | 51 | 53 | 56 | 63 | 66 | 68 => ⟨S1x128, .f32⟩
  | 4 | 24 | 26 | 27 | 30 | 42 | 43 | 44 | 49 | 50 | 52 | 60 | 61 | 62 | 67 => ⟨S128, .f32⟩
  | 8 | 11 | 28 => ⟨S_, .i32⟩
  | 9 | 12 | 13 | 14 => ⟨S700000, .i32⟩
  | 10 => ⟨S700000, .i1⟩
  | 15 | 21 => ⟨S700000x1, .i32⟩
  | 16 | 17 | 18 => ⟨S700000x128, .f32⟩
  | 19 | 23 | 25 | 29 | 32 | 38 | 39 | 40 | 41 | 45 | 47 | 48 | 59 | 71 => ⟨S_, .f32⟩
  | 46 => ⟨S_, .i1⟩
  | _ => ⟨S100000x128, .f32⟩

/-- A layer's 75 buffers: consecutive from `b`, past every input, typed by `T`. -/
structure Run where
  b : Nat
  hb : b + 75 ≤ 382
  h55 : 55 ≤ b
  ty : ∀ j hj, (buf b hb j hj).ty = T j

def Run.w (B : Run) (j : Nat) (hj : j < 75 := by decide) : TRef sig (T j) :=
  ⟨buf B.b B.hb j hj, B.ty j hj, (by decide : Space.hbm ≠ .host), rfl⟩

def num (r : Ref sig .tc) : Nat := r.idx.val

theorem w_ne (B : Run) (i j : Nat) (hi hj) (h : i ≠ j) : (B.w i hi).ref ≠ (B.w j hj).ref :=
  fun e => h (Nat.add_left_cancel (congrArg num e))

theorem in_ne (B : Run) (r : Ref sig .tc) (hr : num r < B.b) (j : Nat) (hj) : r ≠ (B.w j hj).ref :=
  fun e => by have h : num r = B.b + j := congrArg num e; omega

theorem Run.lit (B : Run) {r : Ref sig .tc} (h : num r < 55) : num r < B.b := Nat.lt_of_lt_of_le h B.h55

/-- The contents of a typed reference. -/
def rd {T : BufTy} (F : Valuation τ sig (Elt Ideal)) (x : TRef sig T) : T.Contents (Elt Ideal) :=
  x.ofBuf (F (Proc.devRef .tc x.ref))

/-- Reading back what was written through the same typed reference. -/
theorem ofBuf_toBuf {T : BufTy} (x : TRef sig T) (v : T.Contents (Elt Ideal)) : x.ofBuf (x.toBuf v) = v := by
  obtain ⟨r, rfl, _, _⟩ := x; rfl

local macro "chase" : tactic => `(tactic|
  simp (disch := first
      | exact in_ne _ _ (by first | assumption | exact Run.lit _ (by decide)) _ _
      | exact w_ne _ _ _ _ _ (by decide)) only
    [rd, ofBuf_toBuf, after_cons, after_nil, nullary_result', unary_result', binary_result', ternary_result',
     nullary_result_ne', unary_result_ne', binary_result_ne', ternary_result_ne'])

abbrev aW : TRef sig ⟨S4x128x128, .f32⟩ := .of main_arg3
abbrev aB : TRef sig ⟨S4x128, .f32⟩ := .of main_arg4
abbrev aG : TRef sig ⟨S4x128, .f32⟩ := .of main_arg5
abbrev aE : TRef sig ⟨S4x128, .f32⟩ := .of main_arg6
abbrev aS : TRef sig ⟨S700000, .i32⟩ := .of main_v3
abbrev aD : TRef sig ⟨S700000, .i32⟩ := .of main_v6
abbrev aN : TRef sig ⟨S700000x1, .f32⟩ := .of main_v32

abbrev Rw := FVec Ideal S100000x128 .f32
abbrev Ed := FVec Ideal S700000x128 .f32
abbrev R1 := FVec Ideal S1x128 .f32
abbrev V1 := FVec Ideal S128 .f32
abbrev Sc := FVec Ideal S_ .f32
abbrev I7 := IVec S700000 32
abbrev zero : Sc := constant S_ .f32 0x00000000#32
abbrev cnt : Sc := constant S_ .f32 0x47C35000#32
abbrev row1 : V1 → R1 := broadcastInDim S1x128 ![1] bcast_S128_S1x128_1
abbrev rows : R1 → Rw := broadcastInDim S100000x128 ![0, 1] bcast_S1x128_S100000x128_0_1
abbrev fill : Sc → V1 := broadcastInDim S128 ![] bcast_S_S128
abbrev colSumOp (a : Rw) (z : Sc) : V1 := Host.reduceAdd a z reducesTo_S100000x128_S128_d0 h_S_

section Stages
variable (B : Run) (o : Nat) (hs : S4x128x128.Slices ![o, 0, 0] S1x128x128) (hs' : S4x128.Slices ![o, 0] S1x128)
  (x : TRef sig ⟨S100000x128, .f32⟩)

/-- The dense layer. -/
def S1 : List (HloOp τ sig (Elt Ideal)) :=
  [ TRef.unary aW (B.w 0) (extractStridedSlice S1x128x128 ![o, 0, 0] · hs),
    TRef.unary (B.w 0) (B.w 1) (shapeCast S128x128 · shapeCasts_S1x128x128_S128x128),
    TRef.binary x (B.w 1) (B.w 2) (Host.dotGeneral dot_S100000x128_S128x128_S100000x128_1_0_0_1_n_n none : Rw → FVec Ideal S128x128 .f32 → Rw),
    TRef.unary aB (B.w 3) (extractStridedSlice S1x128 ![o, 0] · hs'),
    TRef.unary (B.w 3) (B.w 4) (shapeCast S128 · shapeCasts_S1x128_S128),
    TRef.unary (B.w 4) (B.w 5) row1,
    TRef.unary (B.w 5) (B.w 6) rows,
    TRef.binary (B.w 2) (B.w 6) (B.w 7) (addf : Rw → _) ]

/-- The aggregation. -/
def S2 : List (HloOp τ sig (Elt Ideal)) :=
  [ TRef.nullary (B.w 8) (constantI S_ 32 0#32),
    TRef.unary (B.w 8) (B.w 9) (broadcastInDim S700000 ![] bcast_S_S700000),
    TRef.binary aS (B.w 9) (B.w 10) (cmpi .slt : I7 → _),
    TRef.nullary (B.w 11) (constantI S_ 32 100000#32),
    TRef.unary (B.w 11) (B.w 12) (broadcastInDim S700000 ![] bcast_S_S700000),
    TRef.binary aS (B.w 12) (B.w 13) (addi : I7 → _),
    TRef.ternary (B.w 10) (B.w 13) aS (B.w 14) (select : _ → I7 → _),
    TRef.unary (B.w 14) (B.w 15) (broadcastInDim S700000x1 ![0] bcast_S700000_S700000x1_0),
    TRef.binary (B.w 7) (B.w 15) (B.w 16) (Host.gather gather_S100000x128_S700000x1_S700000x128_1_0_n_n_0_1_1128 : Rw → IVec S700000x1 32 → Ed),
    TRef.unary aN (B.w 17) (broadcastInDim S700000x128 ![0, 1] bcast_S700000x1_S700000x128_0_1),
    TRef.binary (B.w 17) (B.w 16) (B.w 18) (mulf : Ed → _),
    TRef.nullary (B.w 19) zero,
    TRef.unary (B.w 19) (B.w 20) (broadcastInDim S100000x128 ![] bcast_S_S100000x128),
    TRef.unary aD (B.w 21) (broadcastInDim S700000x1 ![0] bcast_S700000_S700000x1_0),
    TRef.ternary (B.w 20) (B.w 21) (B.w 18) (B.w 22) (Host.scatterAdd scatter_S100000x128_S700000x1_S700000x128_1_0_0_1 : Rw → IVec S700000x1 32 → Ed → Rw) ]

/-- The column mean and variance. -/
def S3 : List (HloOp τ sig (Elt Ideal)) :=
  [ TRef.nullary (B.w 23) zero,
    TRef.binary (B.w 22) (B.w 23) (B.w 24) colSumOp,
    TRef.nullary (B.w 25) cnt,
    TRef.unary (B.w 25) (B.w 26) fill,
    TRef.binary (B.w 24) (B.w 26) (B.w 27) (Host.divf : V1 → _),
    TRef.nullary (B.w 28) (constantI S_ 32 0#32),
    TRef.nullary (B.w 29) zero,
    TRef.binary (B.w 22) (B.w 29) (B.w 30) colSumOp,
    TRef.unary (B.w 30) (B.w 31) row1,
    TRef.nullary (B.w 32) cnt,
    TRef.unary (B.w 32) (B.w 33) (broadcastInDim S1x128 ![] bcast_S_S1x128),
    TRef.binary (B.w 31) (B.w 33) (B.w 34) (Host.divf : R1 → _),
    TRef.unary (B.w 34) (B.w 35) rows,
    TRef.binary (B.w 22) (B.w 35) (B.w 36) (subf : Rw → _),
    TRef.binary (B.w 36) (B.w 36) (B.w 37) (mulf : Rw → _),
    TRef.unary (B.w 28) (B.w 38) (sitofp (F := Ideal) .f32 : IVec S_ 32 → _),
    TRef.nullary (B.w 39) cnt,
    TRef.binary (B.w 39) (B.w 38) (B.w 40) (subf : Sc → _),
    TRef.nullary (B.w 41) zero,
    TRef.binary (B.w 37) (B.w 41) (B.w 42) colSumOp,
    TRef.unary (B.w 40) (B.w 43) fill,
    TRef.binary (B.w 42) (B.w 43) (B.w 44) (Host.divf : V1 → _),
    TRef.nullary (B.w 45) zero,
    TRef.binary (B.w 40) (B.w 45) (B.w 46) (cmpf (F := Ideal) .ogt : Sc → _),
    TRef.nullary (B.w 47) (constant S_ .f32 0x7FC00000#32 : Sc),
    TRef.unary (B.w 47) (B.w 48) (id : Sc → Sc),
    TRef.unary (B.w 48) (B.w 49) fill,
    TRef.ternary (B.w 46) (B.w 44) (B.w 49) (B.w 50) (fun p (a : V1) b => select (broadcastInDim S128 ![] bcast_S_S128 p) a b) ]

/-- The normalisation, rectification and residual. -/
def S4 : List (HloOp τ sig (Elt Ideal)) :=
  [ TRef.unary aG (B.w 51) (extractStridedSlice S1x128 ![o, 0] · hs'),
    TRef.unary (B.w 51) (B.w 52) (shapeCast S128 · shapeCasts_S1x128_S128),
    TRef.unary (B.w 27) (B.w 53) row1,
    TRef.unary (B.w 53) (B.w 54) rows,
    TRef.binary (B.w 22) (B.w 54) (B.w 55) (subf : Rw → _),
    TRef.unary (B.w 52) (B.w 56) row1,
    TRef.unary (B.w 56) (B.w 57) rows,
    TRef.binary (B.w 57) (B.w 55) (B.w 58) (mulf : Rw → _),
    TRef.nullary (B.w 59) (constant S_ .f32 0x3727C5AC#32 : Sc),
    TRef.unary (B.w 59) (B.w 60) fill,
    TRef.binary (B.w 50) (B.w 60) (B.w 61) (addf : V1 → _),
    TRef.unary (B.w 61) (B.w 62) (Host.rsqrt : V1 → _),
    TRef.unary (B.w 62) (B.w 63) row1,
    TRef.unary (B.w 63) (B.w 64) rows,
    TRef.binary (B.w 58) (B.w 64) (B.w 65) (mulf : Rw → _),
    TRef.unary aE (B.w 66) (extractStridedSlice S1x128 ![o, 0] · hs'),
    TRef.unary (B.w 66) (B.w 67) (shapeCast S128 · shapeCasts_S1x128_S128),
    TRef.unary (B.w 67) (B.w 68) row1,
    TRef.unary (B.w 68) (B.w 69) rows,
    TRef.binary (B.w 65) (B.w 69) (B.w 70) (addf : Rw → _),
    TRef.nullary (B.w 71) zero,
    TRef.unary (B.w 71) (B.w 72) (broadcastInDim S100000x128 ![] bcast_S_S100000x128),
    TRef.binary (B.w 70) (B.w 72) (B.w 73) (maximumf : Rw → _),
    TRef.binary (B.w 73) x (B.w 74) (addf : Rw → _) ]

/-- One layer's operations, over its 75 buffers and its input rows. -/
def layerOps : List (HloOp τ sig (Elt Ideal)) := S1 B o hs hs' x ++ (S2 B ++ (S3 B ++ S4 B o hs' x))

variable (hx : num x.ref < B.b) (W : Valuation τ sig (Elt Ideal))

include hx in
theorem S1_out : rd (after (S1 B o hs hs' x) W) (B.w 7)
    = linV o hs hs' (rd W x) (rd W aW) (rd W aB) := by
  unfold S1
  chase
  rfl

theorem S2_out : rd (after (S2 B) W) (B.w 22)
    = aggRaw (rd W aS) (rd W aD) (rd W aN) (rd W (B.w 7)) := by
  unfold S2
  chase
  rfl

theorem S3_mean : rd (after (S3 B) W) (B.w 27) = meanRaw (rd W (B.w 22)) := by
  unfold S3
  chase
  rfl

theorem S3_var : rd (after (S3 B) W) (B.w 50) = varRaw (rd W (B.w 22)) := by
  unfold S3
  chase
  rfl

include hx in
theorem S4_out : rd (after (S4 B o hs' x) W) (B.w 74)
    = finRaw o hs' (rd W (B.w 22)) (rd W x) (rd W (B.w 27)) (rd W (B.w 50)) (rd W aG) (rd W aE) := by
  unfold S4
  chase
  rfl

variable {U : BufTy} (r : TRef sig U) (hr : num r.ref < B.b)

include hr in
theorem S1_keep : rd (after (S1 B o hs hs' x) W) r = rd W r := by unfold S1; chase
include hr in
theorem S2_keep : rd (after (S2 B) W) r = rd W r := by unfold S2; chase
include hr in
theorem S3_keep : rd (after (S3 B) W) r = rd W r := by unfold S3; chase
include hr in
theorem S4_keep : rd (after (S4 B o hs' x) W) r = rd W r := by unfold S4; chase

theorem S3_keepA : rd (after (S3 B) W) (B.w 22) = rd W (B.w 22) := by unfold S3; chase

include hr in
/-- A layer leaves every buffer below its own as it was. -/
theorem layer_keep : rd (after (layerOps B o hs hs' x) W) r = rd W r := by
  unfold layerOps
  rw [after_append, after_append, after_append, S4_keep B o hs' x _ r hr, S3_keep B _ r hr, S2_keep B _ r hr,
    S1_keep B o hs hs' x W r hr]

include hx in
/-- A layer's last buffer holds the specification's layer of its input rows and row `o` of the stacked parameters. -/
theorem layer_result (ho : o < 4) (ei : IVec Cert.KernelIdeal.S2x600000 32) (h3 : rd W aS = Ops.srcV ei)
    (h6 : rd W aD = Ops.dstV ei) (h32 : rd W aN = Ops.nrmV (F := Ideal) ei) :
    rd (after (layerOps B o hs hs' x) W) (B.w 74)
      = vec2 (layerR (Ops.aggC ei) (cur2 (rd W x)) (Wl (rd W aW) ⟨o, ho⟩) (rowl (rd W aB) ⟨o, ho⟩)
          (rowl (rd W aG) ⟨o, ho⟩) (rowl (rd W aE) ⟨o, ho⟩)) := by
  have lit {U : BufTy} (r : TRef sig U) (h : num r.ref < 55) : num r.ref < B.b := B.lit h
  unfold layerOps
  rw [after_append, after_append, after_append, S4_out B o hs' x hx, S3_mean, S3_var, S3_keepA,
    S3_keep B _ x hx, S3_keep B _ aG (lit _ (by decide)), S3_keep B _ aE (lit _ (by decide)), S2_out,
    S2_keep B _ x hx, S2_keep B _ aG (lit _ (by decide)), S2_keep B _ aE (lit _ (by decide)), S1_out B o hs hs' x hx,
    S1_keep B o hs hs' x _ aS (lit _ (by decide)), S1_keep B o hs hs' x _ aD (lit _ (by decide)),
    S1_keep B o hs hs' x _ aN (lit _ (by decide)), S1_keep B o hs hs' x _ x hx,
    S1_keep B o hs hs' x _ aG (lit _ (by decide)), S1_keep B o hs hs' x _ aE (lit _ (by decide)), h3, h6, h32]
  rw [aggRaw_eq, linV_eq o ho, finRaw_eq o ho]
  simp only [meanRaw_apply, varRaw_apply]
  rfl

end Stages

/-- A layer's last buffer, at the type of the rows. -/
abbrev Run.out (B : Run) : TRef sig ⟨S100000x128, .f32⟩ := B.w 74

end Cert.GCN.RChain

end
-- ==== Proof.RChainL0.lean ====
import proofs.«401124_j9440338117505_1_alg».proof.Proof.RefRun1
import proofs.«401124_j9440338117505_1_alg».proof.Proof.RefRun2
import proofs.«401124_j9440338117505_1_alg».proof.Proof.RLayerOps

noncomputable section

namespace Cert.GCN.RChain

open Cert.ReferenceIdeal Cert.ReferenceIdeal.Gen Idealize.ShloMosaic Idealize.ShloMosaic.StableHlo Cert.RefRun

variable [Cert.KernelIdeal.Facts]

abbrev a0 : TRef sig ⟨S100000x128, .f32⟩ := .of main_arg0

def B0 : Run := ⟨55, by decide, by decide, by decide⟩

theorem L0_ops : opsL0a ++ (opsL0b ++ opsL0c)
    = layerOps B0 0 slices_S4x128x128_S1x128x128_0_0_0 slices_S4x128_S1x128_0_0 a0 := rfl

end Cert.GCN.RChain

end
-- ==== Proof.RChainL1.lean ====
import proofs.«401124_j9440338117505_1_alg».proof.Proof.RefRun2
import proofs.«401124_j9440338117505_1_alg».proof.Proof.RefRun3
import proofs.«401124_j9440338117505_1_alg».proof.Proof.RChainL0

noncomputable section

namespace Cert.GCN.RChain

open Cert.ReferenceIdeal Cert.ReferenceIdeal.Gen Idealize.ShloMosaic Idealize.ShloMosaic.StableHlo Cert.RefRun

variable [Cert.KernelIdeal.Facts]

def B1 : Run := ⟨130, by decide, by decide, by decide⟩

theorem L1_ops : opsL1a ++ (opsL1b ++ opsL1c)
    = layerOps B1 1 slices_S4x128x128_S1x128x128_1_0_0 slices_S4x128_S1x128_1_0 B0.out := rfl

end Cert.GCN.RChain

end
-- ==== Proof.RChainL2.lean ====
import proofs.«401124_j9440338117505_1_alg».proof.Proof.RefRun3
import proofs.«401124_j9440338117505_1_alg».proof.Proof.RefRun4
import proofs.«401124_j9440338117505_1_alg».proof.Proof.RChainL1

noncomputable section

namespace Cert.GCN.RChain

open Cert.ReferenceIdeal Cert.ReferenceIdeal.Gen Idealize.ShloMosaic Idealize.ShloMosaic.StableHlo Cert.RefRun

variable [Cert.KernelIdeal.Facts]

def B2 : Run := ⟨205, by decide, by decide, by decide⟩

theorem L2_ops : opsL2a ++ (opsL2b ++ opsL2c)
    = layerOps B2 2 slices_S4x128x128_S1x128x128_2_0_0 slices_S4x128_S1x128_2_0 B1.out := rfl

end Cert.GCN.RChain

end
-- ==== Proof.RChainL3.lean ====
import proofs.«401124_j9440338117505_1_alg».proof.Proof.RefRun4
import proofs.«401124_j9440338117505_1_alg».proof.Proof.RefRun5
import proofs.«401124_j9440338117505_1_alg».proof.Proof.RChainL2

noncomputable section

namespace Cert.GCN.RChain

open Cert.ReferenceIdeal Cert.ReferenceIdeal.Gen Idealize.ShloMosaic Idealize.ShloMosaic.StableHlo Cert.RefRun

variable [Cert.KernelIdeal.Facts]

def B3 : Run := ⟨280, by decide, by decide, by decide⟩

theorem L3_ops : opsL3a ++ (opsL3b ++ opsL3c)
    = layerOps B3 3 slices_S4x128x128_S1x128x128_3_0_0 slices_S4x128_S1x128_3_0 B2.out := rfl

end Cert.GCN.RChain

end
-- ==== Proof.RChainTail.lean ====
import proofs.«401124_j9440338117505_1_alg».proof.Proof.RefRun5
import proofs.«401124_j9440338117505_1_alg».proof.Proof.PoolOps
import Idealize.ShloMosaic.Lib.StackMember
import Idealize.ShloMosaic.Lib.IdealHost
import Idealize.ShloMosaic.PureOps.Ideal.Laws

noncomputable section

namespace Cert.GCN.RChain

open Cert.ReferenceIdeal Idealize.ShloMosaic Idealize.ShloMosaic.TcCoe Idealize.SL.Sem Idealize.ShloMosaic.StableHlo
open Idealize.ShloMosaic.ValueIdx Idealize.ShloMosaic.StackMember Cert.GCN

section Broadcasts
variable {α : Type}

theorem bcast_vecRow_apply {n : Nat} (h : (⟨1, ![n]⟩ : Shape).BroadcastsInDim ⟨2, ![1, n]⟩ ![1])
    (y : (⟨1, ![n]⟩ : Shape).Idx → α) (r : Fin 1) (t : Fin n) :
    broadcastInDim ⟨2, ![1, n]⟩ ![1] h y (ix2 r t) = y (ix1 t) := by
  refine broadcastInDim_apply ![1] h y (ix2 r t) (ix1 t) ?_
  intro a
  fin_cases a
  show t.val = if n = 1 then 0 else t.val
  split_ifs with hn
  · have := t.isLt; omega
  · rfl

theorem bcast_vecCol_apply {m : Nat} (h : (⟨1, ![m]⟩ : Shape).BroadcastsInDim ⟨2, ![m, 1]⟩ ![0])
    (y : (⟨1, ![m]⟩ : Shape).Idx → α) (r : Fin m) (t : Fin 1) :
    broadcastInDim ⟨2, ![m, 1]⟩ ![0] h y (ix2 r t) = y (ix1 r) := by
  refine broadcastInDim_apply ![0] h y (ix2 r t) (ix1 r) ?_
  intro a
  fin_cases a
  show r.val = if m = 1 then 0 else r.val
  split_ifs with hm
  · have := r.isLt; omega
  · rfl

theorem bcast_oneCol_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

end Broadcasts

variable [Cert.ReferenceIdeal.Facts]

theorem head_of_pool
    (hb1 : S64.BroadcastsInDim S64x1 ![0]) (hb2 : S64x1.BroadcastsInDim S64x128 ![0, 1])
    (hb3 : S64.BroadcastsInDim S1x64 ![1]) (hb4 : S1x64.BroadcastsInDim S64x64 ![0, 1])
    (hb5 : S_.BroadcastsInDim S64x64 ![]) (hb6 : S2.BroadcastsInDim S1x2 ![1]) (hb7 : S1x2.BroadcastsInDim S64x2 ![0, 1])
    (hb8 : S_.BroadcastsInDim S64 ![])
    (s : FVec Ideal S64x128 .f32) (cnt : FVec Ideal S64 .f32) (w1 : FVec Ideal S128x64 .f32) (b1 : FVec Ideal S64 .f32)
    (w2 : FVec Ideal S64x2 .f32) (b2 : FVec Ideal S2 .f32) :
    addf
      (Host.dotGeneral dot_S64x64_S64x2_S64x2_1_0_0_1_n_n none
        (maximumf
          (addf
            (Host.dotGeneral dot_S64x128_S128x64_S64x64_1_0_0_1_n_n none
              (Host.divf s
                (broadcastInDim S64x128 ![0, 1] hb2
                  (broadcastInDim S64x1 ![0] hb1
                    (maximumf cnt (broadcastInDim S64 ![] hb8 (constant S_ .f32 0x3F800000#32))))))
              w1)
            (broadcastInDim S64x64 ![0, 1] hb4 (broadcastInDim S1x64 ![1] hb3 b1)))
          (broadcastInDim S64x64 ![] hb5 (constant S_ .f32 0x00000000#32)))
        w2)
      (broadcastInDim S64x2 ![0, 1] hb7 (broadcastInDim S1x2 ![1] hb6 b2))
    = vec2 (head (pooled (cur2 s) (fun g => cnt (ix1 g))) (cur2 w1) (fun k => b1 (ix1 k)) (cur2 w2) (fun k => b2 (ix1 k))) := by
  funext i
  obtain ⟨g, c, rfl⟩ : ∃ (g : Fin 64) (c : Fin 2), i = ix2 g c := ⟨i 0, i 1, eq_ix2 i⟩
  rw [vec2_apply, addf_apply]
  rw [broadcastInDim_oneRow_apply hb7, bcast_vecRow_apply hb6]
  rw [show dot_S64x64_S64x2_S64x2_1_0_0_1_n_n = DotDims.plain 64 64 2 from rfl, dotGeneral_plain_apply]
  unfold head
  refine congrArg (· + b2 (ix1 c)) (Finset.sum_congr rfl fun k _ => ?_)
  rw [maximumf_apply, addf_apply, broadcastInDim_scalar_apply hb5, constant_apply, Ideal.ofBits_zero_f32]
  rw [broadcastInDim_oneRow_apply hb4, bcast_vecRow_apply hb3]
  rw [show dot_S64x128_S128x64_S64x64_1_0_0_1_n_n = DotDims.plain 64 128 64 from rfl, dotGeneral_plain_apply]
  refine congrArg (fun z => max (z + b1 (ix1 k)) 0 * w2 (ix2 k c)) (Finset.sum_congr rfl fun d _ => ?_)
  show Ideal.div (s (ix2 g d)) _ * _ = _
  rw [bcast_oneCol_apply hb2, bcast_vecCol_apply hb1, maximumf_apply, broadcastInDim_scalar_apply hb8, constant_apply]
  rfl

variable [Cert.KernelIdeal.Facts]

theorem tail_value (V : Valuation τ sig (Elt Ideal)) (X : Mat 100000 128)
    (hX : V (Proc.devRef .tc main_v212) = vec2 X) :
    StableHlo.after (Cert.RefRun.opsT (F := Ideal)) V (Proc.devRef .tc main_v233)
      = vec2 (head
          (pooled (cur2 (Ops.sumsRV (F := Ideal) (V (Proc.devRef .tc main_arg2)) (vec2 X)))
            (fun g => Ops.cntRV (F := Ideal) (V (Proc.devRef .tc main_arg2)) (ix1 g)))
          (cur2 (V (Proc.devRef .tc main_arg7))) (fun k => V (Proc.devRef .tc main_arg8) (ix1 k))
          (cur2 (V (Proc.devRef .tc main_arg9))) (fun k => V (Proc.devRef .tc main_arg10) (ix1 k))) := by
  after_results_simp
  simp only [TRef.ofBuf, TRef.toBuf, cast_eq]
  rw [hX]
  exact head_of_pool _ _ _ _ _ _ _ _ _ _ _ _ _ _

end Cert.GCN.RChain

end
-- ==== Proof.RefValue.lean ====
import proofs.«401124_j9440338117505_1_alg».proof.Proof.RefRun
import proofs.«401124_j9440338117505_1_alg».proof.Proof.RChainE
import proofs.«401124_j9440338117505_1_alg».proof.Proof.RChainL3
import proofs.«401124_j9440338117505_1_alg».proof.Proof.RChainTail
import proofs.«401124_j9440338117505_1_alg».proof.Proof.Gen.KernelIdeal

noncomputable section

namespace Cert.GCN.RChain

open Cert.ReferenceIdeal Cert.ReferenceIdeal.Gen Idealize.ShloMosaic Idealize.ShloMosaic.TcCoe Idealize.SL.Sem Idealize.ShloMosaic.StableHlo
open Idealize.ShloMosaic.ValueIdx Cert.GCN Cert.RefRun

/-- After the edge prefix and some layers: the arguments as launched, the edge arrays in place, the current rows. -/
structure St (V₀ V : Valuation τ sig (Elt Ideal)) (x : TRef sig ⟨S100000x128, .f32⟩) (R : Rw) : Prop where
  low : ∀ {U : BufTy} (r : TRef sig U), num r.ref ≤ 10 → rd V r = rd V₀ r
  src : rd V aS = Ops.srcV (V₀ (Proc.devRef .tc main_arg1))
  dst : rd V aD = Ops.dstV (V₀ (Proc.devRef .tc main_arg1))
  nrm : rd V aN = Ops.nrmV (F := Ideal) (V₀ (Proc.devRef .tc main_arg1))
  rows : rd V x = R

/-- The same for an argument buffer given by its plain reference. -/
theorem St.arg {V₀ V : Valuation τ sig (Elt Ideal)} {x : TRef sig ⟨S100000x128, .f32⟩} {R : Rw} (h : St V₀ V x R)
    (r : Ref sig .tc) (hd : r.space ≠ .host := by decide) (hs : r.isScoped = false := by rfl)
    (hr : num r ≤ 10 := by decide) : V (Proc.devRef .tc r) = V₀ (Proc.devRef .tc r) :=
  h.low (U := r.ty) ⟨r, rfl, hd, hs⟩ hr

/-- One more layer: its last buffer takes the specification's layer of the current rows. -/
theorem St.step {V₀ V : Valuation τ sig (Elt Ideal)} {x : TRef sig ⟨S100000x128, .f32⟩} {R : Rw} (h : St V₀ V x R)
    (B : Run) (hx : num x.ref < B.b) (o : Nat) (ho : o < 4) (hs : S4x128x128.Slices ![o, 0, 0] S1x128x128)
    (hs' : S4x128.Slices ![o, 0] S1x128) :
    St V₀ (after (layerOps B o hs hs' x) V) B.out
      (vec2 (layerR (Ops.aggC (V₀ (Proc.devRef .tc main_arg1))) (cur2 R) (Wl (rd V₀ aW) ⟨o, ho⟩)
        (rowl (rd V₀ aB) ⟨o, ho⟩) (rowl (rd V₀ aG) ⟨o, ho⟩) (rowl (rd V₀ aE) ⟨o, ho⟩))) where
  low r hr := (layer_keep B o hs hs' x V r (B.lit (by omega))).trans (h.low r hr)
  src := (layer_keep B o hs hs' x V aS (B.lit (by decide))).trans h.src
  dst := (layer_keep B o hs hs' x V aD (B.lit (by decide))).trans h.dst
  nrm := (layer_keep B o hs hs' x V aN (B.lit (by decide))).trans h.nrm
  rows := by
    rw [Run.out, layer_result B o hs hs' x hx V ho _ h.src h.dst h.nrm, h.rows, h.low aW (by decide),
      h.low aB (by decide), h.low aG (by decide), h.low aE (by decide)]

/-- No argument buffer is written by the edge prefix. -/
theorem low_notin {r : Ref sig .tc} (hr : num r ≤ 10) : r ∉ opsEa_W ++ (opsEb_W ++ opsEc_W) :=
  fun hm => absurd ((by decide : ∀ s ∈ opsEa_W ++ (opsEb_W ++ opsEc_W), 10 < num s) r hm) (by omega)

theorem keepE (V : Valuation τ sig (Elt Ideal)) (r : Ref sig .tc) (h : r ∉ opsEa_W ++ (opsEb_W ++ opsEc_W)) :
    after opsEc (after opsEb (after opsEa V)) (Proc.devRef .tc r) = V (Proc.devRef .tc r) := by
  simp only [List.mem_append, not_or] at h
  rw [opsEc_keep _ r h.2.2, opsEb_keep _ r h.2.1, opsEa_keep _ r h.1]

theorem St.init (V : Valuation τ sig (Elt Ideal)) :
    St V (after opsEc (after opsEb (after opsEa V))) a0 (V (Proc.devRef .tc main_arg0)) where
  low r hr := congrArg r.ofBuf (keepE V r.ref (low_notin hr))
  src := E3_src V
  dst := E3_dst V
  nrm := E3_nrm V
  rows := keepE V main_arg0 (low_notin (by decide))

theorem ops_eq : ops (F := Ideal) = opsEa ++ (opsEb ++ (opsEc ++
    (layerOps B0 0 slices_S4x128x128_S1x128x128_0_0_0 slices_S4x128_S1x128_0_0 a0 ++
    (layerOps B1 1 slices_S4x128x128_S1x128x128_1_0_0 slices_S4x128_S1x128_1_0 B0.out ++
    (layerOps B2 2 slices_S4x128x128_S1x128x128_2_0_0 slices_S4x128_S1x128_2_0 B1.out ++
    (layerOps B3 3 slices_S4x128x128_S1x128x128_3_0_0 slices_S4x128_S1x128_3_0 B2.out ++ opsT)))))) := by
  simp only [ops, ← L0_ops, ← L1_ops, ← L2_ops, ← L3_ops, List.append_assoc]

theorem ref_value (V : Valuation τ sig (Elt Ideal)) :
    StableHlo.after (Cert.RefRun.ops (F := Ideal)) V (Proc.devRef .tc main_v233)
      = vec2 (head
          (pooled (cur2 (Ops.sumsRV (F := Ideal) (V (Proc.devRef .tc main_arg2))
              (vec2 (stackR (Ops.aggC (V (Proc.devRef .tc main_arg1))) (cur2 (V (Proc.devRef .tc main_arg0))) (V (Proc.devRef .tc main_arg3))
                (V (Proc.devRef .tc main_arg4)) (V (Proc.devRef .tc main_arg5)) (V (Proc.devRef .tc main_arg6))))))
            (fun g => Ops.cntRV (F := Ideal) (V (Proc.devRef .tc main_arg2)) (ix1 g)))
          (cur2 (V (Proc.devRef .tc main_arg7))) (fun k => V (Proc.devRef .tc main_arg8) (ix1 k))
          (cur2 (V (Proc.devRef .tc main_arg9))) (fun k => V (Proc.devRef .tc main_arg10) (ix1 k))) := by
  obtain ⟨V4, hV, h⟩ : ∃ V4, after (ops (F := Ideal)) V = after opsT V4 ∧ St V V4 B3.out _ :=
    ⟨_, by rw [ops_eq]; simp only [after_append],
      ((((St.init V).step B0 (by decide) 0 (by decide) slices_S4x128x128_S1x128x128_0_0_0 slices_S4x128_S1x128_0_0).step
        B1 (by decide) 1 (by decide) slices_S4x128x128_S1x128x128_1_0_0 slices_S4x128_S1x128_1_0).step
        B2 (by decide) 2 (by decide) slices_S4x128x128_S1x128x128_2_0_0 slices_S4x128_S1x128_2_0).step
        B3 (by decide) 3 (by decide) slices_S4x128x128_S1x128x128_3_0_0 slices_S4x128_S1x128_3_0⟩
  rw [hV, tail_value V4 _ h.rows, h.arg main_arg2, h.arg main_arg7, h.arg main_arg8, h.arg main_arg9, h.arg main_arg10]
  simp only [cur2_vec2]
  rfl

end Cert.GCN.RChain

end
-- ==== Proof.RValue.lean ====
import proofs.«401124_j9440338117505_1_alg».proof.Proof.Bridge
import proofs.«401124_j9440338117505_1_alg».proof.Proof.RefRun
import proofs.«401124_j9440338117505_1_alg».proof.Proof.RefValue

noncomputable section
open Idealize.ShloMosaic Idealize.ShloMosaic.TcCoe Idealize.SL.Sem Idealize.ShloMosaic.ValueIdx

namespace Cert.GCN.RChain
open Cert.GCN Cert.GCN.Final Cert.ReferenceIdeal

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v233) =
        vec2 (outR (cur2 (m ((c.tc : Thread nD τ).loc main_arg0))) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (cur2 (m ((c.tc : Thread nD τ).loc main_arg7))) (fun k => m ((c.tc : Thread nD τ).loc main_arg8) (ix1 k))
      (cur2 (m ((c.tc : Thread nD τ).loc main_arg9))) (fun k => m ((c.tc : Thread nD τ).loc main_arg10) (ix1 k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c =>
    ⟨(h c main_v233).trans (ref_value (StableHlo.launchContents m c)),
     (h c main_arg0).trans (Cert.RefRun.arg_0 (F := Ideal) (StableHlo.launchContents m c)),
     (h c main_arg1).trans (Cert.RefRun.arg_1 (F := Ideal) (StableHlo.launchContents m c)),
     (h c main_arg2).trans (Cert.RefRun.arg_2 (F := Ideal) (StableHlo.launchContents m c)),
     (h c main_arg3).trans (Cert.RefRun.arg_3 (F := Ideal) (StableHlo.launchContents m c)),
     (h c main_arg4).trans (Cert.RefRun.arg_4 (F := Ideal) (StableHlo.launchContents m c)),
     (h c main_arg5).trans (Cert.RefRun.arg_5 (F := Ideal) (StableHlo.launchContents m c)),
     (h c main_arg6).trans (Cert.RefRun.arg_6 (F := Ideal) (StableHlo.launchContents m c)),
     (h c main_arg7).trans (Cert.RefRun.arg_7 (F := Ideal) (StableHlo.launchContents m c)),
     (h c main_arg8).trans (Cert.RefRun.arg_8 (F := Ideal) (StableHlo.launchContents m c)),
     (h c main_arg9).trans (Cert.RefRun.arg_9 (F := Ideal) (StableHlo.launchContents m c)),
     (h c main_arg10).trans (Cert.RefRun.arg_10 (F := Ideal) (StableHlo.launchContents m c))⟩)
    (Cert.RefRun.run (F := Ideal) m ρ)

end Cert.GCN.RChain
end
-- ==== Proof.lean ====
import proofs.«401124_j9440338117505_1_alg».proof.Defs
import proofs.«401124_j9440338117505_1_alg».proof.Proof.Gen.Kernel
import proofs.«401124_j9440338117505_1_alg».proof.Proof.Gen.Kernel.Skeleton
import proofs.«401124_j9440338117505_1_alg».proof.Proof.Gen.Kernel.Launch
import proofs.«401124_j9440338117505_1_alg».proof.Proof.Gen.Kernel.Points
import proofs.«401124_j9440338117505_1_alg».proof.Proof.Gen.Kernel.Frame
import proofs.«401124_j9440338117505_1_alg».proof.Proof.Gen.KernelIdeal
import proofs.«401124_j9440338117505_1_alg».proof.Proof.Gen.KernelIdeal.Skeleton
import proofs.«401124_j9440338117505_1_alg».proof.Proof.Gen.KernelIdeal.Launch
import proofs.«401124_j9440338117505_1_alg».proof.Proof.Gen.KernelIdeal.Points
import proofs.«401124_j9440338117505_1_alg».proof.Proof.Gen.KernelIdeal.Frame
import proofs.«401124_j9440338117505_1_alg».proof.Proof.Gen.ReferenceIdeal
import proofs.«401124_j9440338117505_1_alg».proof.Proof.Gen.Pre_finite_inputs
import proofs.«401124_j9440338117505_1_alg».proof.Proof.KLaunch
import proofs.«401124_j9440338117505_1_alg».proof.Proof.PreFacts
import proofs.«401124_j9440338117505_1_alg».proof.Proof.Bridge
import proofs.«401124_j9440338117505_1_alg».proof.Proof.KValue
import proofs.«401124_j9440338117505_1_alg».proof.Proof.RValue
import Idealize.ShloMosaic.Adequacy
import Idealize.ShloMosaic.Init

noncomputable section

namespace Cert.Proof

open Idealize.ShloMosaic Idealize.ShloMosaic.TcCoe Idealize.SL.Sem Idealize.ShloMosaic.ValueIdx
open Cert.GCN Cert.GCN.Final

-- the reference's frame is its run with the result forgotten
theorem frame_ref : Cert.frame_ReferenceIdeal := fun m ρ _ =>
  (θ_run Cert.ReferenceIdeal.defs _ _).mono (fun _ h c => (h c).2) (Cert.GCN.RChain.ref_run m ρ)

-- both results are one function of the arguments: the kernel's read off its regions, the reference's off its operations
theorem algebraic : Cert.algebraic_KernelIdeal_ReferenceIdeal := by
  intro m ρ m' ρ' hpre hagree
  refine ⟨_, (θ_run Cert.KernelIdeal.defs _ _).mono
    (fun r h c => ⟨(h c).1.trans (Cert.GCN.KChain.kernel_value m ρ c), (h c).2⟩)
    (Cert.KernelIdeal.GenRun.run_value (F := Ideal) m ρ), ?_⟩
  refine (θ_run Cert.ReferenceIdeal.defs _ _).mono (fun r h c => ⟨?_, (h c).2⟩) (Cert.GCN.RChain.ref_run m' ρ')
  obtain ⟨hx, hcw, hcb, hg, hbe, hb⟩ := PreFacts.parts (hpre c)
  obtain ⟨e0, e1, e2, e3, e4, e5, e6, e7, e8, e9, e10⟩ := hagree c
  rw [(h c).1, e0, e1, e2, e3, e4, e5, e6, e7, e8, e9, e10]
  exact congrArg vec2 (out_eq _ _ _ _ _ _ _ _ _ _ _ (isReal2_of_ne _ fun r j => hx (ix2 r j)) hcw hcb hg hbe hb).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
